-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 8192]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 8192]⟩ 2 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S4x512x256 .f32) (main_arg1 : FVec F S4x128 .f32) (main_arg2 : FVec F S128x256 .f32) (main_arg3 : FVec F S128x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Pre_finite_inputs_ReferenceIdeal.lean ====
abbrev S4x512x8192 : Shape := ⟨3, ![4, 512, 8192]⟩
abbrev S4x128 : Shape := ⟨2, ![4, 128]⟩
abbrev S128x8192 : Shape := ⟨2, ![128, 8192]⟩
abbrev S_ : Shape := ⟨0, ![]⟩

class Facts : Prop where
  bcast_S_S4x512x8192 : S_.BroadcastsInDim S4x512x8192 (![] : Fin 0 → Fin S4x512x8192.rank)
  reducesTo_S4x512x8192_S_d0_1_2 : S4x512x8192.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x8192 : S_.BroadcastsInDim S128x8192 (![] : Fin 0 → Fin S128x8192.rank)
  reducesTo_S128x8192_S_d0_1 : S128x8192.ReducesTo [0, 1] S_

variable [Facts]

def fn_part1 {F : FTy → Type} [FloatOps F] (main_v13 : IVec S_ 1) (main_v16 : IVec S128x8192 1) : IVec S_ 1 :=
  let main_c_5 : IVec S_ 1 := constantI S_ 1 1#1
  let main_v17 : IVec S_ 1 := (fun x v => Host.reduce IntOp.andi x v reducesTo_S128x8192_S_d0_1 h_S_) main_v16 main_c_5
  let main_v18 : IVec S_ 1 := andi main_v13 main_v17
  main_v18

def fn {F : FTy → Type} [FloatOps F] (main_arg0 : FVec F S4x512x8192 .f32) (main_arg1 : FVec F S4x128 .f32) (main_arg2 : FVec F S128x8192 .f32) (main_arg3 : FVec F S128x8192 .f32) : IVec S_ 1 :=
  let main_v0 : FVec F S4x512x8192 .f32 := Host.absf main_arg0
  let main_cst : FVec F S_ .f32 := constant S_ .f32 0x7F800000#32
  let main_v1 : FVec F S4x512x8192 .f32 := broadcastInDim S4x512x8192 ![] bcast_S_S4x512x8192 main_cst
  let main_v2 : IVec S4x512x8192 1 := cmpf .olt main_v0 main_v1
  let main_c : IVec S_ 1 := constantI S_ 1 1#1
  let main_v3 : IVec S_ 1 := (fun x v => Host.reduce IntOp.andi x v reducesTo_S4x512x8192_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x8192 .f32 := Host.absf main_arg2
  let main_cst_2 : FVec F S_ .f32 := constant S_ .f32 0x7F800000#32
  let main_v10 : FVec F S128x8192 .f32 := broadcastInDim S128x8192 ![] bcast_S_S128x8192 main_cst_2
  let main_v11 : IVec S128x8192 1 := cmpf .olt main_v9 main_v10
  let main_c_3 : IVec S_ 1 := constantI S_ 1 1#1
  let main_v12 : IVec S_ 1 := (fun x v => Host.reduce IntOp.andi x v reducesTo_S128x8192_S_d0_1 h_S_) main_v11 main_c_3
  let main_v13 : IVec S_ 1 := andi main_v8 main_v12
  let main_v14 : FVec F S128x8192 .f32 := Host.absf main_arg3
  let main_cst_4 : FVec F S_ .f32 := constant S_ .f32 0x7F800000#32
  let main_v15 : FVec F S128x8192 .f32 := broadcastInDim S128x8192 ![] bcast_S_S128x8192 main_cst_4
  let main_v16 : IVec S128x8192 1 := cmpf .olt main_v14 main_v15
  fn_part1 (F := F) main_v13 main_v16
-- ==== Kernel.lean ====
abbrev S4x512x256 : Shape := ⟨3, ![4, 512, 256]⟩
abbrev S4x128 : Shape := ⟨2, ![4, 128]⟩
abbrev S128x256 : Shape := ⟨2, ![128, 256]⟩
abbrev S2x4x512 : Shape := ⟨3, ![2, 4, 512]⟩
abbrev S32x2x4x512 : Shape := ⟨4, ![32, 2, 4, 512]⟩
abbrev S4 : Shape := ⟨1, ![4]⟩
abbrev S32 : Shape := ⟨1, ![32]⟩
abbrev S_ : Shape := ⟨0, ![]⟩
abbrev S1 : Shape := ⟨1, ![1]⟩
abbrev S1x512x256 : Shape := ⟨3, ![1, 512, 256]⟩
abbrev S512x256 : Shape := ⟨2, ![512, 256]⟩
abbrev S4x256 : Shape := ⟨2, ![4, 256]⟩
abbrev S512 : Shape := ⟨1, ![512]⟩
abbrev S1x512 : Shape := ⟨2, ![1, 512]⟩
abbrev S4x512 : Shape := ⟨2, ![4, 512]⟩
abbrev S1x4x512 : Shape := ⟨3, ![1, 4, 512]⟩
abbrev S1x2x4x512 : Shape := ⟨4, ![1, 2, 4, 512]⟩
abbrev S32x1x1x1 : Shape := ⟨4, ![32, 1, 1, 1]⟩
abbrev S4x512x1 : Shape := ⟨3, ![4, 512, 1]⟩
abbrev S4x1x256 : Shape := ⟨3, ![4, 1, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x512x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x512x256, .f32⟩
  | .local _ .vmem, ⟨0, _⟩ => ⟨S4x128, .f32⟩
  | .local _ .vmem, ⟨1, _⟩ => ⟨S128x256, .f32⟩
  | .local _ .vmem, ⟨2, _⟩ => ⟨S128x256, .f32⟩
  | .local _ .vmem, ⟨3, _⟩ => ⟨S4x512x256, .f32⟩
  | .local _ .vmem, ⟨4, _⟩ => ⟨S4x512x256, .f32⟩
  | .local _ .vmem, ⟨5, _⟩ => ⟨S2x4x512, .bf16⟩
  | .local _ .vmem, ⟨6, _⟩ => ⟨S32x2x4x512, .bf16⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_265 : BitVec 32 := 0#32
  let c0_i32_263 : BitVec 32 := 0#32
  let c1_i32_264 : BitVec 32 := 1#32
  let v427 : BitVec 32 := Scalar.muli c0_i32_263 c1_i32_264
  let v428 : BitVec 32 := Scalar.addi c0_i32_265 v427
  v428.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_265 : BitVec 32 := 0#32
  let c1_i32_263 : BitVec 32 := 1#32
  let c1_i32_264 : BitVec 32 := 1#32
  let v427 : BitVec 32 := Scalar.muli c1_i32_263 c1_i32_264
  let v428 : BitVec 32 := Scalar.addi c0_i32_265 v427
  v428.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_265 : BitVec 32 := 0#32
  let c2_i32_263 : BitVec 32 := 2#32
  let c1_i32_264 : BitVec 32 := 1#32
  let v427 : BitVec 32 := Scalar.muli c2_i32_263 c1_i32_264
  let v428 : BitVec 32 := Scalar.addi c0_i32_265 v427
  v428.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_265 : BitVec 32 := 0#32
  let c3_i32_263 : BitVec 32 := 3#32
  let c1_i32_264 : BitVec 32 := 1#32
  let v427 : BitVec 32 := Scalar.muli c3_i32_263 c1_i32_264
  let v428 : BitVec 32 := Scalar.addi c0_i32_265 v427
  v428.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_265 : BitVec 32 := 0#32
  let c4_i32_263 : BitVec 32 := 4#32
  let c1_i32_264 : BitVec 32 := 1#32
  let v427 : BitVec 32 := Scalar.muli c4_i32_263 c1_i32_264
  let v428 : BitVec 32 := Scalar.addi c0_i32_265 v427
  v428.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_265 : BitVec 32 := 0#32
  let c5_i32_263 : BitVec 32 := 5#32
  let c1_i32_264 : BitVec 32 := 1#32
  let v427 : BitVec 32 := Scalar.muli c5_i32_263 c1_i32_264
  let v428 : BitVec 32 := Scalar.addi c0_i32_265 v427
  v428.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_265 : BitVec 32 := 0#32
  let c6_i32_263 : BitVec 32 := 6#32
  let c1_i32_264 : BitVec 32 := 1#32
  let v427 : BitVec 32 := Scalar.muli c6_i32_263 c1_i32_264
  let v428 : BitVec 32 := Scalar.addi c0_i32_265 v427
  v428.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_265 : BitVec 32 := 0#32
  let c7_i32_263 : BitVec 32 := 7#32
  let c1_i32_264 : BitVec 32 := 1#32
  let v427 : BitVec 32 := Scalar.muli c7_i32_263 c1_i32_264
  let v428 : BitVec 32 := Scalar.addi c0_i32_265 v427
  v428.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_265 : BitVec 32 := 0#32
  let c8_i32_263 : BitVec 32 := 8#32
  let c1_i32_264 : BitVec 32 := 1#32
  let v427 : BitVec 32 := Scalar.muli c8_i32_263 c1_i32_264
  let v428 : BitVec 32 := Scalar.addi c0_i32_265 v427
  v428.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_265 : BitVec 32 := 0#32
  let c9_i32_263 : BitVec 32 := 9#32
  let c1_i32_264 : BitVec 32 := 1#32
  let v427 : BitVec 32 := Scalar.muli c9_i32_263 c1_i32_264
  let v428 : BitVec 32 := Scalar.addi c0_i32_265 v427
  v428.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_265 : BitVec 32 := 0#32
  let c10_i32_263 : BitVec 32 := 10#32
  let c1_i32_264 : BitVec 32 := 1#32
  let v427 : BitVec 32 := Scalar.muli c10_i32_263 c1_i32_264
  let v428 : BitVec 32 := Scalar.addi c0_i32_265 v427
  v428.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_265 : BitVec 32 := 0#32
  let c11_i32_263 : BitVec 32 := 11#32
  let c1_i32_264 : BitVec 32 := 1#32
  let v427 : BitVec 32 := Scalar.muli c11_i32_263 c1_i32_264
  let v428 : BitVec 32 := Scalar.addi c0_i32_265 v427
  v428.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_265 : BitVec 32 := 0#32
  let c12_i32_263 : BitVec 32 := 12#32
  let c1_i32_264 : BitVec 32 := 1#32
  let v427 : BitVec 32 := Scalar.muli c12_i32_263 c1_i32_264
  let v428 : BitVec 32 := Scalar.addi c0_i32_265 v427
  v428.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_265 : BitVec 32 := 0#32
  let c13_i32_263 : BitVec 32 := 13#32
  let c1_i32_264 : BitVec 32 := 1#32
  let v427 : BitVec 32 := Scalar.muli c13_i32_263 c1_i32_264
  let v428 : BitVec 32 := Scalar.addi c0_i32_265 v427
  v428.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_265 : BitVec 32 := 0#32
  let c14_i32_263 : BitVec 32 := 14#32
  let c1_i32_264 : BitVec 32 := 1#32
  let v427 : BitVec 32 := Scalar.muli c14_i32_263 c1_i32_264
  let v428 : BitVec 32 := Scalar.addi c0_i32_265 v427
  v428.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_265 : BitVec 32 := 0#32
  let c15_i32_263 : BitVec 32 := 15#32
  let c1_i32_264 : BitVec 32 := 1#32
  let v427 : BitVec 32 := Scalar.muli c15_i32_263 c1_i32_264
  let v428 : BitVec 32 := Scalar.addi c0_i32_265 v427
  v428.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_265 : BitVec 32 := 0#32
  let c16_i32_263 : BitVec 32 := 16#32
  let c1_i32_264 : BitVec 32 := 1#32
  let v427 : BitVec 32 := Scalar.muli c16_i32_263 c1_i32_264
  let v428 : BitVec 32 := Scalar.addi c0_i32_265 v427
  v428.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_265 : BitVec 32 := 0#32
  let c17_i32_263 : BitVec 32 := 17#32
  let c1_i32_264 : BitVec 32 := 1#32
  let v427 : BitVec 32 := Scalar.muli c17_i32_263 c1_i32_264
  let v428 : BitVec 32 := Scalar.addi c0_i32_265 v427
  v428.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_265 : BitVec 32 := 0#32
  let c18_i32_263 : BitVec 32 := 18#32
  let c1_i32_264 : BitVec 32 := 1#32
  let v427 : BitVec 32 := Scalar.muli c18_i32_263 c1_i32_264
  let v428 : BitVec 32 := Scalar.addi c0_i32_265 v427
  v428.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_265 : BitVec 32 := 0#32
  let c19_i32_263 : BitVec 32 := 19#32
  let c1_i32_264 : BitVec 32 := 1#32
  let v427 : BitVec 32 := Scalar.muli c19_i32_263 c1_i32_264
  let v428 : BitVec 32 := Scalar.addi c0_i32_265 v427
  v428.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_265 : BitVec 32 := 0#32
  let c20_i32_263 : BitVec 32 := 20#32
  let c1_i32_264 : BitVec 32 := 1#32
  let v427 : BitVec 32 := Scalar.muli c20_i32_263 c1_i32_264
  let v428 : BitVec 32 := Scalar.addi c0_i32_265 v427
  v428.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_265 : BitVec 32 := 0#32
  let c21_i32_263 : BitVec 32 := 21#32
  let c1_i32_264 : BitVec 32 := 1#32
  let v427 : BitVec 32 := Scalar.muli c21_i32_263 c1_i32_264
  let v428 : BitVec 32 := Scalar.addi c0_i32_265 v427
  v428.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_265 : BitVec 32 := 0#32
  let c22_i32_263 : BitVec 32 := 22#32
  let c1_i32_264 : BitVec 32 := 1#32
  let v427 : BitVec 32 := Scalar.muli c22_i32_263 c1_i32_264
  let v428 : BitVec 32 := Scalar.addi c0_i32_265 v427
  v428.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_265 : BitVec 32 := 0#32
  let c23_i32_263 : BitVec 32 := 23#32
  let c1_i32_264 : BitVec 32 := 1#32
  let v427 : BitVec 32 := Scalar.muli c23_i32_263 c1_i32_264
  let v428 : BitVec 32 := Scalar.addi c0_i32_265 v427
  v428.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_265 : BitVec 32 := 0#32
  let c24_i32_263 : BitVec 32 := 24#32
  let c1_i32_264 : BitVec 32 := 1#32
  let v427 : BitVec 32 := Scalar.muli c24_i32_263 c1_i32_264
  let v428 : BitVec 32 := Scalar.addi c0_i32_265 v427
  v428.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_265 : BitVec 32 := 0#32
  let c25_i32_263 : BitVec 32 := 25#32
  let c1_i32_264 : BitVec 32 := 1#32
  let v427 : BitVec 32 := Scalar.muli c25_i32_263 c1_i32_264
  let v428 : BitVec 32 := Scalar.addi c0_i32_265 v427
  v428.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_265 : BitVec 32 := 0#32
  let c26_i32_263 : BitVec 32 := 26#32
  let c1_i32_264 : BitVec 32 := 1#32
  let v427 : BitVec 32 := Scalar.muli c26_i32_263 c1_i32_264
  let v428 : BitVec 32 := Scalar.addi c0_i32_265 v427
  v428.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_265 : BitVec 32 := 0#32
  let c27_i32_263 : BitVec 32 := 27#32
  let c1_i32_264 : BitVec 32 := 1#32
  let v427 : BitVec 32 := Scalar.muli c27_i32_263 c1_i32_264
  let v428 : BitVec 32 := Scalar.addi c0_i32_265 v427
  v428.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_265 : BitVec 32 := 0#32
  let c28_i32_263 : BitVec 32 := 28#32
  let c1_i32_264 : BitVec 32 := 1#32
  let v427 : BitVec 32 := Scalar.muli c28_i32_263 c1_i32_264
  let v428 : BitVec 32 := Scalar.addi c0_i32_265 v427
  v428.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_265 : BitVec 32 := 0#32
  let c29_i32_263 : BitVec 32 := 29#32
  let c1_i32_264 : BitVec 32 := 1#32
  let v427 : BitVec 32 := Scalar.muli c29_i32_263 c1_i32_264
  let v428 : BitVec 32 := Scalar.addi c0_i32_265 v427
  v428.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_265 : BitVec 32 := 0#32
  let c30_i32_263 : BitVec 32 := 30#32
  let c1_i32_264 : BitVec 32 := 1#32
  let v427 : BitVec 32 := Scalar.muli c30_i32_263 c1_i32_264
  let v428 : BitVec 32 := Scalar.addi c0_i32_265 v427
  v428.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_265 : BitVec 32 := 0#32
  let c31_i32_263 : BitVec 32 := 31#32
  let c1_i32_264 : BitVec 32 := 1#32
  let v427 : BitVec 32 := Scalar.muli c31_i32_263 c1_i32_264
  let v428 : BitVec 32 := Scalar.addi c0_i32_265 v427
  v428.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_118 : BitVec 32 := 0#32
  let v195 : BitVec 1 := Scalar.cmpi .ne v2 c0_i32_118
  let v196 : BitVec 32 := Scalar.extui v195
  let c0_i32_119 : BitVec 32 := 0#32
  let v197 : BitVec 1 := Scalar.cmpi .ne v196 c0_i32_119
  v197

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev33 : Nat :=
  let c0_i32_265 : BitVec 32 := 0#32
  let c0_i32_263 : BitVec 32 := 0#32
  let c1_i32_264 : BitVec 32 := 1#32
  let v427 : BitVec 32 := Scalar.muli c0_i32_263 c1_i32_264
  let v428 : BitVec 32 := Scalar.addi c0_i32_265 v427
  v428.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_120 : BitVec 32 := 1#32
  let v198 : BitVec 1 := Scalar.cmpi .ne v2 c1_i32_120
  let v199 : BitVec 32 := Scalar.extui v198
  let c0_i32_121 : BitVec 32 := 0#32
  let v200 : BitVec 1 := Scalar.cmpi .ne v199 c0_i32_121
  v200

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev34 : Nat :=
  let c0_i32_265 : BitVec 32 := 0#32
  let c1_i32_263 : BitVec 32 := 1#32
  let c1_i32_264 : BitVec 32 := 1#32
  let v427 : BitVec 32 := Scalar.muli c1_i32_263 c1_i32_264
  let v428 : BitVec 32 := Scalar.addi c0_i32_265 v427
  v428.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_122 : BitVec 32 := 2#32
  let v201 : BitVec 1 := Scalar.cmpi .ne v2 c2_i32_122
  let v202 : BitVec 32 := Scalar.extui v201
  let c0_i32_123 : BitVec 32 := 0#32
  let v203 : BitVec 1 := Scalar.cmpi .ne v202 c0_i32_123
  v203

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev35 : Nat :=
  let c0_i32_265 : BitVec 32 := 0#32
  let c2_i32_263 : BitVec 32 := 2#32
  let c1_i32_264 : BitVec 32 := 1#32
  let v427 : BitVec 32 := Scalar.muli c2_i32_263 c1_i32_264
  let v428 : BitVec 32 := Scalar.addi c0_i32_265 v427
  v428.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_124 : BitVec 32 := 3#32
  let v204 : BitVec 1 := Scalar.cmpi .ne v2 c3_i32_124
  let v205 : BitVec 32 := Scalar.extui v204
  let c0_i32_125 : BitVec 32 := 0#32
  let v206 : BitVec 1 := Scalar.cmpi .ne v205 c0_i32_125
  v206

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev36 : Nat :=
  let c0_i32_265 : BitVec 32 := 0#32
  let c3_i32_263 : BitVec 32 := 3#32
  let c1_i32_264 : BitVec 32 := 1#32
  let v427 : BitVec 32 := Scalar.muli c3_i32_263 c1_i32_264
  let v428 : BitVec 32 := Scalar.addi c0_i32_265 v427
  v428.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_126 : BitVec 32 := 4#32
  let v207 : BitVec 1 := Scalar.cmpi .ne v2 c4_i32_126
  let v208 : BitVec 32 := Scalar.extui v207
  let c0_i32_127 : BitVec 32 := 0#32
  let v209 : BitVec 1 := Scalar.cmpi .ne v208 c0_i32_127
  v209

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev37 : Nat :=
  let c0_i32_265 : BitVec 32 := 0#32
  let c4_i32_263 : BitVec 32 := 4#32
  let c1_i32_264 : BitVec 32 := 1#32
  let v427 : BitVec 32 := Scalar.muli c4_i32_263 c1_i32_264
  let v428 : BitVec 32 := Scalar.addi c0_i32_265 v427
  v428.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_128 : BitVec 32 := 5#32
  let v210 : BitVec 1 := Scalar.cmpi .ne v2 c5_i32_128
  let v211 : BitVec 32 := Scalar.extui v210
  let c0_i32_129 : BitVec 32 := 0#32
  let v212 : BitVec 1 := Scalar.cmpi .ne v211 c0_i32_129
  v212

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev38 : Nat :=
  let c0_i32_265 : BitVec 32 := 0#32
  let c5_i32_263 : BitVec 32 := 5#32
  let c1_i32_264 : BitVec 32 := 1#32
  let v427 : BitVec 32 := Scalar.muli c5_i32_263 c1_i32_264
  let v428 : BitVec 32 := Scalar.addi c0_i32_265 v427
  v428.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_130 : BitVec 32 := 6#32
  let v213 : BitVec 1 := Scalar.cmpi .ne v2 c6_i32_130
  let v214 : BitVec 32 := Scalar.extui v213
  let c0_i32_131 : BitVec 32 := 0#32
  let v215 : BitVec 1 := Scalar.cmpi .ne v214 c0_i32_131
  v215

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev39 : Nat :=
  let c0_i32_265 : BitVec 32 := 0#32
  let c6_i32_263 : BitVec 32 := 6#32
  let c1_i32_264 : BitVec 32 := 1#32
  let v427 : BitVec 32 := Scalar.muli c6_i32_263 c1_i32_264
  let v428 : BitVec 32 := Scalar.addi c0_i32_265 v427
  v428.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_132 : BitVec 32 := 7#32
  let v216 : BitVec 1 := Scalar.cmpi .ne v2 c7_i32_132
  let v217 : BitVec 32 := Scalar.extui v216
  let c0_i32_133 : BitVec 32 := 0#32
  let v218 : BitVec 1 := Scalar.cmpi .ne v217 c0_i32_133
  v218

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev40 : Nat :=
  let c0_i32_265 : BitVec 32 := 0#32
  let c7_i32_263 : BitVec 32 := 7#32
  let c1_i32_264 : BitVec 32 := 1#32
  let v427 : BitVec 32 := Scalar.muli c7_i32_263 c1_i32_264
  let v428 : BitVec 32 := Scalar.addi c0_i32_265 v427
  v428.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_134 : BitVec 32 := 8#32
  let v219 : BitVec 1 := Scalar.cmpi .ne v2 c8_i32_134
  let v220 : BitVec 32 := Scalar.extui v219
  let c0_i32_135 : BitVec 32 := 0#32
  let v221 : BitVec 1 := Scalar.cmpi .ne v220 c0_i32_135
  v221

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev41 : Nat :=
  let c0_i32_265 : BitVec 32 := 0#32
  let c8_i32_263 : BitVec 32 := 8#32
  let c1_i32_264 : BitVec 32 := 1#32
  let v427 : BitVec 32 := Scalar.muli c8_i32_263 c1_i32_264
  let v428 : BitVec 32 := Scalar.addi c0_i32_265 v427
  v428.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_136 : BitVec 32 := 9#32
  let v222 : BitVec 1 := Scalar.cmpi .ne v2 c9_i32_136
  let v223 : BitVec 32 := Scalar.extui v222
  let c0_i32_137 : BitVec 32 := 0#32
  let v224 : BitVec 1 := Scalar.cmpi .ne v223 c0_i32_137
  v224

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev42 : Nat :=
  let c0_i32_265 : BitVec 32 := 0#32
  let c9_i32_263 : BitVec 32 := 9#32
  let c1_i32_264 : BitVec 32 := 1#32
  let v427 : BitVec 32 := Scalar.muli c9_i32_263 c1_i32_264
  let v428 : BitVec 32 := Scalar.addi c0_i32_265 v427
  v428.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_138 : BitVec 32 := 10#32
  let v225 : BitVec 1 := Scalar.cmpi .ne v2 c10_i32_138
  let v226 : BitVec 32 := Scalar.extui v225
  let c0_i32_139 : BitVec 32 := 0#32
  let v227 : BitVec 1 := Scalar.cmpi .ne v226 c0_i32_139
  v227

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev43 : Nat :=
  let c0_i32_265 : BitVec 32 := 0#32
  let c10_i32_263 : BitVec 32 := 10#32
  let c1_i32_264 : BitVec 32 := 1#32
  let v427 : BitVec 32 := Scalar.muli c10_i32_263 c1_i32_264
  let v428 : BitVec 32 := Scalar.addi c0_i32_265 v427
  v428.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_140 : BitVec 32 := 11#32
  let v228 : BitVec 1 := Scalar.cmpi .ne v2 c11_i32_140
  let v229 : BitVec 32 := Scalar.extui v228
  let c0_i32_141 : BitVec 32 := 0#32
  let v230 : BitVec 1 := Scalar.cmpi .ne v229 c0_i32_141
  v230

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev44 : Nat :=
  let c0_i32_265 : BitVec 32 := 0#32
  let c11_i32_263 : BitVec 32 := 11#32
  let c1_i32_264 : BitVec 32 := 1#32
  let v427 : BitVec 32 := Scalar.muli c11_i32_263 c1_i32_264
  let v428 : BitVec 32 := Scalar.addi c0_i32_265 v427
  v428.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_142 : BitVec 32 := 12#32
  let v231 : BitVec 1 := Scalar.cmpi .ne v2 c12_i32_142
  let v232 : BitVec 32 := Scalar.extui v231
  let c0_i32_143 : BitVec 32 := 0#32
  let v233 : BitVec 1 := Scalar.cmpi .ne v232 c0_i32_143
  v233

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev45 : Nat :=
  let c0_i32_265 : BitVec 32 := 0#32
  let c12_i32_263 : BitVec 32 := 12#32
  let c1_i32_264 : BitVec 32 := 1#32
  let v427 : BitVec 32 := Scalar.muli c12_i32_263 c1_i32_264
  let v428 : BitVec 32 := Scalar.addi c0_i32_265 v427
  v428.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_144 : BitVec 32 := 13#32
  let v234 : BitVec 1 := Scalar.cmpi .ne v2 c13_i32_144
  let v235 : BitVec 32 := Scalar.extui v234
  let c0_i32_145 : BitVec 32 := 0#32
  let v236 : BitVec 1 := Scalar.cmpi .ne v235 c0_i32_145
  v236

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev46 : Nat :=
  let c0_i32_265 : BitVec 32 := 0#32
  let c13_i32_263 : BitVec 32 := 13#32
  let c1_i32_264 : BitVec 32 := 1#32
  let v427 : BitVec 32 := Scalar.muli c13_i32_263 c1_i32_264
  let v428 : BitVec 32 := Scalar.addi c0_i32_265 v427
  v428.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_146 : BitVec 32 := 14#32
  let v237 : BitVec 1 := Scalar.cmpi .ne v2 c14_i32_146
  let v238 : BitVec 32 := Scalar.extui v237
  let c0_i32_147 : BitVec 32 := 0#32
  let v239 : BitVec 1 := Scalar.cmpi .ne v238 c0_i32_147
  v239

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev47 : Nat :=
  let c0_i32_265 : BitVec 32 := 0#32
  let c14_i32_263 : BitVec 32 := 14#32
  let c1_i32_264 : BitVec 32 := 1#32
  let v427 : BitVec 32 := Scalar.muli c14_i32_263 c1_i32_264
  let v428 : BitVec 32 := Scalar.addi c0_i32_265 v427
  v428.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_148 : BitVec 32 := 15#32
  let v240 : BitVec 1 := Scalar.cmpi .ne v2 c15_i32_148
  let v241 : BitVec 32 := Scalar.extui v240
  let c0_i32_149 : BitVec 32 := 0#32
  let v242 : BitVec 1 := Scalar.cmpi .ne v241 c0_i32_149
  v242

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev48 : Nat :=
  let c0_i32_265 : BitVec 32 := 0#32
  let c15_i32_263 : BitVec 32 := 15#32
  let c1_i32_264 : BitVec 32 := 1#32
  let v427 : BitVec 32 := Scalar.muli c15_i32_263 c1_i32_264
  let v428 : BitVec 32 := Scalar.addi c0_i32_265 v427
  v428.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_150 : BitVec 32 := 16#32
  let v243 : BitVec 1 := Scalar.cmpi .ne v2 c16_i32_150
  let v244 : BitVec 32 := Scalar.extui v243
  let c0_i32_151 : BitVec 32 := 0#32
  let v245 : BitVec 1 := Scalar.cmpi .ne v244 c0_i32_151
  v245

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev49 : Nat :=
  let c0_i32_265 : BitVec 32 := 0#32
  let c16_i32_263 : BitVec 32 := 16#32
  let c1_i32_264 : BitVec 32 := 1#32
  let v427 : BitVec 32 := Scalar.muli c16_i32_263 c1_i32_264
  let v428 : BitVec 32 := Scalar.addi c0_i32_265 v427
  v428.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_152 : BitVec 32 := 17#32
  let v246 : BitVec 1 := Scalar.cmpi .ne v2 c17_i32_152
  let v247 : BitVec 32 := Scalar.extui v246
  let c0_i32_153 : BitVec 32 := 0#32
  let v248 : BitVec 1 := Scalar.cmpi .ne v247 c0_i32_153
  v248

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev50 : Nat :=
  let c0_i32_265 : BitVec 32 := 0#32
  let c17_i32_263 : BitVec 32 := 17#32
  let c1_i32_264 : BitVec 32 := 1#32
  let v427 : BitVec 32 := Scalar.muli c17_i32_263 c1_i32_264
  let v428 : BitVec 32 := Scalar.addi c0_i32_265 v427
  v428.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_154 : BitVec 32 := 18#32
  let v249 : BitVec 1 := Scalar.cmpi .ne v2 c18_i32_154
  let v250 : BitVec 32 := Scalar.extui v249
  let c0_i32_155 : BitVec 32 := 0#32
  let v251 : BitVec 1 := Scalar.cmpi .ne v250 c0_i32_155
  v251

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev51 : Nat :=
  let c0_i32_265 : BitVec 32 := 0#32
  let c18_i32_263 : BitVec 32 := 18#32
  let c1_i32_264 : BitVec 32 := 1#32
  let v427 : BitVec 32 := Scalar.muli c18_i32_263 c1_i32_264
  let v428 : BitVec 32 := Scalar.addi c0_i32_265 v427
  v428.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_156 : BitVec 32 := 19#32
  let v252 : BitVec 1 := Scalar.cmpi .ne v2 c19_i32_156
  let v253 : BitVec 32 := Scalar.extui v252
  let c0_i32_157 : BitVec 32 := 0#32
  let v254 : BitVec 1 := Scalar.cmpi .ne v253 c0_i32_157
  v254

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev52 : Nat :=
  let c0_i32_265 : BitVec 32 := 0#32
  let c19_i32_263 : BitVec 32 := 19#32
  let c1_i32_264 : BitVec 32 := 1#32
  let v427 : BitVec 32 := Scalar.muli c19_i32_263 c1_i32_264
  let v428 : BitVec 32 := Scalar.addi c0_i32_265 v427
  v428.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_158 : BitVec 32 := 20#32
  let v255 : BitVec 1 := Scalar.cmpi .ne v2 c20_i32_158
  let v256 : BitVec 32 := Scalar.extui v255
  let c0_i32_159 : BitVec 32 := 0#32
  let v257 : BitVec 1 := Scalar.cmpi .ne v256 c0_i32_159
  v257

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev53 : Nat :=
  let c0_i32_265 : BitVec 32 := 0#32
  let c20_i32_263 : BitVec 32 := 20#32
  let c1_i32_264 : BitVec 32 := 1#32
  let v427 : BitVec 32 := Scalar.muli c20_i32_263 c1_i32_264
  let v428 : BitVec 32 := Scalar.addi c0_i32_265 v427
  v428.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_160 : BitVec 32 := 21#32
  let v258 : BitVec 1 := Scalar.cmpi .ne v2 c21_i32_160
  let v259 : BitVec 32 := Scalar.extui v258
  let c0_i32_161 : BitVec 32 := 0#32
  let v260 : BitVec 1 := Scalar.cmpi .ne v259 c0_i32_161
  v260

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev54 : Nat :=
  let c0_i32_265 : BitVec 32 := 0#32
  let c21_i32_263 : BitVec 32 := 21#32
  let c1_i32_264 : BitVec 32 := 1#32
  let v427 : BitVec 32 := Scalar.muli c21_i32_263 c1_i32_264
  let v428 : BitVec 32 := Scalar.addi c0_i32_265 v427
  v428.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_162 : BitVec 32 := 22#32
  let v261 : BitVec 1 := Scalar.cmpi .ne v2 c22_i32_162
  let v262 : BitVec 32 := Scalar.extui v261
  let c0_i32_163 : BitVec 32 := 0#32
  let v263 : BitVec 1 := Scalar.cmpi .ne v262 c0_i32_163
  v263

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev55 : Nat :=
  let c0_i32_265 : BitVec 32 := 0#32
  let c22_i32_263 : BitVec 32 := 22#32
  let c1_i32_264 : BitVec 32 := 1#32
  let v427 : BitVec 32 := Scalar.muli c22_i32_263 c1_i32_264
  let v428 : BitVec 32 := Scalar.addi c0_i32_265 v427
  v428.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_164 : BitVec 32 := 23#32
  let v264 : BitVec 1 := Scalar.cmpi .ne v2 c23_i32_164
  let v265 : BitVec 32 := Scalar.extui v264
  let c0_i32_165 : BitVec 32 := 0#32
  let v266 : BitVec 1 := Scalar.cmpi .ne v265 c0_i32_165
  v266

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev56 : Nat :=
  let c0_i32_265 : BitVec 32 := 0#32
  let c23_i32_263 : BitVec 32 := 23#32
  let c1_i32_264 : BitVec 32 := 1#32
  let v427 : BitVec 32 := Scalar.muli c23_i32_263 c1_i32_264
  let v428 : BitVec 32 := Scalar.addi c0_i32_265 v427
  v428.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_166 : BitVec 32 := 24#32
  let v267 : BitVec 1 := Scalar.cmpi .ne v2 c24_i32_166
  let v268 : BitVec 32 := Scalar.extui v267
  let c0_i32_167 : BitVec 32 := 0#32
  let v269 : BitVec 1 := Scalar.cmpi .ne v268 c0_i32_167
  v269

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev57 : Nat :=
  let c0_i32_265 : BitVec 32 := 0#32
  let c24_i32_263 : BitVec 32 := 24#32
  let c1_i32_264 : BitVec 32 := 1#32
  let v427 : BitVec 32 := Scalar.muli c24_i32_263 c1_i32_264
  let v428 : BitVec 32 := Scalar.addi c0_i32_265 v427
  v428.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_168 : BitVec 32 := 25#32
  let v270 : BitVec 1 := Scalar.cmpi .ne v2 c25_i32_168
  let v271 : BitVec 32 := Scalar.extui v270
  let c0_i32_169 : BitVec 32 := 0#32
  let v272 : BitVec 1 := Scalar.cmpi .ne v271 c0_i32_169
  v272

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev58 : Nat :=
  let c0_i32_265 : BitVec 32 := 0#32
  let c25_i32_263 : BitVec 32 := 25#32
  let c1_i32_264 : BitVec 32 := 1#32
  let v427 : BitVec 32 := Scalar.muli c25_i32_263 c1_i32_264
  let v428 : BitVec 32 := Scalar.addi c0_i32_265 v427
  v428.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_170 : BitVec 32 := 26#32
  let v273 : BitVec 1 := Scalar.cmpi .ne v2 c26_i32_170
  let v274 : BitVec 32 := Scalar.extui v273
  let c0_i32_171 : BitVec 32 := 0#32
  let v275 : BitVec 1 := Scalar.cmpi .ne v274 c0_i32_171
  v275

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev59 : Nat :=
  let c0_i32_265 : BitVec 32 := 0#32
  let c26_i32_263 : BitVec 32 := 26#32
  let c1_i32_264 : BitVec 32 := 1#32
  let v427 : BitVec 32 := Scalar.muli c26_i32_263 c1_i32_264
  let v428 : BitVec 32 := Scalar.addi c0_i32_265 v427
  v428.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_172 : BitVec 32 := 27#32
  let v276 : BitVec 1 := Scalar.cmpi .ne v2 c27_i32_172
  let v277 : BitVec 32 := Scalar.extui v276
  let c0_i32_173 : BitVec 32 := 0#32
  let v278 : BitVec 1 := Scalar.cmpi .ne v277 c0_i32_173
  v278

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev60 : Nat :=
  let c0_i32_265 : BitVec 32 := 0#32
  let c27_i32_263 : BitVec 32 := 27#32
  let c1_i32_264 : BitVec 32 := 1#32
  let v427 : BitVec 32 := Scalar.muli c27_i32_263 c1_i32_264
  let v428 : BitVec 32 := Scalar.addi c0_i32_265 v427
  v428.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_174 : BitVec 32 := 28#32
  let v279 : BitVec 1 := Scalar.cmpi .ne v2 c28_i32_174
  let v280 : BitVec 32 := Scalar.extui v279
  let c0_i32_175 : BitVec 32 := 0#32
  let v281 : BitVec 1 := Scalar.cmpi .ne v280 c0_i32_175
  v281

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev61 : Nat :=
  let c0_i32_265 : BitVec 32 := 0#32
  let c28_i32_263 : BitVec 32 := 28#32
  let c1_i32_264 : BitVec 32 := 1#32
  let v427 : BitVec 32 := Scalar.muli c28_i32_263 c1_i32_264
  let v428 : BitVec 32 := Scalar.addi c0_i32_265 v427
  v428.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_176 : BitVec 32 := 29#32
  let v282 : BitVec 1 := Scalar.cmpi .ne v2 c29_i32_176
  let v283 : BitVec 32 := Scalar.extui v282
  let c0_i32_177 : BitVec 32 := 0#32
  let v284 : BitVec 1 := Scalar.cmpi .ne v283 c0_i32_177
  v284

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev62 : Nat :=
  let c0_i32_265 : BitVec 32 := 0#32
  let c29_i32_263 : BitVec 32 := 29#32
  let c1_i32_264 : BitVec 32 := 1#32
  let v427 : BitVec 32 := Scalar.muli c29_i32_263 c1_i32_264
  let v428 : BitVec 32 := Scalar.addi c0_i32_265 v427
  v428.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_178 : BitVec 32 := 30#32
  let v285 : BitVec 1 := Scalar.cmpi .ne v2 c30_i32_178
  let v286 : BitVec 32 := Scalar.extui v285
  let c0_i32_179 : BitVec 32 := 0#32
  let v287 : BitVec 1 := Scalar.cmpi .ne v286 c0_i32_179
  v287

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev63 : Nat :=
  let c0_i32_265 : BitVec 32 := 0#32
  let c30_i32_263 : BitVec 32 := 30#32
  let c1_i32_264 : BitVec 32 := 1#32
  let v427 : BitVec 32 := Scalar.muli c30_i32_263 c1_i32_264
  let v428 : BitVec 32 := Scalar.addi c0_i32_265 v427
  v428.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_180 : BitVec 32 := 31#32
  let v288 : BitVec 1 := Scalar.cmpi .ne v2 c31_i32_180
  let v289 : BitVec 32 := Scalar.extui v288
  let c0_i32_181 : BitVec 32 := 0#32
  let v290 : BitVec 1 := Scalar.cmpi .ne v289 c0_i32_181
  v290

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_266 : BitVec 32 := 0#32
  let c0_i32_267 : BitVec 32 := 0#32
  let c0_i32_268 : BitVec 32 := 0#32
  ![v2.toNat, 0, 0, 0]
def k0_dev64 : Nat :=
  let c0_i32_265 : BitVec 32 := 0#32
  let c31_i32_263 : BitVec 32 := 31#32
  let c1_i32_264 : BitVec 32 := 1#32
  let v427 : BitVec 32 := Scalar.muli c31_i32_263 c1_i32_264
  let v428 : BitVec 32 := Scalar.addi c0_i32_265 v427
  v428.toNat
abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S4_S1_0 : ∀ a, (![0] : Fin 1 → Nat) a + S1.size a ≤ S4.size a
  squeezes_S1_S_ : S1.Squeezes S_
  inb_S4x512x256_S1x512x256_0_0_0 : ∀ a, (![0, 0, 0] : Fin 3 → Nat) a + S1x512x256.size a ≤ S4x512x256.size a
  squeezes_S1x512x256_S512x256 : S1x512x256.Squeezes S512x256
  inb_S4_S1_1 : ∀ a, (![1] : Fin 1 → Nat) a + S1.size a ≤ S4.size a
  inb_S4x512x256_S1x512x256_1_0_0 : ∀ a, (![1, 0, 0] : Fin 3 → Nat) a + S1x512x256.size a ≤ S4x512x256.size a
  inb_S4_S1_2 : ∀ a, (![2] : Fin 1 → Nat) a + S1.size a ≤ S4.size a
  inb_S4x512x256_S1x512x256_2_0_0 : ∀ a, (![2, 0, 0] : Fin 3 → Nat) a + S1x512x256.size a ≤ S4x512x256.size a
  inb_S4_S1_3 : ∀ a, (![3] : Fin 1 → Nat) a + S1.size a ≤ S4.size a
  inb_S4x512x256_S1x512x256_3_0_0 : ∀ a, (![3, 0, 0] : Fin 3 → Nat) a + S1x512x256.size a ≤ S4x512x256.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  h_S1x512x256 : 0 < S1x512x256.numel
  shapeCasts_S1x512x256_S512x256 : S1x512x256.ShapeCasts S512x256
  reduces_S512x256_S512 : S512x256.Reduces [1] S512
  shapeCasts_S512_S1x512 : S512.ShapeCasts S1x512
  concatenates_S1x512_S1x512_S1x512_S1x512_S4x512_d0 : Shape.Concatenates [S1x512, S1x512, S1x512, S1x512] S4x512 0
  shapeCasts_S4x512_S1x4x512 : S4x512.ShapeCasts S1x4x512
  concatenates_S1x4x512_S1x4x512_S2x4x512_d0 : Shape.Concatenates [S1x4x512, S1x4x512] S2x4x512 0
  bitsLt_bf16_f32 : FTy.bits .bf16 < FTy.bits .f32
  inb_S2x4x512_S2x4x512_0_0_0 : ∀ a, (![0, 0, 0] : Fin 3 → Nat) a + S2x4x512.size a ≤ S2x4x512.size a
  h_S2x4x512 : 0 < S2x4x512.numel
  shapeCasts_S2x4x512_S2x4x512 : S2x4x512.ShapeCasts S2x4x512
  packedbf16_S2x4x512_S2x4x512_0_0_0 : (Rect.unit (s := S2x4x512) ![0, 0, 0] S2x4x512.size inb_S2x4x512_S2x4x512_0_0_0).PackedRows (EltTy.packing .bf16)
  hamt_31 : (31#32 : BitVec 32).msb = false
  inb_S32_S1_0 : ∀ a, (![0] : Fin 1 → Nat) a + S1.size a ≤ S32.size a
  squeezes_S1x2x4x512_S2x4x512 : S1x2x4x512.Squeezes S2x4x512
  inb_S32_S1_1 : ∀ a, (![1] : Fin 1 → Nat) a + S1.size a ≤ S32.size a
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  inb_S32x2x4x512_S1x2x4x512_0_0_0_0 : ∀ a, (![0, 0, 0, 0] : Fin 4 → Nat) a + S1x2x4x512.size a ≤ S32x2x4x512.size a
  wordsbf16_S32x2x4x512_S1x2x4x512_0_0_0_0 : (Rect.unit (s := S32x2x4x512) ![0, 0, 0, 0] S1x2x4x512.size inb_S32x2x4x512_S1x2x4x512_0_0_0_0).WholeWords (EltTy.packing .bf16)
  inb_S32x2x4x512_S1x2x4x512_1_0_0_0 : ∀ a, (![1, 0, 0, 0] : Fin 4 → Nat) a + S1x2x4x512.size a ≤ S32x2x4x512.size a
  wordsbf16_S32x2x4x512_S1x2x4x512_1_0_0_0 : (Rect.unit (s := S32x2x4x512) ![1, 0, 0, 0] S1x2x4x512.size inb_S32x2x4x512_S1x2x4x512_1_0_0_0).WholeWords (EltTy.packing .bf16)
  inb_S32x2x4x512_S1x2x4x512_2_0_0_0 : ∀ a, (![2, 0, 0, 0] : Fin 4 → Nat) a + S1x2x4x512.size a ≤ S32x2x4x512.size a
  wordsbf16_S32x2x4x512_S1x2x4x512_2_0_0_0 : (Rect.unit (s := S32x2x4x512) ![2, 0, 0, 0] S1x2x4x512.size inb_S32x2x4x512_S1x2x4x512_2_0_0_0).WholeWords (EltTy.packing .bf16)
  inb_S32x2x4x512_S1x2x4x512_3_0_0_0 : ∀ a, (![3, 0, 0, 0] : Fin 4 → Nat) a + S1x2x4x512.size a ≤ S32x2x4x512.size a
  wordsbf16_S32x2x4x512_S1x2x4x512_3_0_0_0 : (Rect.unit (s := S32x2x4x512) ![3, 0, 0, 0] S1x2x4x512.size inb_S32x2x4x512_S1x2x4x512_3_0_0_0).WholeWords (EltTy.packing .bf16)
  inb_S32x2x4x512_S1x2x4x512_4_0_0_0 : ∀ a, (![4, 0, 0, 0] : Fin 4 → Nat) a + S1x2x4x512.size a ≤ S32x2x4x512.size a
  wordsbf16_S32x2x4x512_S1x2x4x512_4_0_0_0 : (Rect.unit (s := S32x2x4x512) ![4, 0, 0, 0] S1x2x4x512.size inb_S32x2x4x512_S1x2x4x512_4_0_0_0).WholeWords (EltTy.packing .bf16)
  inb_S32x2x4x512_S1x2x4x512_5_0_0_0 : ∀ a, (![5, 0, 0, 0] : Fin 4 → Nat) a + S1x2x4x512.size a ≤ S32x2x4x512.size a
  wordsbf16_S32x2x4x512_S1x2x4x512_5_0_0_0 : (Rect.unit (s := S32x2x4x512) ![5, 0, 0, 0] S1x2x4x512.size inb_S32x2x4x512_S1x2x4x512_5_0_0_0).WholeWords (EltTy.packing .bf16)
  inb_S32x2x4x512_S1x2x4x512_6_0_0_0 : ∀ a, (![6, 0, 0, 0] : Fin 4 → Nat) a + S1x2x4x512.size a ≤ S32x2x4x512.size a
  wordsbf16_S32x2x4x512_S1x2x4x512_6_0_0_0 : (Rect.unit (s := S32x2x4x512) ![6, 0, 0, 0] S1x2x4x512.size inb_S32x2x4x512_S1x2x4x512_6_0_0_0).WholeWords (EltTy.packing .bf16)
  inb_S32x2x4x512_S1x2x4x512_7_0_0_0 : ∀ a, (![7, 0, 0, 0] : Fin 4 → Nat) a + S1x2x4x512.size a ≤ S32x2x4x512.size a
  wordsbf16_S32x2x4x512_S1x2x4x512_7_0_0_0 : (Rect.unit (s := S32x2x4x512) ![7, 0, 0, 0] S1x2x4x512.size inb_S32x2x4x512_S1x2x4x512_7_0_0_0).WholeWords (EltTy.packing .bf16)
  inb_S32x2x4x512_S1x2x4x512_8_0_0_0 : ∀ a, (![8, 0, 0, 0] : Fin 4 → Nat) a + S1x2x4x512.size a ≤ S32x2x4x512.size a
  wordsbf16_S32x2x4x512_S1x2x4x512_8_0_0_0 : (Rect.unit (s := S32x2x4x512) ![8, 0, 0, 0] S1x2x4x512.size inb_S32x2x4x512_S1x2x4x512_8_0_0_0).WholeWords (EltTy.packing .bf16)
  inb_S32x2x4x512_S1x2x4x512_9_0_0_0 : ∀ a, (![9, 0, 0, 0] : Fin 4 → Nat) a + S1x2x4x512.size a ≤ S32x2x4x512.size a
  wordsbf16_S32x2x4x512_S1x2x4x512_9_0_0_0 : (Rect.unit (s := S32x2x4x512) ![9, 0, 0, 0] S1x2x4x512.size inb_S32x2x4x512_S1x2x4x512_9_0_0_0).WholeWords (EltTy.packing .bf16)
  inb_S32x2x4x512_S1x2x4x512_10_0_0_0 : ∀ a, (![10, 0, 0, 0] : Fin 4 → Nat) a + S1x2x4x512.size a ≤ S32x2x4x512.size a
  wordsbf16_S32x2x4x512_S1x2x4x512_10_0_0_0 : (Rect.unit (s := S32x2x4x512) ![10, 0, 0, 0] S1x2x4x512.size inb_S32x2x4x512_S1x2x4x512_10_0_0_0).WholeWords (EltTy.packing .bf16)
  inb_S32x2x4x512_S1x2x4x512_11_0_0_0 : ∀ a, (![11, 0, 0, 0] : Fin 4 → Nat) a + S1x2x4x512.size a ≤ S32x2x4x512.size a
  wordsbf16_S32x2x4x512_S1x2x4x512_11_0_0_0 : (Rect.unit (s := S32x2x4x512) ![11, 0, 0, 0] S1x2x4x512.size inb_S32x2x4x512_S1x2x4x512_11_0_0_0).WholeWords (EltTy.packing .bf16)
  inb_S32x2x4x512_S1x2x4x512_12_0_0_0 : ∀ a, (![12, 0, 0, 0] : Fin 4 → Nat) a + S1x2x4x512.size a ≤ S32x2x4x512.size a
  wordsbf16_S32x2x4x512_S1x2x4x512_12_0_0_0 : (Rect.unit (s := S32x2x4x512) ![12, 0, 0, 0] S1x2x4x512.size inb_S32x2x4x512_S1x2x4x512_12_0_0_0).WholeWords (EltTy.packing .bf16)
  inb_S32x2x4x512_S1x2x4x512_13_0_0_0 : ∀ a, (![13, 0, 0, 0] : Fin 4 → Nat) a + S1x2x4x512.size a ≤ S32x2x4x512.size a
  wordsbf16_S32x2x4x512_S1x2x4x512_13_0_0_0 : (Rect.unit (s := S32x2x4x512) ![13, 0, 0, 0] S1x2x4x512.size inb_S32x2x4x512_S1x2x4x512_13_0_0_0).WholeWords (EltTy.packing .bf16)
  inb_S32x2x4x512_S1x2x4x512_14_0_0_0 : ∀ a, (![14, 0, 0, 0] : Fin 4 → Nat) a + S1x2x4x512.size a ≤ S32x2x4x512.size a
  wordsbf16_S32x2x4x512_S1x2x4x512_14_0_0_0 : (Rect.unit (s := S32x2x4x512) ![14, 0, 0, 0] S1x2x4x512.size inb_S32x2x4x512_S1x2x4x512_14_0_0_0).WholeWords (EltTy.packing .bf16)
  inb_S32x2x4x512_S1x2x4x512_15_0_0_0 : ∀ a, (![15, 0, 0, 0] : Fin 4 → Nat) a + S1x2x4x512.size a ≤ S32x2x4x512.size a
  wordsbf16_S32x2x4x512_S1x2x4x512_15_0_0_0 : (Rect.unit (s := S32x2x4x512) ![15, 0, 0, 0] S1x2x4x512.size inb_S32x2x4x512_S1x2x4x512_15_0_0_0).WholeWords (EltTy.packing .bf16)
  inb_S32x2x4x512_S1x2x4x512_16_0_0_0 : ∀ a, (![16, 0, 0, 0] : Fin 4 → Nat) a + S1x2x4x512.size a ≤ S32x2x4x512.size a
  wordsbf16_S32x2x4x512_S1x2x4x512_16_0_0_0 : (Rect.unit (s := S32x2x4x512) ![16, 0, 0, 0] S1x2x4x512.size inb_S32x2x4x512_S1x2x4x512_16_0_0_0).WholeWords (EltTy.packing .bf16)
  inb_S32x2x4x512_S1x2x4x512_17_0_0_0 : ∀ a, (![17, 0, 0, 0] : Fin 4 → Nat) a + S1x2x4x512.size a ≤ S32x2x4x512.size a
  wordsbf16_S32x2x4x512_S1x2x4x512_17_0_0_0 : (Rect.unit (s := S32x2x4x512) ![17, 0, 0, 0] S1x2x4x512.size inb_S32x2x4x512_S1x2x4x512_17_0_0_0).WholeWords (EltTy.packing .bf16)
  inb_S32x2x4x512_S1x2x4x512_18_0_0_0 : ∀ a, (![18, 0, 0, 0] : Fin 4 → Nat) a + S1x2x4x512.size a ≤ S32x2x4x512.size a
  wordsbf16_S32x2x4x512_S1x2x4x512_18_0_0_0 : (Rect.unit (s := S32x2x4x512) ![18, 0, 0, 0] S1x2x4x512.size inb_S32x2x4x512_S1x2x4x512_18_0_0_0).WholeWords (EltTy.packing .bf16)
  inb_S32x2x4x512_S1x2x4x512_19_0_0_0 : ∀ a, (![19, 0, 0, 0] : Fin 4 → Nat) a + S1x2x4x512.size a ≤ S32x2x4x512.size a
  wordsbf16_S32x2x4x512_S1x2x4x512_19_0_0_0 : (Rect.unit (s := S32x2x4x512) ![19, 0, 0, 0] S1x2x4x512.size inb_S32x2x4x512_S1x2x4x512_19_0_0_0).WholeWords (EltTy.packing .bf16)
  inb_S32x2x4x512_S1x2x4x512_20_0_0_0 : ∀ a, (![20, 0, 0, 0] : Fin 4 → Nat) a + S1x2x4x512.size a ≤ S32x2x4x512.size a
  wordsbf16_S32x2x4x512_S1x2x4x512_20_0_0_0 : (Rect.unit (s := S32x2x4x512) ![20, 0, 0, 0] S1x2x4x512.size inb_S32x2x4x512_S1x2x4x512_20_0_0_0).WholeWords (EltTy.packing .bf16)
  inb_S32x2x4x512_S1x2x4x512_21_0_0_0 : ∀ a, (![21, 0, 0, 0] : Fin 4 → Nat) a + S1x2x4x512.size a ≤ S32x2x4x512.size a
  wordsbf16_S32x2x4x512_S1x2x4x512_21_0_0_0 : (Rect.unit (s := S32x2x4x512) ![21, 0, 0, 0] S1x2x4x512.size inb_S32x2x4x512_S1x2x4x512_21_0_0_0).WholeWords (EltTy.packing .bf16)
  inb_S32x2x4x512_S1x2x4x512_22_0_0_0 : ∀ a, (![22, 0, 0, 0] : Fin 4 → Nat) a + S1x2x4x512.size a ≤ S32x2x4x512.size a
  wordsbf16_S32x2x4x512_S1x2x4x512_22_0_0_0 : (Rect.unit (s := S32x2x4x512) ![22, 0, 0, 0] S1x2x4x512.size inb_S32x2x4x512_S1x2x4x512_22_0_0_0).WholeWords (EltTy.packing .bf16)
  inb_S32x2x4x512_S1x2x4x512_23_0_0_0 : ∀ a, (![23, 0, 0, 0] : Fin 4 → Nat) a + S1x2x4x512.size a ≤ S32x2x4x512.size a
  wordsbf16_S32x2x4x512_S1x2x4x512_23_0_0_0 : (Rect.unit (s := S32x2x4x512) ![23, 0, 0, 0] S1x2x4x512.size inb_S32x2x4x512_S1x2x4x512_23_0_0_0).WholeWords (EltTy.packing .bf16)
  inb_S32x2x4x512_S1x2x4x512_24_0_0_0 : ∀ a, (![24, 0, 0, 0] : Fin 4 → Nat) a + S1x2x4x512.size a ≤ S32x2x4x512.size a
  wordsbf16_S32x2x4x512_S1x2x4x512_24_0_0_0 : (Rect.unit (s := S32x2x4x512) ![24, 0, 0, 0] S1x2x4x512.size inb_S32x2x4x512_S1x2x4x512_24_0_0_0).WholeWords (EltTy.packing .bf16)
  inb_S32x2x4x512_S1x2x4x512_25_0_0_0 : ∀ a, (![25, 0, 0, 0] : Fin 4 → Nat) a + S1x2x4x512.size a ≤ S32x2x4x512.size a
  wordsbf16_S32x2x4x512_S1x2x4x512_25_0_0_0 : (Rect.unit (s := S32x2x4x512) ![25, 0, 0, 0] S1x2x4x512.size inb_S32x2x4x512_S1x2x4x512_25_0_0_0).WholeWords (EltTy.packing .bf16)
  inb_S32x2x4x512_S1x2x4x512_26_0_0_0 : ∀ a, (![26, 0, 0, 0] : Fin 4 → Nat) a + S1x2x4x512.size a ≤ S32x2x4x512.size a
  wordsbf16_S32x2x4x512_S1x2x4x512_26_0_0_0 : (Rect.unit (s := S32x2x4x512) ![26, 0, 0, 0] S1x2x4x512.size inb_S32x2x4x512_S1x2x4x512_26_0_0_0).WholeWords (EltTy.packing .bf16)
  inb_S32x2x4x512_S1x2x4x512_27_0_0_0 : ∀ a, (![27, 0, 0, 0] : Fin 4 → Nat) a + S1x2x4x512.size a ≤ S32x2x4x512.size a
  wordsbf16_S32x2x4x512_S1x2x4x512_27_0_0_0 : (Rect.unit (s := S32x2x4x512) ![27, 0, 0, 0] S1x2x4x512.size inb_S32x2x4x512_S1x2x4x512_27_0_0_0).WholeWords (EltTy.packing .bf16)
  inb_S32x2x4x512_S1x2x4x512_28_0_0_0 : ∀ a, (![28, 0, 0, 0] : Fin 4 → Nat) a + S1x2x4x512.size a ≤ S32x2x4x512.size a
  wordsbf16_S32x2x4x512_S1x2x4x512_28_0_0_0 : (Rect.unit (s := S32x2x4x512) ![28, 0, 0, 0] S1x2x4x512.size inb_S32x2x4x512_S1x2x4x512_28_0_0_0).WholeWords (EltTy.packing .bf16)
  inb_S32x2x4x512_S1x2x4x512_29_0_0_0 : ∀ a, (![29, 0, 0, 0] : Fin 4 → Nat) a + S1x2x4x512.size a ≤ S32x2x4x512.size a
  wordsbf16_S32x2x4x512_S1x2x4x512_29_0_0_0 : (Rect.unit (s := S32x2x4x512) ![29, 0, 0, 0] S1x2x4x512.size inb_S32x2x4x512_S1x2x4x512_29_0_0_0).WholeWords (EltTy.packing .bf16)
  inb_S32x2x4x512_S1x2x4x512_30_0_0_0 : ∀ a, (![30, 0, 0, 0] : Fin 4 → Nat) a + S1x2x4x512.size a ≤ S32x2x4x512.size a
  wordsbf16_S32x2x4x512_S1x2x4x512_30_0_0_0 : (Rect.unit (s := S32x2x4x512) ![30, 0, 0, 0] S1x2x4x512.size inb_S32x2x4x512_S1x2x4x512_30_0_0_0).WholeWords (EltTy.packing .bf16)
  inb_S32x2x4x512_S1x2x4x512_31_0_0_0 : ∀ a, (![31, 0, 0, 0] : Fin 4 → Nat) a + S1x2x4x512.size a ≤ S32x2x4x512.size a
  wordsbf16_S32x2x4x512_S1x2x4x512_31_0_0_0 : (Rect.unit (s := S32x2x4x512) ![31, 0, 0, 0] S1x2x4x512.size inb_S32x2x4x512_S1x2x4x512_31_0_0_0).WholeWords (EltTy.packing .bf16)
  inb_S4x512x256_S4x512x256_0_0_0 : ∀ a, (![0, 0, 0] : Fin 3 → Nat) a + S4x512x256.size a ≤ S4x512x256.size a
  h_S4x512x256 : 0 < S4x512x256.numel
  iota_S32x1x1x1_d0_w32 : S32x1x1x1.Iotas .tc 32 [0]
  inb_S32x2x4x512_S32x2x4x512_0_0_0_0 : ∀ a, (![0, 0, 0, 0] : Fin 4 → Nat) a + S32x2x4x512.size a ≤ S32x2x4x512.size a
  h_S32x2x4x512 : 0 < S32x2x4x512.numel
  shapeCasts_S32x1x1x1_S32x1x1x1 : S32x1x1x1.ShapeCasts S32x1x1x1
  broadcasts_S32x1x1x1_S32x2x4x512 : S32x1x1x1.Broadcasts S32x2x4x512
  reduces_S32x2x4x512_S2x4x512 : S32x2x4x512.Reduces [0] S2x4x512
  slices_S2x4x512_o0_0_0_S1x4x512 : S2x4x512.Slices ![0, 0, 0] S1x4x512
  shapeCasts_S1x4x512_S4x512 : S1x4x512.ShapeCasts S4x512
  slices_S2x4x512_o1_0_0_S1x4x512 : S2x4x512.Slices ![1, 0, 0] S1x4x512
  shapeCasts_S4x512_S4x512x1 : S4x512.ShapeCasts S4x512x1
  broadcasts_S4x512x1_S4x512x256 : S4x512x1.Broadcasts S4x512x256
  shapeCasts_S4x256_S4x1x256 : S4x256.ShapeCasts S4x1x256
  broadcasts_S4x1x256_S4x512x256 : S4x1x256.Broadcasts S4x512x256
  dot_S4x128_S128x256_S4x256_1_0_0_1_n_n_wf : DotDims.WF S4x128 S128x256 S4x256 [1] [0] [0] [1] [] []
  hcc0_scratch3 : 4 + S4.numel ≤ 72
  hcc0_scratch4 : 8 + S32.numel ≤ 72
  hcc0_scratch5 : 40 + S32.numel ≤ 72
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_dev9_lt : ∀ d0 : Dev nD, ∀ (k0_h9 : k0_cond9 d0 = 1#1), k0_dev9 < nD
  k0_dev10_lt : ∀ d0 : Dev nD, ∀ (k0_h10 : k0_cond10 d0 = 1#1), k0_dev10 < nD
  k0_dev11_lt : ∀ d0 : Dev nD, ∀ (k0_h11 : k0_cond11 d0 = 1#1), k0_dev11 < nD
  k0_dev12_lt : ∀ d0 : Dev nD, ∀ (k0_h12 : k0_cond12 d0 = 1#1), k0_dev12 < nD
  k0_dev13_lt : ∀ d0 : Dev nD, ∀ (k0_h13 : k0_cond13 d0 = 1#1), k0_dev13 < nD
  k0_dev14_lt : ∀ d0 : Dev nD, ∀ (k0_h14 : k0_cond14 d0 = 1#1), k0_dev14 < nD
  k0_dev15_lt : ∀ d0 : Dev nD, ∀ (k0_h15 : k0_cond15 d0 = 1#1), k0_dev15 < nD
  k0_dev16_lt : ∀ d0 : Dev nD, ∀ (k0_h16 : k0_cond16 d0 = 1#1), k0_dev16 < nD
  k0_dev17_lt : ∀ d0 : Dev nD, ∀ (k0_h17 : k0_cond17 d0 = 1#1), k0_dev17 < nD
  k0_dev18_lt : ∀ d0 : Dev nD, ∀ (k0_h18 : k0_cond18 d0 = 1#1), k0_dev18 < nD
  k0_dev19_lt : ∀ d0 : Dev nD, ∀ (k0_h19 : k0_cond19 d0 = 1#1), k0_dev19 < nD
  k0_dev20_lt : ∀ d0 : Dev nD, ∀ (k0_h20 : k0_cond20 d0 = 1#1), k0_dev20 < nD
  k0_dev21_lt : ∀ d0 : Dev nD, ∀ (k0_h21 : k0_cond21 d0 = 1#1), k0_dev21 < nD
  k0_dev22_lt : ∀ d0 : Dev nD, ∀ (k0_h22 : k0_cond22 d0 = 1#1), k0_dev22 < nD
  k0_dev23_lt : ∀ d0 : Dev nD, ∀ (k0_h23 : k0_cond23 d0 = 1#1), k0_dev23 < nD
  k0_dev24_lt : ∀ d0 : Dev nD, ∀ (k0_h24 : k0_cond24 d0 = 1#1), k0_dev24 < nD
  k0_dev25_lt : ∀ d0 : Dev nD, ∀ (k0_h25 : k0_cond25 d0 = 1#1), k0_dev25 < nD
  k0_dev26_lt : ∀ d0 : Dev nD, ∀ (k0_h26 : k0_cond26 d0 = 1#1), k0_dev26 < nD
  k0_dev27_lt : ∀ d0 : Dev nD, ∀ (k0_h27 : k0_cond27 d0 = 1#1), k0_dev27 < nD
  k0_dev28_lt : ∀ d0 : Dev nD, ∀ (k0_h28 : k0_cond28 d0 = 1#1), k0_dev28 < nD
  k0_dev29_lt : ∀ d0 : Dev nD, ∀ (k0_h29 : k0_cond29 d0 = 1#1), k0_dev29 < nD
  k0_dev30_lt : ∀ d0 : Dev nD, ∀ (k0_h30 : k0_cond30 d0 = 1#1), k0_dev30 < nD
  k0_dev31_lt : ∀ d0 : Dev nD, ∀ (k0_h31 : k0_cond31 d0 = 1#1), k0_dev31 < nD
  k0_dev32_lt : ∀ d0 : Dev nD, ∀ (k0_h32 : k0_cond32 d0 = 1#1), k0_dev32 < nD
  k0_off1_inb : ∀ d0 : Dev nD, ∀ (k0_h33 : k0_cond33 d0 = 1#1), ∀ a, (k0_off1 d0) a + S1.size a ≤ S32.size a
  k0_off2_inb : ∀ d0 : Dev nD, ∀ (k0_h33 : k0_cond33 d0 = 1#1), ∀ a, (k0_off2 d0) a + S1x2x4x512.size a ≤ S32x2x4x512.size a
  k0_off2_wordsbf16 : ∀ d0 : Dev nD, ∀ (k0_h33 : k0_cond33 d0 = 1#1), (Rect.unit (s := S32x2x4x512) (k0_off2 d0) S1x2x4x512.size (k0_off2_inb d0 k0_h33)).WholeWords (EltTy.packing .bf16)
  k0_dev33_lt : ∀ d0 : Dev nD, ∀ (k0_h33 : k0_cond33 d0 = 1#1), k0_dev33 < nD
  k0_off3_inb : ∀ d0 : Dev nD, ∀ (k0_h34 : k0_cond34 d0 = 1#1), ∀ a, (k0_off3 d0) a + S1.size a ≤ S32.size a
  k0_off4_inb : ∀ d0 : Dev nD, ∀ (k0_h34 : k0_cond34 d0 = 1#1), ∀ a, (k0_off4 d0) a + S1x2x4x512.size a ≤ S32x2x4x512.size a
  k0_off4_wordsbf16 : ∀ d0 : Dev nD, ∀ (k0_h34 : k0_cond34 d0 = 1#1), (Rect.unit (s := S32x2x4x512) (k0_off4 d0) S1x2x4x512.size (k0_off4_inb d0 k0_h34)).WholeWords (EltTy.packing .bf16)
  k0_dev34_lt : ∀ d0 : Dev nD, ∀ (k0_h34 : k0_cond34 d0 = 1#1), k0_dev34 < nD
  k0_off5_inb : ∀ d0 : Dev nD, ∀ (k0_h35 : k0_cond35 d0 = 1#1), ∀ a, (k0_off5 d0) a + S1.size a ≤ S32.size a
  k0_off6_inb : ∀ d0 : Dev nD, ∀ (k0_h35 : k0_cond35 d0 = 1#1), ∀ a, (k0_off6 d0) a + S1x2x4x512.size a ≤ S32x2x4x512.size a
  k0_off6_wordsbf16 : ∀ d0 : Dev nD, ∀ (k0_h35 : k0_cond35 d0 = 1#1), (Rect.unit (s := S32x2x4x512) (k0_off6 d0) S1x2x4x512.size (k0_off6_inb d0 k0_h35)).WholeWords (EltTy.packing .bf16)
  k0_dev35_lt : ∀ d0 : Dev nD, ∀ (k0_h35 : k0_cond35 d0 = 1#1), k0_dev35 < nD
  k0_off7_inb : ∀ d0 : Dev nD, ∀ (k0_h36 : k0_cond36 d0 = 1#1), ∀ a, (k0_off7 d0) a + S1.size a ≤ S32.size a
  k0_off8_inb : ∀ d0 : Dev nD, ∀ (k0_h36 : k0_cond36 d0 = 1#1), ∀ a, (k0_off8 d0) a + S1x2x4x512.size a ≤ S32x2x4x512.size a
  k0_off8_wordsbf16 : ∀ d0 : Dev nD, ∀ (k0_h36 : k0_cond36 d0 = 1#1), (Rect.unit (s := S32x2x4x512) (k0_off8 d0) S1x2x4x512.size (k0_off8_inb d0 k0_h36)).WholeWords (EltTy.packing .bf16)
  k0_dev36_lt : ∀ d0 : Dev nD, ∀ (k0_h36 : k0_cond36 d0 = 1#1), k0_dev36 < nD
  k0_off9_inb : ∀ d0 : Dev nD, ∀ (k0_h37 : k0_cond37 d0 = 1#1), ∀ a, (k0_off9 d0) a + S1.size a ≤ S32.size a
  k0_off10_inb : ∀ d0 : Dev nD, ∀ (k0_h37 : k0_cond37 d0 = 1#1), ∀ a, (k0_off10 d0) a + S1x2x4x512.size a ≤ S32x2x4x512.size a
  k0_off10_wordsbf16 : ∀ d0 : Dev nD, ∀ (k0_h37 : k0_cond37 d0 = 1#1), (Rect.unit (s := S32x2x4x512) (k0_off10 d0) S1x2x4x512.size (k0_off10_inb d0 k0_h37)).WholeWords (EltTy.packing .bf16)
  k0_dev37_lt : ∀ d0 : Dev nD, ∀ (k0_h37 : k0_cond37 d0 = 1#1), k0_dev37 < nD
  k0_off11_inb : ∀ d0 : Dev nD, ∀ (k0_h38 : k0_cond38 d0 = 1#1), ∀ a, (k0_off11 d0) a + S1.size a ≤ S32.size a
  k0_off12_inb : ∀ d0 : Dev nD, ∀ (k0_h38 : k0_cond38 d0 = 1#1), ∀ a, (k0_off12 d0) a + S1x2x4x512.size a ≤ S32x2x4x512.size a
  k0_off12_wordsbf16 : ∀ d0 : Dev nD, ∀ (k0_h38 : k0_cond38 d0 = 1#1), (Rect.unit (s := S32x2x4x512) (k0_off12 d0) S1x2x4x512.size (k0_off12_inb d0 k0_h38)).WholeWords (EltTy.packing .bf16)
  k0_dev38_lt : ∀ d0 : Dev nD, ∀ (k0_h38 : k0_cond38 d0 = 1#1), k0_dev38 < nD
  k0_off13_inb : ∀ d0 : Dev nD, ∀ (k0_h39 : k0_cond39 d0 = 1#1), ∀ a, (k0_off13 d0) a + S1.size a ≤ S32.size a
  k0_off14_inb : ∀ d0 : Dev nD, ∀ (k0_h39 : k0_cond39 d0 = 1#1), ∀ a, (k0_off14 d0) a + S1x2x4x512.size a ≤ S32x2x4x512.size a
  k0_off14_wordsbf16 : ∀ d0 : Dev nD, ∀ (k0_h39 : k0_cond39 d0 = 1#1), (Rect.unit (s := S32x2x4x512) (k0_off14 d0) S1x2x4x512.size (k0_off14_inb d0 k0_h39)).WholeWords (EltTy.packing .bf16)
  k0_dev39_lt : ∀ d0 : Dev nD, ∀ (k0_h39 : k0_cond39 d0 = 1#1), k0_dev39 < nD
  k0_off15_inb : ∀ d0 : Dev nD, ∀ (k0_h40 : k0_cond40 d0 = 1#1), ∀ a, (k0_off15 d0) a + S1.size a ≤ S32.size a
  k0_off16_inb : ∀ d0 : Dev nD, ∀ (k0_h40 : k0_cond40 d0 = 1#1), ∀ a, (k0_off16 d0) a + S1x2x4x512.size a ≤ S32x2x4x512.size a
  k0_off16_wordsbf16 : ∀ d0 : Dev nD, ∀ (k0_h40 : k0_cond40 d0 = 1#1), (Rect.unit (s := S32x2x4x512) (k0_off16 d0) S1x2x4x512.size (k0_off16_inb d0 k0_h40)).WholeWords (EltTy.packing .bf16)
  k0_dev40_lt : ∀ d0 : Dev nD, ∀ (k0_h40 : k0_cond40 d0 = 1#1), k0_dev40 < nD
  k0_off17_inb : ∀ d0 : Dev nD, ∀ (k0_h41 : k0_cond41 d0 = 1#1), ∀ a, (k0_off17 d0) a + S1.size a ≤ S32.size a
  k0_off18_inb : ∀ d0 : Dev nD, ∀ (k0_h41 : k0_cond41 d0 = 1#1), ∀ a, (k0_off18 d0) a + S1x2x4x512.size a ≤ S32x2x4x512.size a
  k0_off18_wordsbf16 : ∀ d0 : Dev nD, ∀ (k0_h41 : k0_cond41 d0 = 1#1), (Rect.unit (s := S32x2x4x512) (k0_off18 d0) S1x2x4x512.size (k0_off18_inb d0 k0_h41)).WholeWords (EltTy.packing .bf16)
  k0_dev41_lt : ∀ d0 : Dev nD, ∀ (k0_h41 : k0_cond41 d0 = 1#1), k0_dev41 < nD
  k0_off19_inb : ∀ d0 : Dev nD, ∀ (k0_h42 : k0_cond42 d0 = 1#1), ∀ a, (k0_off19 d0) a + S1.size a ≤ S32.size a
  k0_off20_inb : ∀ d0 : Dev nD, ∀ (k0_h42 : k0_cond42 d0 = 1#1), ∀ a, (k0_off20 d0) a + S1x2x4x512.size a ≤ S32x2x4x512.size a
  k0_off20_wordsbf16 : ∀ d0 : Dev nD, ∀ (k0_h42 : k0_cond42 d0 = 1#1), (Rect.unit (s := S32x2x4x512) (k0_off20 d0) S1x2x4x512.size (k0_off20_inb d0 k0_h42)).WholeWords (EltTy.packing .bf16)
  k0_dev42_lt : ∀ d0 : Dev nD, ∀ (k0_h42 : k0_cond42 d0 = 1#1), k0_dev42 < nD
  k0_off21_inb : ∀ d0 : Dev nD, ∀ (k0_h43 : k0_cond43 d0 = 1#1), ∀ a, (k0_off21 d0) a + S1.size a ≤ S32.size a
  k0_off22_inb : ∀ d0 : Dev nD, ∀ (k0_h43 : k0_cond43 d0 = 1#1), ∀ a, (k0_off22 d0) a + S1x2x4x512.size a ≤ S32x2x4x512.size a
  k0_off22_wordsbf16 : ∀ d0 : Dev nD, ∀ (k0_h43 : k0_cond43 d0 = 1#1), (Rect.unit (s := S32x2x4x512) (k0_off22 d0) S1x2x4x512.size (k0_off22_inb d0 k0_h43)).WholeWords (EltTy.packing .bf16)
  k0_dev43_lt : ∀ d0 : Dev nD, ∀ (k0_h43 : k0_cond43 d0 = 1#1), k0_dev43 < nD
  k0_off23_inb : ∀ d0 : Dev nD, ∀ (k0_h44 : k0_cond44 d0 = 1#1), ∀ a, (k0_off23 d0) a + S1.size a ≤ S32.size a
  k0_off24_inb : ∀ d0 : Dev nD, ∀ (k0_h44 : k0_cond44 d0 = 1#1), ∀ a, (k0_off24 d0) a + S1x2x4x512.size a ≤ S32x2x4x512.size a
  k0_off24_wordsbf16 : ∀ d0 : Dev nD, ∀ (k0_h44 : k0_cond44 d0 = 1#1), (Rect.unit (s := S32x2x4x512) (k0_off24 d0) S1x2x4x512.size (k0_off24_inb d0 k0_h44)).WholeWords (EltTy.packing .bf16)
  k0_dev44_lt : ∀ d0 : Dev nD, ∀ (k0_h44 : k0_cond44 d0 = 1#1), k0_dev44 < nD
  k0_off25_inb : ∀ d0 : Dev nD, ∀ (k0_h45 : k0_cond45 d0 = 1#1), ∀ a, (k0_off25 d0) a + S1.size a ≤ S32.size a
  k0_off26_inb : ∀ d0 : Dev nD, ∀ (k0_h45 : k0_cond45 d0 = 1#1), ∀ a, (k0_off26 d0) a + S1x2x4x512.size a ≤ S32x2x4x512.size a
  k0_off26_wordsbf16 : ∀ d0 : Dev nD, ∀ (k0_h45 : k0_cond45 d0 = 1#1), (Rect.unit (s := S32x2x4x512) (k0_off26 d0) S1x2x4x512.size (k0_off26_inb d0 k0_h45)).WholeWords (EltTy.packing .bf16)
  k0_dev45_lt : ∀ d0 : Dev nD, ∀ (k0_h45 : k0_cond45 d0 = 1#1), k0_dev45 < nD
  k0_off27_inb : ∀ d0 : Dev nD, ∀ (k0_h46 : k0_cond46 d0 = 1#1), ∀ a, (k0_off27 d0) a + S1.size a ≤ S32.size a
  k0_off28_inb : ∀ d0 : Dev nD, ∀ (k0_h46 : k0_cond46 d0 = 1#1), ∀ a, (k0_off28 d0) a + S1x2x4x512.size a ≤ S32x2x4x512.size a
  k0_off28_wordsbf16 : ∀ d0 : Dev nD, ∀ (k0_h46 : k0_cond46 d0 = 1#1), (Rect.unit (s := S32x2x4x512) (k0_off28 d0) S1x2x4x512.size (k0_off28_inb d0 k0_h46)).WholeWords (EltTy.packing .bf16)
  k0_dev46_lt : ∀ d0 : Dev nD, ∀ (k0_h46 : k0_cond46 d0 = 1#1), k0_dev46 < nD
  k0_off29_inb : ∀ d0 : Dev nD, ∀ (k0_h47 : k0_cond47 d0 = 1#1), ∀ a, (k0_off29 d0) a + S1.size a ≤ S32.size a
  k0_off30_inb : ∀ d0 : Dev nD, ∀ (k0_h47 : k0_cond47 d0 = 1#1), ∀ a, (k0_off30 d0) a + S1x2x4x512.size a ≤ S32x2x4x512.size a
  k0_off30_wordsbf16 : ∀ d0 : Dev nD, ∀ (k0_h47 : k0_cond47 d0 = 1#1), (Rect.unit (s := S32x2x4x512) (k0_off30 d0) S1x2x4x512.size (k0_off30_inb d0 k0_h47)).WholeWords (EltTy.packing .bf16)
  k0_dev47_lt : ∀ d0 : Dev nD, ∀ (k0_h47 : k0_cond47 d0 = 1#1), k0_dev47 < nD
  k0_off31_inb : ∀ d0 : Dev nD, ∀ (k0_h48 : k0_cond48 d0 = 1#1), ∀ a, (k0_off31 d0) a + S1.size a ≤ S32.size a
  k0_off32_inb : ∀ d0 : Dev nD, ∀ (k0_h48 : k0_cond48 d0 = 1#1), ∀ a, (k0_off32 d0) a + S1x2x4x512.size a ≤ S32x2x4x512.size a
  k0_off32_wordsbf16 : ∀ d0 : Dev nD, ∀ (k0_h48 : k0_cond48 d0 = 1#1), (Rect.unit (s := S32x2x4x512) (k0_off32 d0) S1x2x4x512.size (k0_off32_inb d0 k0_h48)).WholeWords (EltTy.packing .bf16)
  k0_dev48_lt : ∀ d0 : Dev nD, ∀ (k0_h48 : k0_cond48 d0 = 1#1), k0_dev48 < nD
  k0_off33_inb : ∀ d0 : Dev nD, ∀ (k0_h49 : k0_cond49 d0 = 1#1), ∀ a, (k0_off33 d0) a + S1.size a ≤ S32.size a
  k0_off34_inb : ∀ d0 : Dev nD, ∀ (k0_h49 : k0_cond49 d0 = 1#1), ∀ a, (k0_off34 d0) a + S1x2x4x512.size a ≤ S32x2x4x512.size a
  k0_off34_wordsbf16 : ∀ d0 : Dev nD, ∀ (k0_h49 : k0_cond49 d0 = 1#1), (Rect.unit (s := S32x2x4x512) (k0_off34 d0) S1x2x4x512.size (k0_off34_inb d0 k0_h49)).WholeWords (EltTy.packing .bf16)
  k0_dev49_lt : ∀ d0 : Dev nD, ∀ (k0_h49 : k0_cond49 d0 = 1#1), k0_dev49 < nD
  k0_off35_inb : ∀ d0 : Dev nD, ∀ (k0_h50 : k0_cond50 d0 = 1#1), ∀ a, (k0_off35 d0) a + S1.size a ≤ S32.size a
  k0_off36_inb : ∀ d0 : Dev nD, ∀ (k0_h50 : k0_cond50 d0 = 1#1), ∀ a, (k0_off36 d0) a + S1x2x4x512.size a ≤ S32x2x4x512.size a
  k0_off36_wordsbf16 : ∀ d0 : Dev nD, ∀ (k0_h50 : k0_cond50 d0 = 1#1), (Rect.unit (s := S32x2x4x512) (k0_off36 d0) S1x2x4x512.size (k0_off36_inb d0 k0_h50)).WholeWords (EltTy.packing .bf16)
  k0_dev50_lt : ∀ d0 : Dev nD, ∀ (k0_h50 : k0_cond50 d0 = 1#1), k0_dev50 < nD
  k0_off37_inb : ∀ d0 : Dev nD, ∀ (k0_h51 : k0_cond51 d0 = 1#1), ∀ a, (k0_off37 d0) a + S1.size a ≤ S32.size a
  k0_off38_inb : ∀ d0 : Dev nD, ∀ (k0_h51 : k0_cond51 d0 = 1#1), ∀ a, (k0_off38 d0) a + S1x2x4x512.size a ≤ S32x2x4x512.size a
  k0_off38_wordsbf16 : ∀ d0 : Dev nD, ∀ (k0_h51 : k0_cond51 d0 = 1#1), (Rect.unit (s := S32x2x4x512) (k0_off38 d0) S1x2x4x512.size (k0_off38_inb d0 k0_h51)).WholeWords (EltTy.packing .bf16)
  k0_dev51_lt : ∀ d0 : Dev nD, ∀ (k0_h51 : k0_cond51 d0 = 1#1), k0_dev51 < nD
  k0_off39_inb : ∀ d0 : Dev nD, ∀ (k0_h52 : k0_cond52 d0 = 1#1), ∀ a, (k0_off39 d0) a + S1.size a ≤ S32.size a
  k0_off40_inb : ∀ d0 : Dev nD, ∀ (k0_h52 : k0_cond52 d0 = 1#1), ∀ a, (k0_off40 d0) a + S1x2x4x512.size a ≤ S32x2x4x512.size a
  k0_off40_wordsbf16 : ∀ d0 : Dev nD, ∀ (k0_h52 : k0_cond52 d0 = 1#1), (Rect.unit (s := S32x2x4x512) (k0_off40 d0) S1x2x4x512.size (k0_off40_inb d0 k0_h52)).WholeWords (EltTy.packing .bf16)
  k0_dev52_lt : ∀ d0 : Dev nD, ∀ (k0_h52 : k0_cond52 d0 = 1#1), k0_dev52 < nD
  k0_off41_inb : ∀ d0 : Dev nD, ∀ (k0_h53 : k0_cond53 d0 = 1#1), ∀ a, (k0_off41 d0) a + S1.size a ≤ S32.size a
  k0_off42_inb : ∀ d0 : Dev nD, ∀ (k0_h53 : k0_cond53 d0 = 1#1), ∀ a, (k0_off42 d0) a + S1x2x4x512.size a ≤ S32x2x4x512.size a
  k0_off42_wordsbf16 : ∀ d0 : Dev nD, ∀ (k0_h53 : k0_cond53 d0 = 1#1), (Rect.unit (s := S32x2x4x512) (k0_off42 d0) S1x2x4x512.size (k0_off42_inb d0 k0_h53)).WholeWords (EltTy.packing .bf16)
  k0_dev53_lt : ∀ d0 : Dev nD, ∀ (k0_h53 : k0_cond53 d0 = 1#1), k0_dev53 < nD
  k0_off43_inb : ∀ d0 : Dev nD, ∀ (k0_h54 : k0_cond54 d0 = 1#1), ∀ a, (k0_off43 d0) a + S1.size a ≤ S32.size a
  k0_off44_inb : ∀ d0 : Dev nD, ∀ (k0_h54 : k0_cond54 d0 = 1#1), ∀ a, (k0_off44 d0) a + S1x2x4x512.size a ≤ S32x2x4x512.size a
  k0_off44_wordsbf16 : ∀ d0 : Dev nD, ∀ (k0_h54 : k0_cond54 d0 = 1#1), (Rect.unit (s := S32x2x4x512) (k0_off44 d0) S1x2x4x512.size (k0_off44_inb d0 k0_h54)).WholeWords (EltTy.packing .bf16)
  k0_dev54_lt : ∀ d0 : Dev nD, ∀ (k0_h54 : k0_cond54 d0 = 1#1), k0_dev54 < nD
  k0_off45_inb : ∀ d0 : Dev nD, ∀ (k0_h55 : k0_cond55 d0 = 1#1), ∀ a, (k0_off45 d0) a + S1.size a ≤ S32.size a
  k0_off46_inb : ∀ d0 : Dev nD, ∀ (k0_h55 : k0_cond55 d0 = 1#1), ∀ a, (k0_off46 d0) a + S1x2x4x512.size a ≤ S32x2x4x512.size a
  k0_off46_wordsbf16 : ∀ d0 : Dev nD, ∀ (k0_h55 : k0_cond55 d0 = 1#1), (Rect.unit (s := S32x2x4x512) (k0_off46 d0) S1x2x4x512.size (k0_off46_inb d0 k0_h55)).WholeWords (EltTy.packing .bf16)
  k0_dev55_lt : ∀ d0 : Dev nD, ∀ (k0_h55 : k0_cond55 d0 = 1#1), k0_dev55 < nD
  k0_off47_inb : ∀ d0 : Dev nD, ∀ (k0_h56 : k0_cond56 d0 = 1#1), ∀ a, (k0_off47 d0) a + S1.size a ≤ S32.size a
  k0_off48_inb : ∀ d0 : Dev nD, ∀ (k0_h56 : k0_cond56 d0 = 1#1), ∀ a, (k0_off48 d0) a + S1x2x4x512.size a ≤ S32x2x4x512.size a
  k0_off48_wordsbf16 : ∀ d0 : Dev nD, ∀ (k0_h56 : k0_cond56 d0 = 1#1), (Rect.unit (s := S32x2x4x512) (k0_off48 d0) S1x2x4x512.size (k0_off48_inb d0 k0_h56)).WholeWords (EltTy.packing .bf16)
  k0_dev56_lt : ∀ d0 : Dev nD, ∀ (k0_h56 : k0_cond56 d0 = 1#1), k0_dev56 < nD
  k0_off49_inb : ∀ d0 : Dev nD, ∀ (k0_h57 : k0_cond57 d0 = 1#1), ∀ a, (k0_off49 d0) a + S1.size a ≤ S32.size a
  k0_off50_inb : ∀ d0 : Dev nD, ∀ (k0_h57 : k0_cond57 d0 = 1#1), ∀ a, (k0_off50 d0) a + S1x2x4x512.size a ≤ S32x2x4x512.size a
  k0_off50_wordsbf16 : ∀ d0 : Dev nD, ∀ (k0_h57 : k0_cond57 d0 = 1#1), (Rect.unit (s := S32x2x4x512) (k0_off50 d0) S1x2x4x512.size (k0_off50_inb d0 k0_h57)).WholeWords (EltTy.packing .bf16)
  k0_dev57_lt : ∀ d0 : Dev nD, ∀ (k0_h57 : k0_cond57 d0 = 1#1), k0_dev57 < nD
  k0_off51_inb : ∀ d0 : Dev nD, ∀ (k0_h58 : k0_cond58 d0 = 1#1), ∀ a, (k0_off51 d0) a + S1.size a ≤ S32.size a
  k0_off52_inb : ∀ d0 : Dev nD, ∀ (k0_h58 : k0_cond58 d0 = 1#1), ∀ a, (k0_off52 d0) a + S1x2x4x512.size a ≤ S32x2x4x512.size a
  k0_off52_wordsbf16 : ∀ d0 : Dev nD, ∀ (k0_h58 : k0_cond58 d0 = 1#1), (Rect.unit (s := S32x2x4x512) (k0_off52 d0) S1x2x4x512.size (k0_off52_inb d0 k0_h58)).WholeWords (EltTy.packing .bf16)
  k0_dev58_lt : ∀ d0 : Dev nD, ∀ (k0_h58 : k0_cond58 d0 = 1#1), k0_dev58 < nD
  k0_off53_inb : ∀ d0 : Dev nD, ∀ (k0_h59 : k0_cond59 d0 = 1#1), ∀ a, (k0_off53 d0) a + S1.size a ≤ S32.size a
  k0_off54_inb : ∀ d0 : Dev nD, ∀ (k0_h59 : k0_cond59 d0 = 1#1), ∀ a, (k0_off54 d0) a + S1x2x4x512.size a ≤ S32x2x4x512.size a
  k0_off54_wordsbf16 : ∀ d0 : Dev nD, ∀ (k0_h59 : k0_cond59 d0 = 1#1), (Rect.unit (s := S32x2x4x512) (k0_off54 d0) S1x2x4x512.size (k0_off54_inb d0 k0_h59)).WholeWords (EltTy.packing .bf16)
  k0_dev59_lt : ∀ d0 : Dev nD, ∀ (k0_h59 : k0_cond59 d0 = 1#1), k0_dev59 < nD
  k0_off55_inb : ∀ d0 : Dev nD, ∀ (k0_h60 : k0_cond60 d0 = 1#1), ∀ a, (k0_off55 d0) a + S1.size a ≤ S32.size a
  k0_off56_inb : ∀ d0 : Dev nD, ∀ (k0_h60 : k0_cond60 d0 = 1#1), ∀ a, (k0_off56 d0) a + S1x2x4x512.size a ≤ S32x2x4x512.size a
  k0_off56_wordsbf16 : ∀ d0 : Dev nD, ∀ (k0_h60 : k0_cond60 d0 = 1#1), (Rect.unit (s := S32x2x4x512) (k0_off56 d0) S1x2x4x512.size (k0_off56_inb d0 k0_h60)).WholeWords (EltTy.packing .bf16)
  k0_dev60_lt : ∀ d0 : Dev nD, ∀ (k0_h60 : k0_cond60 d0 = 1#1), k0_dev60 < nD
  k0_off57_inb : ∀ d0 : Dev nD, ∀ (k0_h61 : k0_cond61 d0 = 1#1), ∀ a, (k0_off57 d0) a + S1.size a ≤ S32.size a
  k0_off58_inb : ∀ d0 : Dev nD, ∀ (k0_h61 : k0_cond61 d0 = 1#1), ∀ a, (k0_off58 d0) a + S1x2x4x512.size a ≤ S32x2x4x512.size a
  k0_off58_wordsbf16 : ∀ d0 : Dev nD, ∀ (k0_h61 : k0_cond61 d0 = 1#1), (Rect.unit (s := S32x2x4x512) (k0_off58 d0) S1x2x4x512.size (k0_off58_inb d0 k0_h61)).WholeWords (EltTy.packing .bf16)
  k0_dev61_lt : ∀ d0 : Dev nD, ∀ (k0_h61 : k0_cond61 d0 = 1#1), k0_dev61 < nD
  k0_off59_inb : ∀ d0 : Dev nD, ∀ (k0_h62 : k0_cond62 d0 = 1#1), ∀ a, (k0_off59 d0) a + S1.size a ≤ S32.size a
  k0_off60_inb : ∀ d0 : Dev nD, ∀ (k0_h62 : k0_cond62 d0 = 1#1), ∀ a, (k0_off60 d0) a + S1x2x4x512.size a ≤ S32x2x4x512.size a
  k0_off60_wordsbf16 : ∀ d0 : Dev nD, ∀ (k0_h62 : k0_cond62 d0 = 1#1), (Rect.unit (s := S32x2x4x512) (k0_off60 d0) S1x2x4x512.size (k0_off60_inb d0 k0_h62)).WholeWords (EltTy.packing .bf16)
  k0_dev62_lt : ∀ d0 : Dev nD, ∀ (k0_h62 : k0_cond62 d0 = 1#1), k0_dev62 < nD
  k0_off61_inb : ∀ d0 : Dev nD, ∀ (k0_h63 : k0_cond63 d0 = 1#1), ∀ a, (k0_off61 d0) a + S1.size a ≤ S32.size a
  k0_off62_inb : ∀ d0 : Dev nD, ∀ (k0_h63 : k0_cond63 d0 = 1#1), ∀ a, (k0_off62 d0) a + S1x2x4x512.size a ≤ S32x2x4x512.size a
  k0_off62_wordsbf16 : ∀ d0 : Dev nD, ∀ (k0_h63 : k0_cond63 d0 = 1#1), (Rect.unit (s := S32x2x4x512) (k0_off62 d0) S1x2x4x512.size (k0_off62_inb d0 k0_h63)).WholeWords (EltTy.packing .bf16)
  k0_dev63_lt : ∀ d0 : Dev nD, ∀ (k0_h63 : k0_cond63 d0 = 1#1), k0_dev63 < nD
  k0_off63_inb : ∀ d0 : Dev nD, ∀ (k0_h64 : k0_cond64 d0 = 1#1), ∀ a, (k0_off63 d0) a + S1.size a ≤ S32.size a
  k0_off64_inb : ∀ d0 : Dev nD, ∀ (k0_h64 : k0_cond64 d0 = 1#1), ∀ a, (k0_off64 d0) a + S1x2x4x512.size a ≤ S32x2x4x512.size a
  k0_off64_wordsbf16 : ∀ d0 : Dev nD, ∀ (k0_h64 : k0_cond64 d0 = 1#1), (Rect.unit (s := S32x2x4x512) (k0_off64 d0) S1x2x4x512.size (k0_off64_inb d0 k0_h64)).WholeWords (EltTy.packing .bf16)
  k0_dev64_lt : ∀ d0 : Dev nD, ∀ (k0_h64 : k0_cond64 d0 = 1#1), k0_dev64 < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch3 : DmaSems sig S4 := SemArray.consecutive 4 S4 hcc0_scratch3
abbrev cc0_scratch4 : DmaSems sig S32 := SemArray.consecutive 8 S32 hcc0_scratch4
abbrev cc0_scratch5 : DmaSems sig S32 := SemArray.consecutive 40 S32 hcc0_scratch5
def dot_S4x128_S128x256_S4x256_1_0_0_1_n_n : DotDims S4x128 S128x256 S4x256 where
  lhsContracting := [1]
  rhsContracting := [0]
  lhsNonContracting := [0]
  rhsNonContracting := [1]
  lhsBatch := []
  rhsBatch := []
  wf := dot_S4x128_S128x256_S4x256_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x8192 : Shape := ⟨3, ![4, 512, 8192]⟩
abbrev S4x128 : Shape := ⟨2, ![4, 128]⟩
abbrev S128x8192 : Shape := ⟨2, ![128, 8192]⟩
abbrev S_ : Shape := ⟨0, ![]⟩
abbrev S4x512 : Shape := ⟨2, ![4, 512]⟩
abbrev S4x512x1 : Shape := ⟨3, ![4, 512, 1]⟩
abbrev S4x8192 : Shape := ⟨2, ![4, 8192]⟩
abbrev S4x1x8192 : Shape := ⟨3, ![4, 1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S4x512x8192, .f32⟩
  | .hbm, ⟨1, _⟩ => ⟨S4x128, .f32⟩
  | .hbm, ⟨2, _⟩ => ⟨S128x8192, .f32⟩
  | .hbm, ⟨3, _⟩ => ⟨S128x8192, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S_, .f32⟩
  | .hbm, ⟨15, _⟩ => ⟨S4x512x1, .f32⟩
  | .hbm, ⟨16, _⟩ => ⟨S4x512x1, .f32⟩
  | .hbm, ⟨17, _⟩ => ⟨S4x512x8192, .f32⟩
  | .hbm, ⟨18, _⟩ => ⟨S4x512x8192, .f32⟩
  | .hbm, ⟨19, _⟩ => ⟨S4x512x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x512x1, .f32⟩
  | .hbm, ⟨33, _⟩ => ⟨S4x512x1, .f32⟩
  | .hbm, ⟨34, _⟩ => ⟨S4x512x8192, .f32⟩
  | .hbm, ⟨35, _⟩ => ⟨S4x512x8192, .f32⟩
  | .hbm, ⟨36, _⟩ => ⟨S_, .f32⟩
  | .hbm, ⟨37, _⟩ => ⟨S4x512x1, .f32⟩
  | .hbm, ⟨38, _⟩ => ⟨S4x512x1, .f32⟩
  | .hbm, ⟨39, _⟩ => ⟨S4x512x1, .f32⟩
  | .hbm, ⟨40, _⟩ => ⟨S4x512x8192, .f32⟩
  | .hbm, ⟨41, _⟩ => ⟨S4x512x8192, .f32⟩
  | .hbm, ⟨42, _⟩ => ⟨S4x8192, .f32⟩
  | .hbm, ⟨43, _⟩ => ⟨S4x8192, .f32⟩
  | .hbm, ⟨44, _⟩ => ⟨S4x1x8192, .f32⟩
  | .hbm, ⟨45, _⟩ => ⟨S_, .f32⟩
  | .hbm, ⟨46, _⟩ => ⟨S4x1x8192, .f32⟩
  | .hbm, ⟨47, _⟩ => ⟨S4x1x8192, .f32⟩
  | .hbm, ⟨48, _⟩ => ⟨S4x512x8192, .f32⟩
  | .hbm, ⟨49, _⟩ => ⟨S4x512x8192, .f32⟩
  | .hbm, ⟨50, _⟩ => ⟨S4x1x8192, .f32⟩
  | .hbm, ⟨51, _⟩ => ⟨S4x512x8192, .f32⟩
  | .hbm, ⟨52, _⟩ => ⟨S4x512x8192, .f32⟩
  | _, _ => ⟨S4x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S4x512x8192_S4x512_d2 : S4x512x8192.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x8192_0_1_2 : S4x512x1.BroadcastsInDim S4x512x8192 (![0, 1, 2] : Fin 3 → Fin S4x512x8192.rank)
  bcast_S4x8192_S4x1x8192_0_2 : S4x8192.BroadcastsInDim S4x1x8192 (![0, 2] : Fin 2 → Fin S4x1x8192.rank)
  bcast_S_S4x1x8192 : S_.BroadcastsInDim S4x1x8192 (![] : Fin 0 → Fin S4x1x8192.rank)
  bcast_S4x1x8192_S4x512x8192_0_1_2 : S4x1x8192.BroadcastsInDim S4x512x8192 (![0, 1, 2] : Fin 3 → Fin S4x512x8192.rank)
  dot_S4x128_S128x8192_S4x8192_1_0_0_1_n_n_wf : DotDims.WF S4x128 S128x8192 S4x8192 [1] [0] [0] [1] [] []

variable [Facts₀]

def dot_S4x128_S128x8192_S4x8192_1_0_0_1_n_n : DotDims S4x128 S128x8192 S4x8192 where
  lhsContracting := [1]
  rhsContracting := [0]
  lhsNonContracting := [0]
  rhsNonContracting := [1]
  lhsBatch := []
  rhsBatch := []
  wf := dot_S4x128_S128x8192_S4x8192_1_0_0_1_n_n_wf

class Facts : Prop extends Facts₀ where

variable [Facts]
-- ==== Proof.KDefs.lean ====
import proofs.«900771_g7700000000000772_dist_diff_adaln_cshard_i_b4_s512_c256_v7x_i32_f32_1_alg».proof.Proof.Gen.KernelIdeal.Skeleton

noncomputable section

namespace Cert.KernelIdeal.KVal

open Idealize.ShloMosaic Cert.KernelIdeal Cert.KernelIdeal.Gen

variable {F : FTy → Type} [FloatOps F]

def statsF32 (l0 l1 l2 l3 : Vec F S1x512x256 .f32) : FVec F S2x4x512 .f32 :=
  k0_pay13 (k0_pay5 l0) (k0_pay6 l0) (k0_pay8 l1) (k0_pay9 l1) (k0_pay11 l2) (k0_pay12 l2) l3

def statsSent (l0 l1 l2 l3 : Vec F S1x512x256 .f32) : FVec F S2x4x512 .bf16 :=
  k0_pay14 (k0_pay5 l0) (k0_pay6 l0) (k0_pay8 l1) (k0_pay9 l1) (k0_pay11 l2) (k0_pay12 l2) l3

def outBlock (w : BitVec 32) (l0 l1 l2 l3 : Vec F S1x512x256 .f32) (xv : Vec F S4x512x256 .f32)
    (t : Vec F S4x128 .f32) (ws wsh : Vec F S128x256 .f32) (gath : Vec F S32x2x4x512 .bf16) : FVec F S4x512x256 .f32 :=
  k0_pay1 (k0_pay3 t wsh) (k0_pay15 w (statsF32 l0 l1 l2 l3) xv gath) (k0_pay16 (k0_pay2 t ws))

end Cert.KernelIdeal.KVal

end
-- ==== Proof.Proto.lean ====
import proofs.«900771_g7700000000000772_dist_diff_adaln_cshard_i_b4_s512_c256_v7x_i32_f32_1_alg».proof.Proof.Gen.KernelIdeal
import proofs.«900771_g7700000000000772_dist_diff_adaln_cshard_i_b4_s512_c256_v7x_i32_f32_1_alg».proof.Proof.Gen.KernelIdeal.Skeleton
import proofs.«900771_g7700000000000772_dist_diff_adaln_cshard_i_b4_s512_c256_v7x_i32_f32_1_alg».proof.Proof.Gen.KernelIdeal.Launch
import proofs.«900771_g7700000000000772_dist_diff_adaln_cshard_i_b4_s512_c256_v7x_i32_f32_1_alg».proof.Proof.Gen.KernelIdeal.Points
import Idealize.ShloMosaic.Lib.Pipeline.Launch
import Idealize.ShloMosaic.Lib.Pipeline.Kit
import Idealize.ShloMosaic.Lib.Tactic
import proofs.«900771_g7700000000000772_dist_diff_adaln_cshard_i_b4_s512_c256_v7x_i32_f32_1_alg».proof.Proof.KDefs
import Idealize.ShloMosaic.Lib.ValueIdx

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def init : MemSt nD τ sig (Elt F) := ⟨m, fun _ => 0, ρ⟩

abbrev peers : List (Dev nD) := [0, 1, 2, 3, 4, 5, 6, 7, 8, 9, 10, 11, 12, 13, 14, 15, 16, 17, 18, 19, 20, 21, 22, 23, 24, 25, 26, 27, 28, 29, 30, 31]

abbrev xM : Memref sig .tc .hbm S4x512x256 .f32 := Memref.whole main_arg0
abbrev tM : Memref sig .tc .vmem S4x128 .f32 := Memref.whole cc0_stg0_0
abbrev wsM : Memref sig .tc .vmem S128x256 .f32 := Memref.whole cc0_stg1_0
abbrev wshM : Memref sig .tc .vmem S128x256 .f32 := Memref.whole cc0_stg2_0
abbrev oM : Memref sig .tc .vmem S4x512x256 .f32 := Memref.whole cc0_stg3_0
abbrev xvM : Memref sig .tc .vmem S4x512x256 .f32 := Memref.whole cc0_scratch0
abbrev stM : Memref sig .tc .vmem S2x4x512 .bf16 := Memref.whole cc0_scratch1
abbrev gM : Memref sig .tc .vmem S32x2x4x512 .bf16 := Memref.whole cc0_scratch2

theorem slot_inb (i : Dev nD) : ∀ a, (![i.val, 0, 0, 0] : Fin 4 → Nat) a + S1x2x4x512.size a ≤ S32x2x4x512.size a := by
  revert i; decide

abbrev slotM (i : Dev nD) : Memref sig .tc .vmem S2x4x512 .bf16 :=
  (gM.slice (Rect.unit (s := S32x2x4x512) ![i.val, 0, 0, 0] S1x2x4x512.size (slot_inb i)) (fun _ => rfl)).squeeze S2x4x512 squeezes_S1x2x4x512_S2x4x512

theorem grp_inb (k : Fin 4) : ∀ a, (![k.val, 0, 0] : Fin 3 → Nat) a + S1x512x256.size a ≤ S4x512x256.size a := by
  revert k; decide

abbrev xSl (k : Fin 4) : Memref sig .tc .hbm S512x256 .f32 :=
  (xM.slice (Rect.unit (s := S4x512x256) ![k.val, 0, 0] S1x512x256.size (grp_inb k)) (fun _ => rfl)).squeeze S512x256 squeezes_S1x512x256_S512x256
abbrev xvSl (k : Fin 4) : Memref sig .tc .vmem S512x256 .f32 :=
  (xvM.slice (Rect.unit (s := S4x512x256) ![k.val, 0, 0] S1x512x256.size (grp_inb k)) (fun _ => rfl)).squeeze S512x256 squeezes_S1x512x256_S512x256

abbrev barS : Sem sig := (SemArray.scalar (sig.barrier 0 rfl) : Sems sig S_).sem
def copyS (k : Fin 4) : DmaSem sig := ⟨4 + k.val, by have := k.isLt; show _ < 72; omega⟩
def sendS (j : Dev nD) : DmaSem sig := ⟨8 + j.val, by have : j.val < 32 := j.isLt; show _ < 72; omega⟩
def recvS (i : Dev nD) : DmaSem sig := ⟨40 + i.val, by have : i.val < 32 := i.isLt; show _ < 72; omega⟩

abbrev barCell (c : Dev nD) : GSem nD τ sig := ((c : Thread nD τ), .reg barS)
abbrev copyCell (c : Dev nD) (k : Fin 4) : GSem nD τ sig := ((c : Thread nD τ), .dma (copyS k))
abbrev sendCell (c j : Dev nD) : GSem nD τ sig := ((c : Thread nD τ), .dma (sendS j))
abbrev recvCell (c i : Dev nD) : GSem nD τ sig := ((c : Thread nD τ), .dma (recvS i))

def sendOf : SemLoc sig → Option (Dev nD)
  | .dma q => if h : 8 ≤ q.val ∧ q.val < 40 then some ⟨q.val - 8, by show _ < 32; omega⟩ else none
  | _ => none
def recvOf : SemLoc sig → Option (Dev nD)
  | .dma q => if h : 40 ≤ q.val then some ⟨q.val - 40, by have : q.val < 72 := q.isLt; show _ < 32; omega⟩ else none
  | _ => none

def copyOf : SemLoc sig → Option (Fin 4)
  | .dma q => if h : 4 ≤ q.val ∧ q.val < 8 then some ⟨q.val - 4, by omega⟩ else none
  | _ => none

abbrev CIx : Type := Unit ⊕ (Dev nD ⊕ (Dev nD ⊕ Fin 4))
abbrev csem : CIx → SemLoc sig
  | .inl _ => .reg barS
  | .inr (.inl j) => .dma (sendS j)
  | .inr (.inr (.inl i)) => .dma (recvS i)
  | .inr (.inr (.inr k)) => .dma (copyS k)
abbrev kcell (ck : Dev nD × CIx) : GSem nD τ sig := ((ck.1 : Thread nD τ), csem ck.2)

abbrev osem : Fin 68 → SemLoc sig := fun k => .dma ⟨4 + k.val, by have := k.isLt; show _ < 72; omega⟩

abbrev N : ℕ := (stM : Memref sig .tc .vmem S2x4x512 .bf16).view.dmaCredit

abbrev NC : ℕ := (xvSl 0 : Memref sig .tc .vmem S512x256 .f32).view.dmaCredit

def ld (X : (cc0_scratch0 : Ref sig .tc).ty.Contents (Elt F)) (k : Fin 4) : Vec F S1x512x256 .f32 :=
  (xvM : Memref sig .tc .vmem S4x512x256 .f32).view.readAt (Elt F) (Rect.unit (s := S4x512x256) ![k.val, 0, 0] S1x512x256.size (grp_inb k)).toLoadRect X

def xOf (c : Dev nD) : (cc0_scratch0 : Ref sig .tc).ty.Contents (Elt F) := m ((c : Thread nD τ).loc main_arg0)
def tOf (c : Dev nD) : (cc0_stg0_0 : Ref sig .tc).ty.Contents (Elt F) := (win0_0.blk (0 : Fin 1)).view.read (Elt F) (m ((c : Thread nD τ).loc main_arg1))
def wsOf (c : Dev nD) : (cc0_stg1_0 : Ref sig .tc).ty.Contents (Elt F) := (win0_1.blk (0 : Fin 1)).view.read (Elt F) (m ((c : Thread nD τ).loc main_arg2))
def wshOf (c : Dev nD) : (cc0_stg2_0 : Ref sig .tc).ty.Contents (Elt F) := (win0_2.blk (0 : Fin 1)).view.read (Elt F) (m ((c : Thread nD τ).loc main_arg3))

def sentOf (c : Dev nD) : (cc0_scratch1 : Ref sig .tc).ty.Contents (Elt F) :=
  KVal.statsSent (ld (xOf m c) 0) (ld (xOf m c) 1) (ld (xOf m c) 2) (ld (xOf m c) 3)

def gathAll : (cc0_scratch2 : Ref sig .tc).ty.Contents (Elt F) :=
  fun idx => sentOf m (idx 0) (ValueIdx.ix3 (idx 1) (idx 2) (idx 3))

def outAt (c : Dev nD) : (cc0_stg3_0 : Ref sig .tc).ty.Contents (Elt F) :=
  KVal.outBlock (BitVec.ofNat 32 c.val) (ld (xOf m c) 0) (ld (xOf m c) 1) (ld (xOf m c) 2) (ld (xOf m c) 3) (xOf m c) (tOf m c) (wsOf m c) (wshOf m c) (gathAll m)

def slotPts (d i : Dev nD) (f : Buf (Elt F) ((slotM i).view.loc (d : Thread nD τ))) : sProp 𝕄 :=
  (slotM i).view.loc (d : Thread nD τ) ↦[(slotM i).view.set]{fullShare} f

def stPts (c : Dev nD) (q : PosShare TreeShare) : sProp 𝕄 :=
  (stM : Memref sig .tc .vmem S2x4x512 .bf16).view.loc (c : Thread nD τ) ↦[(stM : Memref sig .tc .vmem S2x4x512 .bf16).view.set]{q} sentOf m c

def barPay (c d : Dev nD) : sProp 𝕄 := iprop((∃ f, slotPts d c f) ∗ reached ER (recvCell d c) 0)

def recvPay (c i : Dev nD) : sProp 𝕄 := slotPts c i (gathAll m)

def sendPay (c j : Dev nD) : sProp 𝕄 := stPts m c (Transfers.shareTok fullShare 32 j)

def copyPay (c : Dev nD) (k : Fin 4) : sProp 𝕄 :=
  iprop(((xvSl k).view.loc (c : Thread nD τ) ↦[(xvSl k).view.set]{fullShare} xOf m c)
    ∗ ((xSl k).view.loc (c : Thread nD τ) ↦[(xSl k).view.set]{fullShare} xOf m c))

def sched : Rounds.Schedule (GSem nD τ sig) (Dev nD) 𝕄 where
  duties g r :=
    if r = 0 ∧ g.1.2 = .tc then
      (if g.2 = .reg barS then Finset.univ.erase g.1.1
       else match sendOf g.2 with
        | some j => if j = g.1.1 then ∅ else {g.1.1}
        | none => match recvOf g.2 with
          | some i => if i = g.1.1 then ∅ else {i}
          | none => match copyOf g.2 with
            | some _ => {g.1.1}
            | none => ∅)
    else ∅
  amount g _ _ := if g.2 = .reg barS then 1 else if (copyOf g.2).isSome then NC else N
  payload g _ d :=
    if g.2 = .reg barS then barPay g.1.1 d
    else match sendOf g.2 with
      | some j => sendPay m g.1.1 j
      | none => match recvOf g.2 with
        | some i => recvPay m g.1.1 i
        | none => match copyOf g.2 with
          | some k => copyPay m g.1.1 k
          | none => iprop(emp)
  amount_pos g _ _ _ := by
    by_cases h : g.2 = .reg barS
    · rw [if_pos h]; exact Nat.one_pos
    · rw [if_neg h]; split
      · exact View.dmaCredit_pos _ (by decide)
      · exact View.dmaCredit_pos _ (by decide)

def sumFrom (base : CellTallies nD τ sig Unit) (f : Dev nD → CellTallies nD τ sig Unit) : List (Dev nD) → CellTallies nD τ sig Unit
  | [] => base
  | j :: js => sumFrom base f js + f j

def owedBar (c j : Dev nD) : CellTallies nD τ sig Unit := if j = c then 0 else tallyAt (barCell j) () 1
def owedRecv (c j : Dev nD) : CellTallies nD τ sig Unit := if j = c then 0 else tallyAt (recvCell j c) () N

def O₁ (c : Dev nD) : CellTallies nD τ sig Unit := sumFrom 0 (owedRecv c) peers

def O₀ (c : Dev nD) : CellTallies nD τ sig Unit := sumFrom (O₁ c) (owedBar c) peers

def L (g : GSem nD τ sig) : Finset Unit := if g.1.2 = .tc then {()} else ∅

def lv (g : GSem nD τ sig) (_ : Unit) : ℕ := if g.2 = .reg barS then 1 else if (recvOf g.2).isSome then 2 else 0

end Cert.KernelIdeal.Proto

end
-- ==== Proof.Data.lean ====
import proofs.«900771_g7700000000000772_dist_diff_adaln_cshard_i_b4_s512_c256_v7x_i32_f32_1_alg».proof.Proof.Proto

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

abbrev grps : List (Fin 4) := [0, 1, 2, 3]

def myPos (c : Dev nD) : sProp 𝕄 :=
  iprop(atPos ER (barCell c) 0 ∅ 0 ∗ bigSepL peers (fun j => atPos ER (sendCell c j) 0 ∅ 0) ∗ bigSepL peers (fun i => atPos ER (recvCell c i) 0 ∅ 0)
    ∗ bigSepL grps (fun k => atPos ER (copyCell c k) 0 ∅ 0))

def sigTok (c j : Dev nD) : sProp 𝕄 := if j = c then iprop(emp) else dutyTok ER (barCell j) 0 c

def sndTok (c j : Dev nD) : sProp 𝕄 := if j = c then iprop(emp) else iprop(dutyTok ER (sendCell c j) 0 c ∗ dutyTok ER (recvCell j c) 0 c)

def cpyTok (c : Dev nD) (k : Fin 4) : sProp 𝕄 := dutyTok ER (copyCell c k) 0 c

def payToks (c : Dev nD) : sProp 𝕄 := iprop(bigSepL peers (sigTok c) ∗ bigSepL peers (sndTok c) ∗ bigSepL grps (cpyTok c))

def ghost (K : Dev nD × CIx → ℕ) (c : Dev nD) : sProp 𝕄 := iprop(records m K ∗ myPos c ∗ payToks c)

def recvCred (c i : Dev nD) : sProp 𝕄 := if i = c then iprop(emp) else cred (tallyAt (recvCell c i) () N)
def creds (c : Dev nD) : sProp 𝕄 := iprop(cred (tallyAt (barCell c) () 31) ∗ bigSepL peers (recvCred c))

def xPts (c : Dev nD) : sProp 𝕄 := ((c : Thread nD τ).loc main_arg0) ↦{fullShare} xOf m c

def start (c : Dev nD) : sProp 𝕄 :=
  iprop((∃ K, ghost m K c) ∗ creds c ∗ levAts L lv ∗ xPts m c)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)

def Φ₁ (c : Dev nD) : sProp 𝕄 := iprop(xPts m c ∗ scratch c ∗ Pipeline.ownSems0 osem c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (init m ρ).mem ((cfg0.win w).arr.view.loc (c : Thread nD τ))
  after w _ := match w with
    | ⟨0, _⟩ => tOf m c
    | ⟨1, _⟩ => wsOf m c
    | ⟨2, _⟩ => wshOf m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ
    ∗ stg c cc0_stg0_0 (tOf m c) ∗ stg c cc0_stg1_0 (wsOf m c) ∗ stg c cc0_stg2_0 (wshOf m c) ∗ stg c cc0_stg3_0 (outAt m c))

end Cert.KernelIdeal.Proto

end
-- ==== Proof.RunSpec.lean ====
import proofs.«900771_g7700000000000772_dist_diff_adaln_cshard_i_b4_s512_c256_v7x_i32_f32_1_alg».proof.Proof.Data

noncomputable section

namespace Cert.KernelIdeal.Proto

open Cert.KernelIdeal Cert.KernelIdeal.Gen
open Idealize.ShloMosaic Idealize.ShloMosaic.TcCoe Idealize.SL.Sem
open Idealize.ShloMosaic.Pipeline (Dat Cfg Window BodyObligation cellOf)

def RunPost {F : FTy → Type} [FloatOps F] (m : (ℓ : Loc nD τ sig) → Buf (Elt F) ℓ) : PUnit × MemSt nD τ sig (Elt F) → Prop := fun r =>
  ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

def RunValue (F : FTy → Type) [FloatOps F] : Prop :=
  ∀ (m : (ℓ : Loc nD τ sig) → Buf (Elt F) ℓ) (ρ : Dev nD → PrngReg),
    θ_run (defs (F := F)) (onTc (τ := τ) (main (F := F))) ⟨m, fun _ => 0, ρ⟩ (RunPost m)

def BodyOK (F : FTy → Type) [FloatOps F] : Prop :=
  ∀ (m : (ℓ : Loc nD τ sig) → Buf (Elt F) ℓ) (ρ : Dev nD → PrngReg) (c : Dev nD),
    BodyObligation (dats (F := F) m ρ 0 c) (defs₀ (F := F)) 𝒱₀ () Set.univ

end Cert.KernelIdeal.Proto

end
-- ==== Proof.KFrame.lean ====
import proofs.«900771_g7700000000000772_dist_diff_adaln_cshard_i_b4_s512_c256_v7x_i32_f32_1_alg».proof.Proof.RunSpec

noncomputable section

namespace Cert.KernelIdeal.Proto

open Cert.KernelIdeal Cert.KernelIdeal.Gen
open Idealize.ShloMosaic Idealize.ShloMosaic.TcCoe Idealize.SL.Sem

theorem frame_post_of_run {F : FTy → Type} [FloatOps F] (h : RunValue F)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => (hr c).2) (h m ρ)

end Cert.KernelIdeal.Proto

end
-- ==== Proof.KCongr.lean ====
import proofs.«900771_g7700000000000772_dist_diff_adaln_cshard_i_b4_s512_c256_v7x_i32_f32_1_alg».proof.Proof.KDefs
import Idealize.ShloMosaic.Lib.ValueIdx
import Idealize.ShloMosaic.Lib.ValueLayout
import Idealize.ShloMosaic.Lib.Pipeline.Value

noncomputable section

namespace Cert.KernelIdeal.KVal

open Idealize.ShloMosaic Idealize.ShloMosaic.ValueIdx Cert.KernelIdeal Cert.KernelIdeal.Gen

theorem ne_bit (d c : Fin 32) :
    IntOp.cmpi .ne (BitVec.ofNat 32 d.val) (BitVec.ofNat 32 c.val) = if d = c then 0#1 else 1#1 := by
  by_cases h : d = c
  · subst h
    rw [if_pos rfl]
    simp [IntOp.cmpi]
  · rw [if_neg h]
    have hne : BitVec.ofNat 32 d.val ≠ BitVec.ofNat 32 c.val := fun e => h (Fin.ext (by
      have h1 := congrArg BitVec.toNat e
      simp only [BitVec.toNat_ofNat] at h1
      have hd := d.isLt
      have hc := c.isLt
      omega))
    show BitVec.ofBool (BitVec.ofNat 32 d.val != BitVec.ofNat 32 c.val) = 1#1
    rw [bne_iff_ne.mpr hne]
    rfl

theorem mask_apply (w : BitVec 32) (hI : S32x1x1x1.Iotas .tc 32 [0]) (hc : S32x1x1x1.ShapeCasts S32x1x1x1)
    (hb : S32x1x1x1.Broadcasts S32x2x4x512) (d : Fin 32) (s : Fin 2) (k : Fin 4) (r : Fin 512) :
    broadcastTo S32x2x4x512
        (shapeCast S32x1x1x1 (cmpi .ne (iota .tc S32x1x1x1 32 [0] hI) (broadcast S32x1x1x1 w)) hc) hb (ix4 d s k r)
      = IntOp.cmpi .ne (BitVec.ofNat 32 d.val) w := by
  refine (broadcastTo_apply _ hb (ix4 d s k r) (ix4 d (0 : Fin 1) (0 : Fin 1) (0 : Fin 1)) fun ax => ?_).trans ?_
  · match ax with
    | ⟨0, _⟩ => rfl
    | ⟨1, _⟩ => rfl
    | ⟨2, _⟩ => rfl
    | ⟨3, _⟩ => rfl
  · rw [shapeCast_self]
    show IntOp.cmpi .ne (iota .tc S32x1x1x1 32 [0] hI (ix4 d (0 : Fin 1) (0 : Fin 1) (0 : Fin 1))) w = _
    rw [iota_single_apply]

theorem maskedSelect_congr {α : Type} (c : Fin 32) (a a' z : S32x2x4x512.Idx → α)
    (hI : S32x1x1x1.Iotas .tc 32 [0]) (hc : S32x1x1x1.ShapeCasts S32x1x1x1)
    (hb : S32x1x1x1.Broadcasts S32x2x4x512)
    (h : ∀ idx : S32x2x4x512.Idx, (idx 0).val ≠ c.val → a idx = a' idx) :
    select
        (broadcastTo S32x2x4x512
          (shapeCast S32x1x1x1
            (cmpi .ne (iota .tc S32x1x1x1 32 [0] hI) (broadcast S32x1x1x1 (BitVec.ofNat 32 c.val))) hc) hb) a z
      = select
        (broadcastTo S32x2x4x512
          (shapeCast S32x1x1x1
            (cmpi .ne (iota .tc S32x1x1x1 32 [0] hI) (broadcast S32x1x1x1 (BitVec.ofNat 32 c.val))) hc) hb) a' z := by
  funext idx
  obtain ⟨d, s, k, r, rfl⟩ : ∃ (d : Fin 32) (s : Fin 2) (k : Fin 4) (r : Fin 512), idx = ix4 d s k r :=
    ⟨idx 0, idx 1, idx 2, idx 3, eq_ix4 idx⟩
  rw [select_apply, select_apply, mask_apply, ne_bit]
  by_cases hd : d = c
  · rw [if_pos hd, select_zero, select_zero]
  · rw [if_neg hd, select_one, select_one]
    exact h _ (fun e => hd (Fin.ext e))

theorem norm_congr {F : FTy → Type} [FloatOps F] (c : Fin 32) (st : FVec F S2x4x512 .f32)
    (xv : Vec F S4x512x256 .f32) (g g' : Vec F S32x2x4x512 .bf16)
    (h : ∀ idx : S32x2x4x512.Idx, (idx 0).val ≠ c.val → g idx = g' idx) :
    k0_pay15 (BitVec.ofNat 32 c.val) st xv g = k0_pay15 (BitVec.ofNat 32 c.val) st xv g' := by
  have hsel := maskedSelect_congr c (extf .f32 g bitsLt_bf16_f32 : FVec F S32x2x4x512 .f32)
    (extf .f32 g' bitsLt_bf16_f32) (broadcast S32x2x4x512 (Scalar.ofBits (F := F) .f32 0x00000000#32))
    iota_S32x1x1x1_d0_w32 shapeCasts_S32x1x1x1_S32x1x1x1 broadcasts_S32x1x1x1_S32x2x4x512
    (fun idx hne => by
      show FloatOps.extf .f32 _ (g idx) = FloatOps.extf .f32 _ (g' idx)
      rw [h idx hne])
  unfold k0_pay15
  dsimp only
  rw [hsel]

end Cert.KernelIdeal.KVal

end
-- ==== Proof.Spec.lean ====
import Idealize.ShloMosaic.PureOps.Ideal
import Mathlib.Algebra.BigOperators.Fin
import Mathlib.Algebra.BigOperators.Ring.Finset
import Mathlib.Algebra.Order.BigOperators.Ring.Finset
import Mathlib.Analysis.SpecialFunctions.Sqrt
import Mathlib.Data.EReal.Basic
import Mathlib.Data.EReal.Inv

noncomputable section

namespace Cert.Spec

open Idealize.ShloMosaic
open scoped BigOperators

def col (d : Fin 32) (i : Fin 256) : Fin 8192 := ⟨256 * d.val + i.val, by omega⟩

def S1 (X : Fin 4 → Fin 512 → Fin 8192 → ℝ) (k : Fin 4) (r : Fin 512) : ℝ := ∑ j, X k r j

def S2 (X : Fin 4 → Fin 512 → Fin 8192 → ℝ) (k : Fin 4) (r : Fin 512) : ℝ := ∑ j, X k r j * X k r j

def mean (X : Fin 4 → Fin 512 → Fin 8192 → ℝ) (k : Fin 4) (r : Fin 512) : ℝ := S1 X k r / 8192

def var (X : Fin 4 → Fin 512 → Fin 8192 → ℝ) (k : Fin 4) (r : Fin 512) : ℝ :=
  (∑ j, (X k r j - mean X k r) * (X k r j - mean X k r)) / 8192

def dot (T : Fin 4 → Fin 128 → ℝ) (W : Fin 128 → Fin 8192 → ℝ) (k : Fin 4) (j : Fin 8192) : ℝ :=
  ∑ q, T k q * W q j

def out (ε : ℝ) (X : Fin 4 → Fin 512 → Fin 8192 → ℝ) (T : Fin 4 → Fin 128 → ℝ)
    (WS WSH : Fin 128 → Fin 8192 → ℝ) (k : Fin 4) (r : Fin 512) (j : Fin 8192) : ℝ :=
  (X k r j - mean X k r) / Real.sqrt (var X k r + ε) * (1 + dot T WS k j) + dot T WSH k j

def blockS1 (X : Fin 4 → Fin 512 → Fin 8192 → ℝ) (d : Fin 32) (k : Fin 4) (r : Fin 512) : ℝ :=
  ∑ i : Fin 256, X k r (col d i)

def blockS2 (X : Fin 4 → Fin 512 → Fin 8192 → ℝ) (d : Fin 32) (k : Fin 4) (r : Fin 512) : ℝ :=
  ∑ i : Fin 256, X k r (col d i) * X k r (col d i)

def colEquiv : Fin 32 × Fin 256 ≃ Fin 8192 where
  toFun p := col p.1 p.2
  invFun j := (⟨j.val / 256, by omega⟩, ⟨j.val % 256, by omega⟩)
  left_inv p := by
    obtain ⟨d, i⟩ := p
    have hd := d.isLt
    have hi := i.isLt
    apply Prod.ext
    · apply Fin.ext
      show (256 * d.val + i.val) / 256 = d.val
      omega
    · apply Fin.ext
      show (256 * d.val + i.val) % 256 = i.val
      omega
  right_inv j := by
    apply Fin.ext
    show 256 * (j.val / 256) + j.val % 256 = j.val
    omega

theorem sum_blocks (f : Fin 8192 → ℝ) :
    ∑ j, f j = ∑ d : Fin 32, ∑ i : Fin 256, f (col d i) := by
  rw [← Equiv.sum_comp colEquiv f]
  exact Fintype.sum_prod_type' (fun d i => f (col d i))

theorem S1_blocks (X : Fin 4 → Fin 512 → Fin 8192 → ℝ) (k : Fin 4) (r : Fin 512) :
    S1 X k r = ∑ d : Fin 32, blockS1 X d k r := by
  unfold S1 blockS1
  exact sum_blocks (fun j => X k r j)

theorem S2_blocks (X : Fin 4 → Fin 512 → Fin 8192 → ℝ) (k : Fin 4) (r : Fin 512) :
    S2 X k r = ∑ d : Fin 32, blockS2 X d k r := by
  unfold S2 blockS2
  exact sum_blocks (fun j => X k r j * X k r j)

theorem S1_split (X : Fin 4 → Fin 512 → Fin 8192 → ℝ) (c : Fin 32) (k : Fin 4) (r : Fin 512) :
    S1 X k r = (∑ d ∈ Finset.univ.erase c, blockS1 X d k r) + blockS1 X c k r := by
  rw [S1_blocks, Finset.sum_erase_add _ _ (Finset.mem_univ c)]

theorem S2_split (X : Fin 4 → Fin 512 → Fin 8192 → ℝ) (c : Fin 32) (k : Fin 4) (r : Fin 512) :
    S2 X k r = (∑ d ∈ Finset.univ.erase c, blockS2 X d k r) + blockS2 X c k r := by
  rw [S2_blocks, Finset.sum_erase_add _ _ (Finset.mem_univ c)]

theorem var_eq (X : Fin 4 → Fin 512 → Fin 8192 → ℝ) (k : Fin 4) (r : Fin 512) :
    var X k r = S2 X k r / 8192 - mean X k r * mean X k r := by
  have hS1 : S1 X k r = 8192 * mean X k r := by
    unfold mean
    field_simp
  have hsum : ∑ j, (X k r j - mean X k r) * (X k r j - mean X k r)
      = S2 X k r - 2 * mean X k r * S1 X k r + 8192 * (mean X k r * mean X k r) := by
    have hterm : ∀ j, (X k r j - mean X k r) * (X k r j - mean X k r)
        = X k r j * X k r j - 2 * mean X k r * X k r j + mean X k r * mean X k r := by
      intro j
      ring
    simp only [hterm]
    rw [Finset.sum_add_distrib, Finset.sum_sub_distrib, ← Finset.mul_sum, Finset.sum_const,
      Finset.card_univ, Fintype.card_fin, nsmul_eq_mul]
    unfold S1 S2
    norm_num
  unfold var
  rw [hsum, hS1]
  field_simp
  ring

theorem var_nonneg (X : Fin 4 → Fin 512 → Fin 8192 → ℝ) (k : Fin 4) (r : Fin 512) :
    0 ≤ var X k r := by
  unfold var
  exact div_nonneg (Finset.sum_nonneg (fun j _ => mul_self_nonneg _)) (by norm_num)

theorem var_add_pos (ε : ℝ) (hε : 0 < ε) (X : Fin 4 → Fin 512 → Fin 8192 → ℝ) (k : Fin 4)
    (r : Fin 512) : 0 < var X k r + ε :=
  add_pos_of_nonneg_of_pos (var_nonneg X k r) hε

theorem kernel_var_add_pos (ε : ℝ) (hε : 0 < ε) (X : Fin 4 → Fin 512 → Fin 8192 → ℝ) (k : Fin 4)
    (r : Fin 512) : 0 < S2 X k r / 8192 - mean X k r * mean X k r + ε := by
  rw [← var_eq]
  exact var_add_pos ε hε X k r

theorem out_eq_kernel_form (ε : ℝ) (hε : 0 < ε) (X : Fin 4 → Fin 512 → Fin 8192 → ℝ)
    (T : Fin 4 → Fin 128 → ℝ) (WS WSH : Fin 128 → Fin 8192 → ℝ) (k : Fin 4) (r : Fin 512)
    (j : Fin 8192) :
    out ε X T WS WSH k r j
      = (X k r j - mean X k r)
          * (Real.sqrt (S2 X k r / 8192 - mean X k r * mean X k r + ε))⁻¹
          * (1 + dot T WS k j) + dot T WSH k j := by
  unfold out
  rw [var_eq, div_eq_mul_inv]

def eps : ℝ := EReal.toReal (Ideal.ofBits .f32 0x3727C5AC#32)

theorem ofBits_eps_dyadic :
    Ideal.ofBits .f32 0x3727C5AC#32 = ((10995116 * (2 : ℝ) ^ (-40 : ℤ) : ℝ) : EReal) := by
  simp [Ideal.ofBits, Ideal.ieee, -EReal.coe_mul]

theorem eps_eq : eps = 10995116 * (2 : ℝ) ^ (-40 : ℤ) := by
  rw [eps, ofBits_eps_dyadic, EReal.toReal_coe]

theorem ofBits_eps : Ideal.ofBits .f32 0x3727C5AC#32 = ((eps : ℝ) : EReal) := by
  rw [eps_eq, ofBits_eps_dyadic]

theorem eps_pos : 0 < eps := by
  rw [eps_eq]
  positivity

theorem ofBits_8192 : Ideal.ofBits .f32 0x46000000#32 = ((8192 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

theorem div_real (a b : ℝ) (hb : b ≠ 0) :
    Ideal.div (a : EReal) (b : EReal) = ((a / b : ℝ) : EReal) := by
  rw [Ideal.div_coe hb, ← EReal.coe_mul, mul_one_div]

theorem sqrt_real (v : ℝ) (hv : 0 ≤ v) : Ideal.sqrt (v : EReal) = ((Real.sqrt v : ℝ) : EReal) := by
  rw [Ideal.sqrt_coe, if_neg (not_lt.mpr hv)]

theorem rsqrt_real (v : ℝ) (hv : 0 < v) :
    Ideal.rsqrt (v : EReal) = (((Real.sqrt v)⁻¹ : ℝ) : EReal) := by
  rw [Ideal.rsqrt_coe, if_neg (not_lt.mpr hv.le), if_neg hv.ne']

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Spec

end
-- ==== Proof.LibPlainDot.lean ====
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KValue.lean ====
import proofs.«900771_g7700000000000772_dist_diff_adaln_cshard_i_b4_s512_c256_v7x_i32_f32_1_alg».proof.Proof.KDefs
import proofs.«900771_g7700000000000772_dist_diff_adaln_cshard_i_b4_s512_c256_v7x_i32_f32_1_alg».proof.Proof.KCongr
import proofs.«900771_g7700000000000772_dist_diff_adaln_cshard_i_b4_s512_c256_v7x_i32_f32_1_alg».proof.Proof.Spec
import proofs.«900771_g7700000000000772_dist_diff_adaln_cshard_i_b4_s512_c256_v7x_i32_f32_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen
open scoped BigOperators

theorem lift_row (h : S512x256.Reduces [1] S512) (r : Fin 512) (i : Fin 256) :
    h.lift (ix1 r) i = ix2 r i := by
  funext a
  match a with
  | ⟨0, _⟩ => rfl
  | ⟨1, _⟩ => rfl

theorem laneSum_apply (v : FVec Ideal S512x256 .f32) (x : Fin 512 → Fin 256 → ℝ)
    (hv : ∀ (r : Fin 512) (i : Fin 256), v (ix2 r i) = ((x r i : ℝ) : EReal))
    (h : S512x256.Reduces [1] S512) (hφ : FKind.Formats .f32)
    (hacc : (0x00000000#32 : BitVec 32) = FKind.add.neutral .f32 hφ) (r : Fin 512) :
    multiReduction .add [1] S512 v 0x00000000#32 h hφ hacc (ix1 r) = ((∑ i, x r i : ℝ) : EReal) := by
  refine (Ideal.multiReduction_add_single v 0x00000000#32 h hφ hacc (ix1 r)).trans ?_
  rw [Cert.Spec.coe_sum]
  show ∑ i : Fin 256, v (h.lift (ix1 r) i) = _
  refine Finset.sum_congr rfl fun i _ => ?_
  rw [lift_row h r i, hv]

theorem group_apply (l : Vec Ideal S1x512x256 .f32) (x : Fin 512 → Fin 256 → ℝ)
    (hl : ∀ (r : Fin 512) (i : Fin 256), l (ix3 (0 : Fin 1) r i) = ((x r i : ℝ) : EReal))
    (hc : S1x512x256.ShapeCasts S512x256) (r : Fin 512) (i : Fin 256) :
    shapeCast S512x256 l hc (ix2 r i) = ((x r i : ℝ) : EReal) :=
  (shapeCast_1ab_ab_apply l hc r i).trans (hl r i)

theorem groupSq_apply (l : Vec Ideal S1x512x256 .f32) (x : Fin 512 → Fin 256 → ℝ)
    (hl : ∀ (r : Fin 512) (i : Fin 256), l (ix3 (0 : Fin 1) r i) = ((x r i : ℝ) : EReal))
    (hc : S1x512x256.ShapeCasts S512x256) (r : Fin 512) (i : Fin 256) :
    (mulf (shapeCast S512x256 l hc : FVec Ideal S512x256 .f32) (shapeCast S512x256 l hc) : FVec Ideal S512x256 .f32) (ix2 r i)
      = ((x r i * x r i : ℝ) : EReal) := by
  rw [mulf_apply, group_apply l x hl hc r i, EReal.coe_mul]

theorem stack4_apply {α : Type} (p0 p1 p2 p3 : S1x512.Idx → α)
    (h : Shape.Concatenates [S1x512, S1x512, S1x512, S1x512] S4x512 0) (k : Fin 4) (r : Fin 512) (f : Fin 4 → α)
    (h0 : p0 (ix2 (0 : Fin 1) r) = f 0) (h1 : p1 (ix2 (0 : Fin 1) r) = f 1)
    (h2 : p2 (ix2 (0 : Fin 1) r) = f 2) (h3 : p3 (ix2 (0 : Fin 1) r) = f 3) :
    concatenate S4x512 0 [⟨S1x512, p0⟩, ⟨S1x512, p1⟩, ⟨S1x512, p2⟩, ⟨S1x512, p3⟩] h (ix2 k r) = f k := by
  have hi : ∀ b : Fin S1x512.rank, b.cast (rfl : S1x512.rank = S4x512.rank) ≠ 0 →
      ((ix2 (0 : Fin 1) r : S1x512.Idx) b).val = ((ix2 k r : S4x512.Idx) (b.cast rfl)).val := fun b hb => by
    match b with
    | ⟨0, _⟩ => exact absurd rfl hb
    | ⟨1, _⟩ => rfl
  match k with
  | ⟨0, _⟩ =>
    exact (concatenate_apply_piece (t := S4x512) 0 [⟨S1x512, p0⟩, ⟨S1x512, p1⟩, ⟨S1x512, p2⟩, ⟨S1x512, p3⟩] h _ 0
      (by show 0 < 4; omega) S1x512 p0 rfl rfl 0 rfl (ix2 (0 : Fin 1) r) hi rfl).trans h0
  | ⟨1, _⟩ =>
    exact (concatenate_apply_piece (t := S4x512) 0 [⟨S1x512, p0⟩, ⟨S1x512, p1⟩, ⟨S1x512, p2⟩, ⟨S1x512, p3⟩] h _ 1
      (by show 1 < 4; omega) S1x512 p1 rfl rfl 1 rfl (ix2 (0 : Fin 1) r) hi rfl).trans h1
  | ⟨2, _⟩ =>
    exact (concatenate_apply_piece (t := S4x512) 0 [⟨S1x512, p0⟩, ⟨S1x512, p1⟩, ⟨S1x512, p2⟩, ⟨S1x512, p3⟩] h _ 2
      (by show 2 < 4; omega) S1x512 p2 rfl rfl 2 rfl (ix2 (0 : Fin 1) r) hi rfl).trans h2
  | ⟨3, _⟩ =>
    exact (concatenate_apply_piece (t := S4x512) 0 [⟨S1x512, p0⟩, ⟨S1x512, p1⟩, ⟨S1x512, p2⟩, ⟨S1x512, p3⟩] h _ 3
      (by show 3 < 4; omega) S1x512 p3 rfl rfl 3 rfl (ix2 (0 : Fin 1) r) hi rfl).trans h3

theorem stack2_apply {α : Type} (t0 t1 : S1x4x512.Idx → α)
    (h : Shape.Concatenates [S1x4x512, S1x4x512] S2x4x512 0) (s : Fin 2) (k : Fin 4) (r : Fin 512) :
    concatenate S2x4x512 0 [⟨S1x4x512, t0⟩, ⟨S1x4x512, t1⟩] h (ix3 s k r)
      = if s = 0 then t0 (ix3 (0 : Fin 1) k r) else t1 (ix3 (0 : Fin 1) k r) := by
  have hi : ∀ b : Fin S1x4x512.rank, b.cast (rfl : S1x4x512.rank = S2x4x512.rank) ≠ 0 →
      ((ix3 (0 : Fin 1) k r : S1x4x512.Idx) b).val = ((ix3 s k r : S2x4x512.Idx) (b.cast rfl)).val := fun b hb => by
    match b with
    | ⟨0, _⟩ => exact absurd rfl hb
    | ⟨1, _⟩ => rfl
    | ⟨2, _⟩ => rfl
  by_cases hs : s = 0
  · subst hs
    rw [if_pos rfl]
    exact concatenate_apply_piece (t := S2x4x512) 0 [⟨S1x4x512, t0⟩, ⟨S1x4x512, t1⟩] h _ 0 (by show 0 < 2; omega)
      S1x4x512 t0 rfl rfl 0 rfl (ix3 (0 : Fin 1) k r) hi rfl
  · have h1 : s = 1 := Fin.ext (by have := s.isLt; have : s.val ≠ 0 := fun e => hs (Fin.ext e); omega)
    subst h1
    rw [if_neg hs]
    exact concatenate_apply_piece (t := S2x4x512) 0 [⟨S1x4x512, t0⟩, ⟨S1x4x512, t1⟩] h _ 1 (by show 1 < 2; omega)
      S1x4x512 t1 rfl rfl 1 rfl (ix3 (0 : Fin 1) k r) hi rfl

theorem statsF32_apply (Xb : Fin 4 → Fin 512 → Fin 256 → ℝ) (l0 l1 l2 l3 : Vec Ideal S1x512x256 .f32)
    (h0 : ∀ (r : Fin 512) (i : Fin 256), l0 (ix3 (0 : Fin 1) r i) = ((Xb 0 r i : ℝ) : EReal))
    (h1 : ∀ (r : Fin 512) (i : Fin 256), l1 (ix3 (0 : Fin 1) r i) = ((Xb 1 r i : ℝ) : EReal))
    (h2 : ∀ (r : Fin 512) (i : Fin 256), l2 (ix3 (0 : Fin 1) r i) = ((Xb 2 r i : ℝ) : EReal))
    (h3 : ∀ (r : Fin 512) (i : Fin 256), l3 (ix3 (0 : Fin 1) r i) = ((Xb 3 r i : ℝ) : EReal))
    (s : Fin 2) (k : Fin 4) (r : Fin 512) :
    statsF32 (F := Ideal) l0 l1 l2 l3 (ix3 s k r)
      = (((if s = 0 then ∑ i, Xb k r i else ∑ i, Xb k r i * Xb k r i) : ℝ) : EReal) := by
  unfold statsF32 k0_pay13 k0_pay5 k0_pay6 k0_pay8 k0_pay9 k0_pay11 k0_pay12 k0_pay4 k0_pay7 k0_pay10
  refine (stack2_apply _ _ _ s k r).trans ?_
  by_cases hs : s = 0
  · rw [if_pos hs, if_pos hs]
    refine (shapeCast_ab_1ab_apply _ _ (0 : Fin 1) k r).trans ?_
    refine stack4_apply _ _ _ _ _ k r (fun k => ((∑ i, Xb k r i : ℝ) : EReal)) ?_ ?_ ?_ ?_
    · exact (shapeCast_a_1a_apply _ _ (0 : Fin 1) r).trans
        (laneSum_apply _ (Xb 0) (group_apply l0 (Xb 0) h0 _) _ _ _ r)
    · exact (shapeCast_a_1a_apply _ _ (0 : Fin 1) r).trans
        (laneSum_apply _ (Xb 1) (group_apply l1 (Xb 1) h1 _) _ _ _ r)
    · exact (shapeCast_a_1a_apply _ _ (0 : Fin 1) r).trans
        (laneSum_apply _ (Xb 2) (group_apply l2 (Xb 2) h2 _) _ _ _ r)
    · exact (shapeCast_a_1a_apply _ _ (0 : Fin 1) r).trans
        (laneSum_apply _ (Xb 3) (group_apply l3 (Xb 3) h3 _) _ _ _ r)
  · rw [if_neg hs, if_neg hs]
    refine (shapeCast_ab_1ab_apply _ _ (0 : Fin 1) k r).trans ?_
    refine stack4_apply _ _ _ _ _ k r (fun k => ((∑ i, Xb k r i * Xb k r i : ℝ) : EReal)) ?_ ?_ ?_ ?_
    · exact (shapeCast_a_1a_apply _ _ (0 : Fin 1) r).trans
        (laneSum_apply _ (fun r i => Xb 0 r i * Xb 0 r i) (groupSq_apply l0 (Xb 0) h0 _) _ _ _ r)
    · exact (shapeCast_a_1a_apply _ _ (0 : Fin 1) r).trans
        (laneSum_apply _ (fun r i => Xb 1 r i * Xb 1 r i) (groupSq_apply l1 (Xb 1) h1 _) _ _ _ r)
    · exact (shapeCast_a_1a_apply _ _ (0 : Fin 1) r).trans
        (laneSum_apply _ (fun r i => Xb 2 r i * Xb 2 r i) (groupSq_apply l2 (Xb 2) h2 _) _ _ _ r)
    · exact (shapeCast_a_1a_apply _ _ (0 : Fin 1) r).trans
        (laneSum_apply _ (fun r i => Xb 3 r i * Xb 3 r i) (groupSq_apply l3 (Xb 3) h3 _) _ _ _ r)

theorem statsSent_apply (Xb : Fin 4 → Fin 512 → Fin 256 → ℝ) (l0 l1 l2 l3 : Vec Ideal S1x512x256 .f32)
    (h0 : ∀ (r : Fin 512) (i : Fin 256), l0 (ValueIdx.ix3 (0 : Fin 1) r i) = ((Xb 0 r i : ℝ) : EReal))
    (h1 : ∀ (r : Fin 512) (i : Fin 256), l1 (ValueIdx.ix3 (0 : Fin 1) r i) = ((Xb 1 r i : ℝ) : EReal))
    (h2 : ∀ (r : Fin 512) (i : Fin 256), l2 (ValueIdx.ix3 (0 : Fin 1) r i) = ((Xb 2 r i : ℝ) : EReal))
    (h3 : ∀ (r : Fin 512) (i : Fin 256), l3 (ValueIdx.ix3 (0 : Fin 1) r i) = ((Xb 3 r i : ℝ) : EReal))
    (s : Fin 2) (k : Fin 4) (r : Fin 512) :
    statsSent (F := Ideal) l0 l1 l2 l3 (ValueIdx.ix3 s k r)
      = (((if s = 0 then ∑ i, Xb k r i else ∑ i, Xb k r i * Xb k r i) : ℝ) : EReal) := by
  have e : statsSent (F := Ideal) l0 l1 l2 l3 (ix3 s k r) = statsF32 (F := Ideal) l0 l1 l2 l3 (ix3 s k r) := by
    unfold statsSent statsF32 k0_pay14
    rw [shapeCast_self]
    rfl
  exact e.trans (statsF32_apply Xb l0 l1 l2 l3 h0 h1 h2 h3 s k r)

theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

theorem shapeCast_ac_a1c_apply {α : Type} {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_three, Shape.rowMajor_val_two]
    show p.val * c + e.val = (p.val * 1 + u.val) * c + e.val
    rw [hu, Nat.mul_one, Nat.add_zero])

theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

theorem layer_apply {α : Type} (o : Nat) (v : S2x4x512.Idx → α) (hs : S2x4x512.Slices ![o, 0, 0] S1x4x512)
    (hc : S1x4x512.ShapeCasts S4x512) (s : Fin 2) (hso : s.val = o) (k : Fin 4) (r : Fin 512) :
    shapeCast S4x512 (extractStridedSlice S1x4x512 ![o, 0, 0] v hs) hc (ix2 k r) = v (ix3 s k r) :=
  (shapeCast_1ab_ab_apply _ hc k r).trans
    (slice3_axis0_apply o v hs (0 : Fin 1) k r s (by rw [hso]; rfl))

theorem lift_slot (h : S32x2x4x512.Reduces [0] S2x4x512) (s : Fin 2) (k : Fin 4) (r : Fin 512) (d : Fin 32) :
    h.lift (ix3 s k r) d = ix4 d s k r := by
  funext a
  match a with
  | ⟨0, _⟩ => rfl
  | ⟨1, _⟩ => rfl
  | ⟨2, _⟩ => rfl
  | ⟨3, _⟩ => rfl

-- The masked sum over the 32 slots leaves out the device's own slot.
theorem slotSum_apply (c : Fin 32) (gath : Vec Ideal S32x2x4x512 .bf16) (g : Fin 32 → Fin 2 → Fin 4 → Fin 512 → ℝ)
    (hg : ∀ d : Fin 32, d ≠ c → ∀ (s : Fin 2) (k : Fin 4) (r : Fin 512),
      gath (ix4 d s k r) = ((g d s k r : ℝ) : EReal))
    (hI : S32x1x1x1.Iotas .tc 32 [0]) (hc : S32x1x1x1.ShapeCasts S32x1x1x1)
    (hb : S32x1x1x1.Broadcasts S32x2x4x512) (hlt : FTy.bits .bf16 < FTy.bits .f32)
    (hR : S32x2x4x512.Reduces [0] S2x4x512) (hφ : FKind.Formats .f32)
    (hacc : (0x00000000#32 : BitVec 32) = FKind.add.neutral .f32 hφ) (s : Fin 2) (k : Fin 4) (r : Fin 512) :
    multiReduction .add [0] S2x4x512
        (select
          (broadcastTo S32x2x4x512
            (shapeCast S32x1x1x1
              (cmpi .ne (iota .tc S32x1x1x1 32 [0] hI) (broadcast S32x1x1x1 (BitVec.ofNat 32 c.val))) hc) hb)
          (extf .f32 gath hlt : FVec Ideal S32x2x4x512 .f32)
          (broadcast S32x2x4x512 (Scalar.ofBits (F := Ideal) .f32 0x00000000#32)))
        0x00000000#32 hR hφ hacc (ix3 s k r)
      = ((∑ d ∈ Finset.univ.erase c, g d s k r : ℝ) : EReal) := by
  refine (Ideal.multiReduction_add_single _ 0x00000000#32 hR hφ hacc (ix3 s k r)).trans ?_
  rw [Cert.Spec.coe_sum]
  show ∑ d : Fin 32, _ = _
  have hterm : ∀ d : Fin 32,
      (select
          (broadcastTo S32x2x4x512
            (shapeCast S32x1x1x1
              (cmpi .ne (iota .tc S32x1x1x1 32 [0] hI) (broadcast S32x1x1x1 (BitVec.ofNat 32 c.val))) hc) hb)
          (extf .f32 gath hlt : FVec Ideal S32x2x4x512 .f32)
          (broadcast S32x2x4x512 (Scalar.ofBits (F := Ideal) .f32 0x00000000#32))) (hR.lift (ix3 s k r) d)
        = if d = c then (0 : EReal) else ((g d s k r : ℝ) : EReal) := by
    intro d
    rw [lift_slot hR s k r d, select_apply, mask_apply, ne_bit]
    by_cases hd : d = c
    · rw [if_pos hd, if_pos hd, select_zero]
      exact Ideal.ofBits_zero_f32
    · rw [if_neg hd, if_neg hd, select_one]
      exact hg d hd s k r
  rw [Finset.sum_congr rfl fun d _ => hterm d]
  rw [← Finset.sum_erase (Finset.univ) (f := fun d => if d = c then (0 : EReal) else ((g d s k r : ℝ) : EReal))
    (a := c) (if_pos rfl)]
  refine Finset.sum_congr rfl fun d hd => ?_
  rw [if_neg (Finset.ne_of_mem_erase hd)]

theorem addf_real {s : Shape} (a b : FVec Ideal s .f32) (j : s.Idx) (u v : ℝ)
    (ha : a j = ((u : ℝ) : EReal)) (hb : b j = ((v : ℝ) : EReal)) : addf a b j = ((u + v : ℝ) : EReal) := by
  rw [addf_apply, ha, hb, EReal.coe_add]

theorem mean_apply (o : Nat) (tot : FVec Ideal S2x4x512 .f32) (hs : S2x4x512.Slices ![o, 0, 0] S1x4x512)
    (hc : S1x4x512.ShapeCasts S4x512) (s : Fin 2) (hso : s.val = o) (k : Fin 4) (r : Fin 512) (a : ℝ)
    (ha : tot (ix3 s k r) = ((a : ℝ) : EReal)) :
    (divf (shapeCast S4x512 (extractStridedSlice S1x4x512 ![o, 0, 0] tot hs) hc)
        (broadcast S4x512 (Scalar.ofBits (F := Ideal) .f32 0x46000000#32)) : FVec Ideal S4x512 .f32) (ix2 k r)
      = ((a / 8192 : ℝ) : EReal) := by
  rw [divf_apply, layer_apply o tot hs hc s hso k r, ha, broadcast_apply]
  show Ideal.div ((a : ℝ) : EReal) (Ideal.ofBits .f32 0x46000000#32) = _
  rw [Cert.Spec.ofBits_8192]
  exact Cert.Spec.div_real a 8192 (by norm_num)

theorem rstd_apply (e2 m : FVec Ideal S4x512 .f32) (k : Fin 4) (r : Fin 512) (u v : ℝ)
    (he2 : e2 (ix2 k r) = ((u : ℝ) : EReal)) (hm : m (ix2 k r) = ((v : ℝ) : EReal))
    (hpos : 0 < u - v * v + Cert.Spec.eps) :
    (rsqrt (addf (subf e2 (mulf m m)) (broadcast S4x512 (Scalar.ofBits (F := Ideal) .f32 0x3727C5AC#32)))
        : FVec Ideal S4x512 .f32) (ix2 k r)
      = (((Real.sqrt (u - v * v + Cert.Spec.eps))⁻¹ : ℝ) : EReal) := by
  show Ideal.rsqrt (e2 (ix2 k r) - m (ix2 k r) * m (ix2 k r) + Ideal.ofBits .f32 0x3727C5AC#32) = _
  rw [he2, hm, Cert.Spec.ofBits_eps, ← EReal.coe_mul, ← EReal.coe_sub, ← EReal.coe_add]
  exact Cert.Spec.rsqrt_real _ hpos

theorem centre_scale_apply (xv : FVec Ideal S4x512x256 .f32) (m rs : FVec Ideal S4x512 .f32)
    (hcc : S4x512.ShapeCasts S4x512x1) (hbb : S4x512x1.Broadcasts S4x512x256)
    (k : Fin 4) (r : Fin 512) (i : Fin 256) :
    (mulf (subf xv (broadcastTo S4x512x256 (shapeCast S4x512x1 m hcc) hbb))
        (broadcastTo S4x512x256 (shapeCast S4x512x1 rs hcc) hbb) : FVec Ideal S4x512x256 .f32) (ix3 k r i)
      = (xv (ix3 k r i) - m (ix2 k r)) * rs (ix2 k r) := by
  rw [mulf_apply, subf_apply, broadcastTo_ab1_abc_apply, broadcastTo_ab1_abc_apply, shapeCast_ab_ab1_apply,
    shapeCast_ab_ab1_apply]

-- The device's own partial sums plus the 31 received ones are the whole row's sums; mean and variance follow.
theorem norm_apply (c : Fin 32) (X : Fin 4 → Fin 512 → Fin 8192 → ℝ)
    (st : FVec Ideal S2x4x512 .f32) (xv : Vec Ideal S4x512x256 .f32) (gath : Vec Ideal S32x2x4x512 .bf16)
    (hst : ∀ (s : Fin 2) (k : Fin 4) (r : Fin 512), st (ix3 s k r)
      = (((if s = 0 then Cert.Spec.blockS1 X c k r else Cert.Spec.blockS2 X c k r) : ℝ) : EReal))
    (hxv : ∀ (k : Fin 4) (r : Fin 512) (i : Fin 256), xv (ix3 k r i) = ((X k r (Cert.Spec.col c i) : ℝ) : EReal))
    (hg : ∀ d : Fin 32, d ≠ c → ∀ (s : Fin 2) (k : Fin 4) (r : Fin 512), gath (ix4 d s k r)
      = (((if s = 0 then Cert.Spec.blockS1 X d k r else Cert.Spec.blockS2 X d k r) : ℝ) : EReal))
    (k : Fin 4) (r : Fin 512) (i : Fin 256) :
    k0_pay15 (F := Ideal) (BitVec.ofNat 32 c.val) st xv gath (ix3 k r i)
      = (((X k r (Cert.Spec.col c i) - Cert.Spec.mean X k r)
          * (Real.sqrt (Cert.Spec.S2 X k r / 8192 - Cert.Spec.mean X k r * Cert.Spec.mean X k r + Cert.Spec.eps))⁻¹ : ℝ)
            : EReal) := by
  unfold k0_pay15
  refine (centre_scale_apply _ _ _ _ _ k r i).trans ?_
  have T0 := addf_real _ st (ix3 (0 : Fin 2) k r) _ _
    (slotSum_apply c gath (fun d s k r => if s = 0 then Cert.Spec.blockS1 X d k r else Cert.Spec.blockS2 X d k r) hg
      iota_S32x1x1x1_d0_w32 shapeCasts_S32x1x1x1_S32x1x1x1 broadcasts_S32x1x1x1_S32x2x4x512 bitsLt_bf16_f32
      reduces_S32x2x4x512_S2x4x512 (.inl rfl) rfl (0 : Fin 2) k r) (hst 0 k r)
  have T1 := addf_real _ st (ix3 (1 : Fin 2) k r) _ _
    (slotSum_apply c gath (fun d s k r => if s = 0 then Cert.Spec.blockS1 X d k r else Cert.Spec.blockS2 X d k r) hg
      iota_S32x1x1x1_d0_w32 shapeCasts_S32x1x1x1_S32x1x1x1 broadcasts_S32x1x1x1_S32x2x4x512 bitsLt_bf16_f32
      reduces_S32x2x4x512_S2x4x512 (.inl rfl) rfl (1 : Fin 2) k r) (hst 1 k r)
  simp only [if_pos, if_neg (show ¬(1 : Fin 2) = 0 by decide)] at T0 T1
  rw [← Cert.Spec.S1_split X c k r] at T0
  rw [← Cert.Spec.S2_split X c k r] at T1
  have M := mean_apply 0 _ slices_S2x4x512_o0_0_0_S1x4x512 shapeCasts_S1x4x512_S4x512 (0 : Fin 2) rfl k r _ T0
  have E2 := mean_apply 1 _ slices_S2x4x512_o1_0_0_S1x4x512 shapeCasts_S1x4x512_S4x512 (1 : Fin 2) rfl k r _ T1
  have R := rstd_apply _ _ k r _ _ E2 M (Cert.Spec.kernel_var_add_pos Cert.Spec.eps Cert.Spec.eps_pos X k r)
  rw [EReal.coe_mul, EReal.coe_sub]
  exact congrArg₂ (· * ·) (congrArg₂ (· - ·) (hxv k r i) M) R

theorem isPlain_dot : PlainDot.IsPlain (M := 4) (K := 128) (N := 256) dot_S4x128_S128x256_S4x256_1_0_0_1_n_n :=
  ⟨rfl, rfl, rfl, rfl, rfl, rfl⟩

theorem prod_apply (c : Fin 32) (T : Fin 4 → Fin 128 → ℝ) (W : Fin 128 → Fin 8192 → ℝ)
    (t : Vec Ideal S4x128 .f32) (w : Vec Ideal S128x256 .f32)
    (ht : ∀ (k : Fin 4) (q : Fin 128), t (ix2 k q) = ((T k q : ℝ) : EReal))
    (hw : ∀ (q : Fin 128) (i : Fin 256), w (ix2 q i) = ((W q (Cert.Spec.col c i) : ℝ) : EReal))
    (h1 : S4x128.ShapeCasts S4x128) (h2 : S128x256.ShapeCasts S128x256) (k : Fin 4) (i : Fin 256) :
    (matmul dot_S4x128_S128x256_S4x256_1_0_0_1_n_n none (shapeCast S4x128 t h1 : FVec Ideal S4x128 .f32)
        (shapeCast S128x256 w h2 : FVec Ideal S128x256 .f32) (constant S4x256 .f32 0x00000000#32)
          : FVec Ideal S4x256 .f32) (ix2 k i)
      = ((Cert.Spec.dot T W k (Cert.Spec.col c i) : ℝ) : EReal) := by
  refine (PlainDot.matmul_zero_apply _ isPlain_dot none _ _ k i).trans ?_
  unfold Cert.Spec.dot
  rw [Cert.Spec.coe_sum]
  refine Finset.sum_congr rfl fun q _ => ?_
  rw [shapeCast_self, shapeCast_self, ht, hw, EReal.coe_mul]

theorem scaleProd_apply (c : Fin 32) (T : Fin 4 → Fin 128 → ℝ) (W : Fin 128 → Fin 8192 → ℝ)
    (t : Vec Ideal S4x128 .f32) (w : Vec Ideal S128x256 .f32)
    (ht : ∀ (k : Fin 4) (q : Fin 128), t (ix2 k q) = ((T k q : ℝ) : EReal))
    (hw : ∀ (q : Fin 128) (i : Fin 256), w (ix2 q i) = ((W q (Cert.Spec.col c i) : ℝ) : EReal))
    (k : Fin 4) (i : Fin 256) :
    k0_pay2 (F := Ideal) t w (ix2 k i) = ((Cert.Spec.dot T W k (Cert.Spec.col c i) : ℝ) : EReal) := by
  unfold k0_pay2
  exact prod_apply c T W t w ht hw _ _ k i

theorem shiftProd_apply (c : Fin 32) (T : Fin 4 → Fin 128 → ℝ) (W : Fin 128 → Fin 8192 → ℝ)
    (t : Vec Ideal S4x128 .f32) (w : Vec Ideal S128x256 .f32)
    (ht : ∀ (k : Fin 4) (q : Fin 128), t (ix2 k q) = ((T k q : ℝ) : EReal))
    (hw : ∀ (q : Fin 128) (i : Fin 256), w (ix2 q i) = ((W q (Cert.Spec.col c i) : ℝ) : EReal))
    (k : Fin 4) (i : Fin 256) :
    k0_pay3 (F := Ideal) t w (ix2 k i) = ((Cert.Spec.dot T W k (Cert.Spec.col c i) : ℝ) : EReal) := by
  unfold k0_pay3
  exact prod_apply c T W t w ht hw _ _ k i

theorem scale_apply (mm : FVec Ideal S4x256 .f32) (k : Fin 4) (r : Fin 512) (i : Fin 256) (u : ℝ)
    (hu : mm (ix2 k i) = ((u : ℝ) : EReal)) :
    k0_pay16 (F := Ideal) mm (ix3 k r i) = ((1 + u : ℝ) : EReal) := by
  unfold k0_pay16
  refine (broadcastTo_a1c_abc_apply _ _ k r i).trans ?_
  rw [addf_apply, broadcast_apply, shapeCast_ac_a1c_apply, hu]
  show Ideal.ofBits .f32 0x3F800000#32 + ((u : ℝ) : EReal) = _
  rw [Cert.Spec.ofBits_one, ← EReal.coe_add]

theorem affine_apply (sh : FVec Ideal S4x256 .f32) (nrm sc : FVec Ideal S4x512x256 .f32)
    (k : Fin 4) (r : Fin 512) (i : Fin 256) (a b d : ℝ)
    (hn : nrm (ix3 k r i) = ((a : ℝ) : EReal)) (hsc : sc (ix3 k r i) = ((b : ℝ) : EReal))
    (hsh : sh (ix2 k i) = ((d : ℝ) : EReal)) :
    k0_pay1 (F := Ideal) sh nrm sc (ix3 k r i) = ((a * b + d : ℝ) : EReal) := by
  unfold k0_pay1
  refine addf_real _ _ _ (a * b) d ?_ ?_
  · rw [mulf_apply, hn, hsc, EReal.coe_mul]
  · exact (broadcastTo_a1c_abc_apply _ _ k r i).trans ((shapeCast_ac_a1c_apply _ _ k (0 : Fin 1) i).trans hsh)

theorem outBlock_apply (c : Fin 32) (X : Fin 4 → Fin 512 → Fin 8192 → ℝ) (T : Fin 4 → Fin 128 → ℝ)
    (WS WSH : Fin 128 → Fin 8192 → ℝ)
    (l0 l1 l2 l3 : Vec Ideal S1x512x256 .f32) (xv : Vec Ideal S4x512x256 .f32) (t : Vec Ideal S4x128 .f32)
    (ws wsh : Vec Ideal S128x256 .f32) (gath : Vec Ideal S32x2x4x512 .bf16)
    (h0 : ∀ (r : Fin 512) (i : Fin 256), l0 (ValueIdx.ix3 (0 : Fin 1) r i) = ((X 0 r (Cert.Spec.col c i) : ℝ) : EReal))
    (h1 : ∀ (r : Fin 512) (i : Fin 256), l1 (ValueIdx.ix3 (0 : Fin 1) r i) = ((X 1 r (Cert.Spec.col c i) : ℝ) : EReal))
    (h2 : ∀ (r : Fin 512) (i : Fin 256), l2 (ValueIdx.ix3 (0 : Fin 1) r i) = ((X 2 r (Cert.Spec.col c i) : ℝ) : EReal))
    (h3 : ∀ (r : Fin 512) (i : Fin 256), l3 (ValueIdx.ix3 (0 : Fin 1) r i) = ((X 3 r (Cert.Spec.col c i) : ℝ) : EReal))
    (hxv : ∀ (k : Fin 4) (r : Fin 512) (i : Fin 256),
      xv (ValueIdx.ix3 k r i) = ((X k r (Cert.Spec.col c i) : ℝ) : EReal))
    (ht : ∀ (k : Fin 4) (q : Fin 128), t (ValueIdx.ix2 k q) = ((T k q : ℝ) : EReal))
    (hws : ∀ (q : Fin 128) (i : Fin 256), ws (ValueIdx.ix2 q i) = ((WS q (Cert.Spec.col c i) : ℝ) : EReal))
    (hwsh : ∀ (q : Fin 128) (i : Fin 256), wsh (ValueIdx.ix2 q i) = ((WSH q (Cert.Spec.col c i) : ℝ) : EReal))
    (hg : ∀ d : Fin 32, d ≠ c → ∀ (s : Fin 2) (k : Fin 4) (r : Fin 512), gath (ValueIdx.ix4 d s k r)
      = (((if s = 0 then Cert.Spec.blockS1 X d k r else Cert.Spec.blockS2 X d k r) : ℝ) : EReal))
    (k : Fin 4) (r : Fin 512) (i : Fin 256) :
    outBlock (F := Ideal) (BitVec.ofNat 32 c.val) l0 l1 l2 l3 xv t ws wsh gath (ValueIdx.ix3 k r i)
      = ((Cert.Spec.out Cert.Spec.eps X T WS WSH k r (Cert.Spec.col c i) : ℝ) : EReal) := by
  unfold outBlock
  have N := norm_apply c X (statsF32 (F := Ideal) l0 l1 l2 l3) xv gath
    (fun s k r => statsF32_apply (fun k r i => X k r (Cert.Spec.col c i)) l0 l1 l2 l3 h0 h1 h2 h3 s k r) hxv hg k r i
  have Sc := scale_apply (k0_pay2 (F := Ideal) t ws) k r i _ (scaleProd_apply c T WS t ws ht hws k i)
  have Sh := shiftProd_apply c T WSH t wsh ht hwsh k i
  refine (affine_apply _ _ _ k r i _ _ _ N Sc Sh).trans ?_
  rw [Cert.Spec.out_eq_kernel_form Cert.Spec.eps Cert.Spec.eps_pos]

end Cert.KernelIdeal.KVal

end
-- ==== Proof.RefRun.lean ====
import proofs.«900771_g7700000000000772_dist_diff_adaln_cshard_i_b4_s512_c256_v7x_i32_f32_1_alg».proof.Defs
import proofs.«900771_g7700000000000772_dist_diff_adaln_cshard_i_b4_s512_c256_v7x_i32_f32_1_alg».proof.Proof.Gen.ReferenceIdeal
import proofs.«900771_g7700000000000772_dist_diff_adaln_cshard_i_b4_s512_c256_v7x_i32_f32_1_alg».proof.Proof.Gen.Pre_finite_inputs_ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

noncomputable def refOut (x : (⟨S4x512x8192, .f32⟩ : BufTy).Contents (Elt F)) (t : (⟨S4x128, .f32⟩ : BufTy).Contents (Elt F))
    (ws wsh : (⟨S128x8192, .f32⟩ : BufTy).Contents (Elt F)) : (⟨S4x512x8192, .f32⟩ : BufTy).Contents (Elt F) :=
  addf
    (mulf
      (Host.divf
        (subf x
          (broadcastInDim S4x512x8192 ![0, 1, 2] bcast_S4x512x1_S4x512x8192_0_1_2
            (Host.divf
              (broadcastInDim S4x512x1 ![0, 1] bcast_S4x512_S4x512x1_0_1
                (Host.reduceAdd x (constant S_ .f32 0x00000000#32) reducesTo_S4x512x8192_S4x512_d2 h_S_))
              (broadcastInDim S4x512x1 ![] bcast_S_S4x512x1 (constant S_ .f32 0x46000000#32)))))
        (broadcastInDim S4x512x8192 ![0, 1, 2] bcast_S4x512x1_S4x512x8192_0_1_2
          (Host.sqrt
            (addf
              (select
                (broadcastInDim S4x512x1 ![] bcast_S_S4x512x1
                  (cmpf .ogt
                    (subf (constant (F := F) S_ .f32 0x46000000#32) (sitofp .f32 (constantI S_ 32 0#32)))
                    (constant (F := F) S_ .f32 0x00000000#32)))
                (Host.divf
                  (broadcastInDim S4x512x1 ![0, 1] bcast_S4x512_S4x512x1_0_1
                    (Host.reduceAdd
                      (mulf
                        (subf x
                          (broadcastInDim S4x512x8192 ![0, 1, 2] bcast_S4x512x1_S4x512x8192_0_1_2
                            (Host.divf
                              (broadcastInDim S4x512x1 ![0, 1] bcast_S4x512_S4x512x1_0_1
                                (Host.reduceAdd x (constant S_ .f32 0x00000000#32) reducesTo_S4x512x8192_S4x512_d2 h_S_))
                              (broadcastInDim S4x512x1 ![] bcast_S_S4x512x1 (constant S_ .f32 0x46000000#32)))))
                        (subf x
                          (broadcastInDim S4x512x8192 ![0, 1, 2] bcast_S4x512x1_S4x512x8192_0_1_2
                            (Host.divf
                              (broadcastInDim S4x512x1 ![0, 1] bcast_S4x512_S4x512x1_0_1
                                (Host.reduceAdd x (constant S_ .f32 0x00000000#32) reducesTo_S4x512x8192_S4x512_d2 h_S_))
                              (broadcastInDim S4x512x1 ![] bcast_S_S4x512x1 (constant S_ .f32 0x46000000#32))))))
                      (constant S_ .f32 0x00000000#32) reducesTo_S4x512x8192_S4x512_d2 h_S_))
                  (broadcastInDim S4x512x1 ![] bcast_S_S4x512x1
                    (subf (constant S_ .f32 0x46000000#32) (sitofp .f32 (constantI S_ 32 0#32)))))
                (broadcastInDim S4x512x1 ![] bcast_S_S4x512x1 (constant S_ .f32 0x7FC00000#32)))
              (broadcastInDim S4x512x1 ![] bcast_S_S4x512x1 (constant S_ .f32 0x3727C5AC#32))))))
      (broadcastInDim S4x512x8192 ![0, 1, 2] bcast_S4x1x8192_S4x512x8192_0_1_2
        (addf
          (broadcastInDim S4x1x8192 ![] bcast_S_S4x1x8192 (constant S_ .f32 0x3F800000#32))
          (broadcastInDim S4x1x8192 ![0, 2] bcast_S4x8192_S4x1x8192_0_2
            (Host.dotGeneral dot_S4x128_S128x8192_S4x8192_1_0_0_1_n_n none t ws)))))
    (broadcastInDim S4x512x8192 ![0, 1, 2] bcast_S4x1x8192_S4x512x8192_0_1_2
      (broadcastInDim S4x1x8192 ![0, 2] bcast_S4x8192_S4x1x8192_0_2
        (Host.dotGeneral dot_S4x128_S128x8192_S4x8192_1_0_0_1_n_n none t wsh)))

abbrev ops : List (HloOp τ sig (Elt F)) :=
  [ nullary main_cst (constant S_ .f32 0x00000000#32),
    binary main_arg0 main_cst main_v0 ((fun x v => Host.reduceAdd x v reducesTo_S4x512x8192_S4x512_d2 h_S_) : (⟨S4x512x8192, .f32⟩ : BufTy).Contents (Elt F) → (⟨S_, .f32⟩ : BufTy).Contents (Elt F) → (⟨S4x512, .f32⟩ : BufTy).Contents (Elt F)),
    unary main_v0 main_v1 (broadcastInDim S4x512x1 ![0, 1] bcast_S4x512_S4x512x1_0_1 : (⟨S4x512, .f32⟩ : BufTy).Contents (Elt F) → (⟨S4x512x1, .f32⟩ : BufTy).Contents (Elt F)),
    nullary main_cst_0 (constant S_ .f32 0x46000000#32),
    unary main_cst_0 main_v2 (broadcastInDim S4x512x1 ![] bcast_S_S4x512x1 : (⟨S_, .f32⟩ : BufTy).Contents (Elt F) → (⟨S4x512x1, .f32⟩ : BufTy).Contents (Elt F)),
    binary main_v1 main_v2 main_v3 (Host.divf : (⟨S4x512x1, .f32⟩ : BufTy).Contents (Elt F) → (⟨S4x512x1, .f32⟩ : BufTy).Contents (Elt F) → (⟨S4x512x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S4x512x8192_S4x512_d2 h_S_),
    TRef.unary main_call0.v0 main_call0.v1 (broadcastInDim S4x512x1 ![0, 1] bcast_S4x512_S4x512x1_0_1),
    TRef.nullary main_call0.cst_0 (constant S_ .f32 0x46000000#32),
    TRef.unary main_call0.cst_0 main_call0.v2 (broadcastInDim S4x512x1 ![] bcast_S_S4x512x1),
    TRef.binary main_call0.v1 main_call0.v2 main_call0.v3 Host.divf,
    TRef.unary main_call0.v3 main_call0.v4 (broadcastInDim S4x512x8192 ![0, 1, 2] bcast_S4x512x1_S4x512x8192_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x512x8192_S4x512_d2 h_S_),
    TRef.unary main_call0.v9 main_call0.v10 (broadcastInDim S4x512x1 ![0, 1] bcast_S4x512_S4x512x1_0_1),
    TRef.unary main_call0.v8 main_call0.v11 (broadcastInDim S4x512x1 ![] bcast_S_S4x512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x512x1 ![] bcast_S_S4x512x1),
    TRef.ternary main_call0.v13 main_call0.v12 main_call0.call0.v1 main_call0.call0.v2 (fun p a b => select (broadcastInDim S4x512x1 ![] bcast_S_S4x512x1 p) a b),
    unary main_v3 main_v5 (broadcastInDim S4x512x8192 ![0, 1, 2] bcast_S4x512x1_S4x512x8192_0_1_2 : (⟨S4x512x1, .f32⟩ : BufTy).Contents (Elt F) → (⟨S4x512x8192, .f32⟩ : BufTy).Contents (Elt F)),
    binary main_arg0 main_v5 main_v6 (subf : (⟨S4x512x8192, .f32⟩ : BufTy).Contents (Elt F) → (⟨S4x512x8192, .f32⟩ : BufTy).Contents (Elt F) → (⟨S4x512x8192, .f32⟩ : BufTy).Contents (Elt F)),
    nullary main_cst_1 (constant S_ .f32 0x3727C5AC#32),
    unary main_cst_1 main_v7 (broadcastInDim S4x512x1 ![] bcast_S_S4x512x1 : (⟨S_, .f32⟩ : BufTy).Contents (Elt F) → (⟨S4x512x1, .f32⟩ : BufTy).Contents (Elt F)),
    binary main_v4 main_v7 main_v8 (addf : (⟨S4x512x1, .f32⟩ : BufTy).Contents (Elt F) → (⟨S4x512x1, .f32⟩ : BufTy).Contents (Elt F) → (⟨S4x512x1, .f32⟩ : BufTy).Contents (Elt F)),
    unary main_v8 main_v9 (Host.sqrt : (⟨S4x512x1, .f32⟩ : BufTy).Contents (Elt F) → (⟨S4x512x1, .f32⟩ : BufTy).Contents (Elt F)),
    unary main_v9 main_v10 (broadcastInDim S4x512x8192 ![0, 1, 2] bcast_S4x512x1_S4x512x8192_0_1_2 : (⟨S4x512x1, .f32⟩ : BufTy).Contents (Elt F) → (⟨S4x512x8192, .f32⟩ : BufTy).Contents (Elt F)),
    binary main_v6 main_v10 main_v11 (Host.divf : (⟨S4x512x8192, .f32⟩ : BufTy).Contents (Elt F) → (⟨S4x512x8192, .f32⟩ : BufTy).Contents (Elt F) → (⟨S4x512x8192, .f32⟩ : BufTy).Contents (Elt F)),
    binary main_arg1 main_arg2 main_v12 ((fun l r => Host.dotGeneral dot_S4x128_S128x8192_S4x8192_1_0_0_1_n_n none l r) : (⟨S4x128, .f32⟩ : BufTy).Contents (Elt F) → (⟨S128x8192, .f32⟩ : BufTy).Contents (Elt F) → (⟨S4x8192, .f32⟩ : BufTy).Contents (Elt F)),
    binary main_arg1 main_arg3 main_v13 ((fun l r => Host.dotGeneral dot_S4x128_S128x8192_S4x8192_1_0_0_1_n_n none l r) : (⟨S4x128, .f32⟩ : BufTy).Contents (Elt F) → (⟨S128x8192, .f32⟩ : BufTy).Contents (Elt F) → (⟨S4x8192, .f32⟩ : BufTy).Contents (Elt F)),
    unary main_v12 main_v14 (broadcastInDim S4x1x8192 ![0, 2] bcast_S4x8192_S4x1x8192_0_2 : (⟨S4x8192, .f32⟩ : BufTy).Contents (Elt F) → (⟨S4x1x8192, .f32⟩ : BufTy).Contents (Elt F)),
    nullary main_cst_2 (constant S_ .f32 0x3F800000#32),
    unary main_cst_2 main_v15 (broadcastInDim S4x1x8192 ![] bcast_S_S4x1x8192 : (⟨S_, .f32⟩ : BufTy).Contents (Elt F) → (⟨S4x1x8192, .f32⟩ : BufTy).Contents (Elt F)),
    binary main_v15 main_v14 main_v16 (addf : (⟨S4x1x8192, .f32⟩ : BufTy).Contents (Elt F) → (⟨S4x1x8192, .f32⟩ : BufTy).Contents (Elt F) → (⟨S4x1x8192, .f32⟩ : BufTy).Contents (Elt F)),
    unary main_v16 main_v17 (broadcastInDim S4x512x8192 ![0, 1, 2] bcast_S4x1x8192_S4x512x8192_0_1_2 : (⟨S4x1x8192, .f32⟩ : BufTy).Contents (Elt F) → (⟨S4x512x8192, .f32⟩ : BufTy).Contents (Elt F)),
    binary main_v11 main_v17 main_v18 (mulf : (⟨S4x512x8192, .f32⟩ : BufTy).Contents (Elt F) → (⟨S4x512x8192, .f32⟩ : BufTy).Contents (Elt F) → (⟨S4x512x8192, .f32⟩ : BufTy).Contents (Elt F)),
    unary main_v13 main_v19 (broadcastInDim S4x1x8192 ![0, 2] bcast_S4x8192_S4x1x8192_0_2 : (⟨S4x8192, .f32⟩ : BufTy).Contents (Elt F) → (⟨S4x1x8192, .f32⟩ : BufTy).Contents (Elt F)),
    unary main_v19 main_v20 (broadcastInDim S4x512x8192 ![0, 1, 2] bcast_S4x1x8192_S4x512x8192_0_1_2 : (⟨S4x1x8192, .f32⟩ : BufTy).Contents (Elt F) → (⟨S4x512x8192, .f32⟩ : BufTy).Contents (Elt F)),
    binary main_v18 main_v20 main_v21 (addf : (⟨S4x512x8192, .f32⟩ : BufTy).Contents (Elt F) → (⟨S4x512x8192, .f32⟩ : BufTy).Contents (Elt F) → (⟨S4x512x8192, .f32⟩ : BufTy).Contents (Elt F)) ]

set_option maxRecDepth 1024 in

theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub .., unary_bufs_sub .., nullary_bufs_sub ..,
    unary_bufs_sub .., binary_bufs_sub .., unary_bufs_sub .., binary_bufs_sub .., unary_bufs_sub .., unary_bufs_sub ..,
    binary_bufs_sub ..⟩

theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 400000 in

theorem out_eq (V : Valuation τ sig (Elt F)) :
    after ops V (main_v21 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

-- The reference is a straight line of host operations; its result is their composed term.
theorem run (m : (ℓ : Loc nD τ sig) → Buf (Elt F) ℓ) (ρ : Dev nD → PrngReg) :
    θ_run (defs (F := F)) (onTc (τ := τ) (main (F := F))) ⟨m, fun _ => 0, ρ⟩ (fun r =>
      r.2.mem (((0 : Dev nD).tc : Thread nD τ).loc main_v21) = refOut (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)) :=
  (θ_run defs _ _).mono (fun _ h => ⟨(h 0 main_v21).trans (out_eq _), (h 0 main_arg0).trans (arg0_eq _),
      (h 0 main_arg1).trans (arg1_eq _), (h 0 main_arg2).trans (arg2_eq _), (h 0 main_arg3).trans (arg3_eq _)⟩)
    (run_main m ρ)

theorem frame : Cert.frame_ReferenceIdeal := fun m g _ =>
  (θ_run defs _ _).mono (fun _ h c => by
      have hc : c = 0 := Subsingleton.elim _ _
      subst hc
      exact h.2)
    (run (F := Ideal) m g)

end Cert.ReferenceIdeal.RefRun

end
-- ==== Proof.RefValue.lean ====
import proofs.«900771_g7700000000000772_dist_diff_adaln_cshard_i_b4_s512_c256_v7x_i32_f32_1_alg».proof.Defs
import proofs.«900771_g7700000000000772_dist_diff_adaln_cshard_i_b4_s512_c256_v7x_i32_f32_1_alg».proof.Proof.Gen.ReferenceIdeal
import proofs.«900771_g7700000000000772_dist_diff_adaln_cshard_i_b4_s512_c256_v7x_i32_f32_1_alg».proof.Proof.RefRun
import proofs.«900771_g7700000000000772_dist_diff_adaln_cshard_i_b4_s512_c256_v7x_i32_f32_1_alg».proof.Proof.Spec
import proofs.«900771_g7700000000000772_dist_diff_adaln_cshard_i_b4_s512_c256_v7x_i32_f32_1_alg».proof.Proof.LibPlainDot
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.Value

noncomputable section

namespace Cert.ReferenceIdeal.RefValue

open Cert.ReferenceIdeal Idealize.ShloMosaic Idealize.ShloMosaic.ValueIdx
open scoped BigOperators

theorem bc_col {α : Type} (h : S4x512.BroadcastsInDim S4x512x1 (![0, 1] : Fin 2 → Fin S4x512x1.rank))
    (s : S4x512.Idx → α) (k : Fin 4) (r : Fin 512) (z : Fin 1) :
    broadcastInDim S4x512x1 ![0, 1] h s (ix3 k r z) = s (ix2 k r) := by
  refine broadcastInDim_apply ![0, 1] h s (ix3 k r z) (ix2 k r) ?_
  intro a
  match a with
  | ⟨0, _⟩ => rfl
  | ⟨1, _⟩ => rfl

theorem bc_row {α : Type} (h : S4x512x1.BroadcastsInDim S4x512x8192 (![0, 1, 2] : Fin 3 → Fin S4x512x8192.rank))
    (v : S4x512x1.Idx → α) (k : Fin 4) (r : Fin 512) (j : Fin 8192) :
    broadcastInDim S4x512x8192 ![0, 1, 2] h v (ix3 k r j) = v (ix3 k r (0 : Fin 1)) := by
  refine broadcastInDim_apply ![0, 1, 2] h v (ix3 k r j) (ix3 k r (0 : Fin 1)) ?_
  intro a
  match a with
  | ⟨0, _⟩ => rfl
  | ⟨1, _⟩ => rfl
  | ⟨2, _⟩ => rfl

theorem bc_mid {α : Type} (h : S4x8192.BroadcastsInDim S4x1x8192 (![0, 2] : Fin 2 → Fin S4x1x8192.rank))
    (s : S4x8192.Idx → α) (k : Fin 4) (z : Fin 1) (j : Fin 8192) :
    broadcastInDim S4x1x8192 ![0, 2] h s (ix3 k z j) = s (ix2 k j) := by
  refine broadcastInDim_apply ![0, 2] h s (ix3 k z j) (ix2 k j) ?_
  intro a
  match a with
  | ⟨0, _⟩ => rfl
  | ⟨1, _⟩ => rfl

theorem bc_rows {α : Type} (h : S4x1x8192.BroadcastsInDim S4x512x8192 (![0, 1, 2] : Fin 3 → Fin S4x512x8192.rank))
    (v : S4x1x8192.Idx → α) (k : Fin 4) (r : Fin 512) (j : Fin 8192) :
    broadcastInDim S4x512x8192 ![0, 1, 2] h v (ix3 k r j) = v (ix3 k (0 : Fin 1) j) := by
  refine broadcastInDim_apply ![0, 1, 2] h v (ix3 k r j) (ix3 k (0 : Fin 1) j) ?_
  intro a
  match a with
  | ⟨0, _⟩ => rfl
  | ⟨1, _⟩ => rfl
  | ⟨2, _⟩ => rfl

theorem rowSum_apply (h' : S4x512x8192.ReducesTo [2] S4x512) (hu : 0 < S_.numel)
    (y : FVec Ideal S4x512x8192 .f32) (Y : Fin 4 → Fin 512 → Fin 8192 → ℝ)
    (hy : ∀ (k : Fin 4) (r : Fin 512) (j : Fin 8192), y (ix3 k r j) = ((Y k r j : ℝ) : EReal))
    (k : Fin 4) (r : Fin 512) :
    Host.reduceAdd (F := Ideal) y (constant (F := Ideal) S_ .f32 0x00000000#32) h' hu (ix2 k r)
      = ((∑ j : Fin 8192, Y k r j : ℝ) : EReal) := by
  have h : S4x512x8192.Reduces [2] S4x512 := by decide
  rw [hostReduceAdd_apply, Ideal.hostReduceAdd_single h' h, constant_apply, Ideal.ofBits_zero_f32, zero_add,
    Cert.Spec.coe_sum]
  show (∑ j : Fin 8192, y (h.lift (ix2 k r) j)) = ∑ j : Fin 8192, ((Y k r j : ℝ) : EReal)
  refine Finset.sum_congr rfl fun j _ => ?_
  have e : h.lift (ix2 k r) j = ix3 k r j := by
    funext a
    match a with
    | ⟨0, _⟩ => rfl
    | ⟨1, _⟩ => rfl
    | ⟨2, _⟩ => rfl
  rw [e, hy]

theorem mean_apply (hc : S4x512.BroadcastsInDim S4x512x1 (![0, 1] : Fin 2 → Fin S4x512x1.rank))
    (hs : S_.BroadcastsInDim S4x512x1 (![] : Fin 0 → Fin S4x512x1.rank))
    (h' : S4x512x8192.ReducesTo [2] S4x512) (hu : 0 < S_.numel)
    (x : FVec Ideal S4x512x8192 .f32) (X : Fin 4 → Fin 512 → Fin 8192 → ℝ)
    (hx : ∀ (k : Fin 4) (r : Fin 512) (j : Fin 8192), x (ix3 k r j) = ((X k r j : ℝ) : EReal))
    (k : Fin 4) (r : Fin 512) (z : Fin 1) :
    Host.divf (F := Ideal)
        (broadcastInDim S4x512x1 ![0, 1] hc (Host.reduceAdd (F := Ideal) x (constant (F := Ideal) S_ .f32 0x00000000#32) h' hu))
        (broadcastInDim S4x512x1 ![] hs (constant (F := Ideal) S_ .f32 0x46000000#32)) (ix3 k r z)
      = ((Cert.Spec.mean X k r : ℝ) : EReal) := by
  rw [hostDivf_apply, bc_col, broadcastInDim_scalar_apply, constant_apply, rowSum_apply h' hu x X hx,
    Cert.Spec.ofBits_8192, Cert.Spec.div_real _ _ (by norm_num)]
  rfl

theorem dev_apply (hb : S4x512x1.BroadcastsInDim S4x512x8192 (![0, 1, 2] : Fin 3 → Fin S4x512x8192.rank))
    (x : FVec Ideal S4x512x8192 .f32) (m : FVec Ideal S4x512x1 .f32) (X : Fin 4 → Fin 512 → Fin 8192 → ℝ)
    (M : Fin 4 → Fin 512 → ℝ)
    (hx : ∀ (k : Fin 4) (r : Fin 512) (j : Fin 8192), x (ix3 k r j) = ((X k r j : ℝ) : EReal))
    (hm : ∀ (k : Fin 4) (r : Fin 512) (z : Fin 1), m (ix3 k r z) = ((M k r : ℝ) : EReal))
    (k : Fin 4) (r : Fin 512) (j : Fin 8192) :
    subf x (broadcastInDim S4x512x8192 ![0, 1, 2] hb m) (ix3 k r j) = ((X k r j - M k r : ℝ) : EReal) := by
  rw [subf_apply, bc_row, hx, hm, EReal.coe_sub]

theorem count_apply :
    subf (constant (F := Ideal) S_ .f32 0x46000000#32) (sitofp (F := Ideal) .f32 (constantI S_ 32 0#32)) ix0
      = (((8192 : ℝ)) : EReal) := by
  rw [subf_apply, constant_apply, sitofp_apply, constantI_apply, Cert.Spec.ofBits_8192]
  show ((8192 : ℝ) : EReal) - ((((0#32 : BitVec 32).toInt : ℤ) : ℝ) : EReal) = _
  have e : (0#32 : BitVec 32).toInt = 0 := by decide
  rw [e, ← EReal.coe_sub]
  norm_num

theorem count_pos_apply :
    cmpf (F := Ideal) .ogt
        (subf (constant (F := Ideal) S_ .f32 0x46000000#32) (sitofp (F := Ideal) .f32 (constantI S_ 32 0#32)))
        (constant (F := Ideal) S_ .f32 0x00000000#32) ix0
      = 1#1 := by
  rw [cmpf_apply, count_apply, constant_apply, Ideal.ofBits_zero_f32, Ideal.cmpf_def]
  show BitVec.ofBool (decide ((0 : EReal) < ((8192 : ℝ) : EReal))) = 1#1
  have h : (0 : EReal) < ((8192 : ℝ) : EReal) := by
    rw [← EReal.coe_zero]; exact EReal.coe_lt_coe_iff.mpr (by norm_num)
  rw [decide_eq_true h]
  rfl

theorem var_apply (hc : S4x512.BroadcastsInDim S4x512x1 (![0, 1] : Fin 2 → Fin S4x512x1.rank))
    (hs : S_.BroadcastsInDim S4x512x1 (![] : Fin 0 → Fin S4x512x1.rank))
    (h' : S4x512x8192.ReducesTo [2] S4x512) (hu : 0 < S_.numel)
    (d : FVec Ideal S4x512x8192 .f32) (D : Fin 4 → Fin 512 → Fin 8192 → ℝ)
    (hd : ∀ (k : Fin 4) (r : Fin 512) (j : Fin 8192), d (ix3 k r j) = ((D k r j : ℝ) : EReal))
    (k : Fin 4) (r : Fin 512) (z : Fin 1) :
    select
        (broadcastInDim S4x512x1 ![] hs
          (cmpf (F := Ideal) .ogt
            (subf (constant (F := Ideal) S_ .f32 0x46000000#32) (sitofp (F := Ideal) .f32 (constantI S_ 32 0#32)))
            (constant (F := Ideal) S_ .f32 0x00000000#32)))
        (Host.divf (F := Ideal)
          (broadcastInDim S4x512x1 ![0, 1] hc
            (Host.reduceAdd (F := Ideal) (mulf d d) (constant (F := Ideal) S_ .f32 0x00000000#32) h' hu))
          (broadcastInDim S4x512x1 ![] hs
            (subf (constant (F := Ideal) S_ .f32 0x46000000#32) (sitofp (F := Ideal) .f32 (constantI S_ 32 0#32)))))
        (broadcastInDim S4x512x1 ![] hs (constant (F := Ideal) S_ .f32 0x7FC00000#32)) (ix3 k r z)
      = (((∑ j : Fin 8192, D k r j * D k r j) / 8192 : ℝ) : EReal) := by
  have hdd : ∀ (k : Fin 4) (r : Fin 512) (j : Fin 8192),
      (mulf d d : FVec Ideal S4x512x8192 .f32) (ix3 k r j) = ((D k r j * D k r j : ℝ) : EReal) := fun k r j => by
    rw [mulf_apply, hd, EReal.coe_mul]
  rw [select_apply, broadcastInDim_scalar_apply, count_pos_apply, select_one, hostDivf_apply, bc_col,
    broadcastInDim_scalar_apply, count_apply, rowSum_apply h' hu (mulf d d) (fun k r j => D k r j * D k r j) hdd,
    Cert.Spec.div_real _ _ (by norm_num)]

theorem dot_apply (dd : DotDims S4x128 S128x8192 S4x8192) (hdd : PlainDot.IsPlain dd)
    (t : FVec Ideal S4x128 .f32) (w : FVec Ideal S128x8192 .f32)
    (T : Fin 4 → Fin 128 → ℝ) (W : Fin 128 → Fin 8192 → ℝ)
    (ht : ∀ (k : Fin 4) (q : Fin 128), t (ix2 k q) = ((T k q : ℝ) : EReal))
    (hw : ∀ (q : Fin 128) (j : Fin 8192), w (ix2 q j) = ((W q j : ℝ) : EReal))
    (k : Fin 4) (j : Fin 8192) :
    Host.dotGeneral (F := Ideal) dd none t w (ix2 k j) = ((Cert.Spec.dot T W k j : ℝ) : EReal) := by
  show FloatOps.dotGeneral dd none .single t w (ix2 k j) = _
  rw [PlainDot.dotGeneral_apply dd hdd none .single t w k j]
  show _ = (((∑ q : Fin 128, T k q * W q j : ℝ)) : EReal)
  rw [Cert.Spec.coe_sum]
  refine Finset.sum_congr rfl fun q _ => ?_
  rw [ht, hw, EReal.coe_mul]

theorem std_apply (hs : S_.BroadcastsInDim S4x512x1 (![] : Fin 0 → Fin S4x512x1.rank))
    (v : FVec Ideal S4x512x1 .f32) (V : Fin 4 → Fin 512 → ℝ)
    (hv : ∀ (k : Fin 4) (r : Fin 512) (z : Fin 1), v (ix3 k r z) = ((V k r : ℝ) : EReal))
    (hV : ∀ (k : Fin 4) (r : Fin 512), 0 ≤ V k r) (k : Fin 4) (r : Fin 512) (z : Fin 1) :
    Host.sqrt (F := Ideal) (addf v (broadcastInDim S4x512x1 ![] hs (constant (F := Ideal) S_ .f32 0x3727C5AC#32)))
        (ix3 k r z)
      = ((Real.sqrt (V k r + Cert.Spec.eps) : ℝ) : EReal) := by
  show FloatOps.hostUnary .sqrt
      ((addf v (broadcastInDim S4x512x1 ![] hs (constant (F := Ideal) S_ .f32 0x3727C5AC#32))
        : FVec Ideal S4x512x1 .f32) (ix3 k r z)) = _
  rw [Ideal.hostUnary_sqrt_def, addf_apply, hv, broadcastInDim_scalar_apply, constant_apply, Cert.Spec.ofBits_eps,
    ← EReal.coe_add, Cert.Spec.sqrt_real _ (add_nonneg (hV k r) Cert.Spec.eps_pos.le)]

theorem scale_apply (hs : S_.BroadcastsInDim S4x1x8192 (![] : Fin 0 → Fin S4x1x8192.rank))
    (hmid : S4x8192.BroadcastsInDim S4x1x8192 (![0, 2] : Fin 2 → Fin S4x1x8192.rank))
    (p : FVec Ideal S4x8192 .f32) (P : Fin 4 → Fin 8192 → ℝ)
    (hp : ∀ (k : Fin 4) (j : Fin 8192), p (ix2 k j) = ((P k j : ℝ) : EReal))
    (k : Fin 4) (z : Fin 1) (j : Fin 8192) :
    addf (broadcastInDim S4x1x8192 ![] hs (constant (F := Ideal) S_ .f32 0x3F800000#32))
        (broadcastInDim S4x1x8192 ![0, 2] hmid p) (ix3 k z j)
      = ((1 + P k j : ℝ) : EReal) := by
  rw [addf_apply, broadcastInDim_scalar_apply, constant_apply, Cert.Spec.ofBits_one, bc_mid, hp, ← EReal.coe_add]

theorem out_assemble (hb : S4x512x1.BroadcastsInDim S4x512x8192 (![0, 1, 2] : Fin 3 → Fin S4x512x8192.rank))
    (hb' : S4x1x8192.BroadcastsInDim S4x512x8192 (![0, 1, 2] : Fin 3 → Fin S4x512x8192.rank))
    (x : FVec Ideal S4x512x8192 .f32) (m sd : FVec Ideal S4x512x1 .f32) (sc sh : FVec Ideal S4x1x8192 .f32)
    (X : Fin 4 → Fin 512 → Fin 8192 → ℝ) (M SD : Fin 4 → Fin 512 → ℝ) (SC SH : Fin 4 → Fin 8192 → ℝ)
    (hx : ∀ (k : Fin 4) (r : Fin 512) (j : Fin 8192), x (ix3 k r j) = ((X k r j : ℝ) : EReal))
    (hm : ∀ (k : Fin 4) (r : Fin 512) (z : Fin 1), m (ix3 k r z) = ((M k r : ℝ) : EReal))
    (hsd : ∀ (k : Fin 4) (r : Fin 512) (z : Fin 1), sd (ix3 k r z) = ((SD k r : ℝ) : EReal))
    (hsd0 : ∀ (k : Fin 4) (r : Fin 512), SD k r ≠ 0)
    (hsc : ∀ (k : Fin 4) (z : Fin 1) (j : Fin 8192), sc (ix3 k z j) = ((SC k j : ℝ) : EReal))
    (hsh : ∀ (k : Fin 4) (z : Fin 1) (j : Fin 8192), sh (ix3 k z j) = ((SH k j : ℝ) : EReal))
    (k : Fin 4) (r : Fin 512) (j : Fin 8192) :
    addf
        (mulf
          (Host.divf (F := Ideal) (subf x (broadcastInDim S4x512x8192 ![0, 1, 2] hb m))
            (broadcastInDim S4x512x8192 ![0, 1, 2] hb sd))
          (broadcastInDim S4x512x8192 ![0, 1, 2] hb' sc))
        (broadcastInDim S4x512x8192 ![0, 1, 2] hb' sh) (ix3 k r j)
      = (((X k r j - M k r) / SD k r * SC k j + SH k j : ℝ) : EReal) := by
  rw [addf_apply, mulf_apply, hostDivf_apply, dev_apply hb x m X M hx hm, bc_row, hsd, bc_rows, hsc, bc_rows, hsh,
    Cert.Spec.div_real _ _ (hsd0 k r), ← EReal.coe_mul, ← EReal.coe_add]

theorem refOut_apply (X : Fin 4 → Fin 512 → Fin 8192 → ℝ) (T : Fin 4 → Fin 128 → ℝ) (WS WSH : Fin 128 → Fin 8192 → ℝ)
    (x : (⟨S4x512x8192, .f32⟩ : BufTy).Contents (Elt Ideal)) (t : (⟨S4x128, .f32⟩ : BufTy).Contents (Elt Ideal))
    (ws wsh : (⟨S128x8192, .f32⟩ : BufTy).Contents (Elt Ideal))
    (hx : ∀ (k : Fin 4) (r : Fin 512) (j : Fin 8192), x (ValueIdx.ix3 k r j) = ((X k r j : ℝ) : EReal))
    (ht : ∀ (k : Fin 4) (q : Fin 128), t (ValueIdx.ix2 k q) = ((T k q : ℝ) : EReal))
    (hws : ∀ (q : Fin 128) (j : Fin 8192), ws (ValueIdx.ix2 q j) = ((WS q j : ℝ) : EReal))
    (hwsh : ∀ (q : Fin 128) (j : Fin 8192), wsh (ValueIdx.ix2 q j) = ((WSH q j : ℝ) : EReal))
    (k : Fin 4) (r : Fin 512) (j : Fin 8192) :
    Cert.ReferenceIdeal.RefRun.refOut (F := Ideal) x t ws wsh (ValueIdx.ix3 k r j)
      = ((Cert.Spec.out Cert.Spec.eps X T WS WSH k r j : ℝ) : EReal) := by
  unfold Cert.ReferenceIdeal.RefRun.refOut
  have hm := fun (k : Fin 4) (r : Fin 512) (z : Fin 1) =>
    mean_apply Gen.bcast_S4x512_S4x512x1_0_1 Gen.bcast_S_S4x512x1 Gen.reducesTo_S4x512x8192_S4x512_d2 Gen.h_S_ x X hx k r z
  have hdev := fun (k : Fin 4) (r : Fin 512) (j : Fin 8192) =>
    dev_apply Gen.bcast_S4x512x1_S4x512x8192_0_1_2 x _ X (Cert.Spec.mean X) hx hm k r j
  have hvar := fun (k : Fin 4) (r : Fin 512) (z : Fin 1) =>
    var_apply Gen.bcast_S4x512_S4x512x1_0_1 Gen.bcast_S_S4x512x1 Gen.reducesTo_S4x512x8192_S4x512_d2 Gen.h_S_ _
      (fun k r j => X k r j - Cert.Spec.mean X k r) hdev k r z
  have hplain : PlainDot.IsPlain dot_S4x128_S128x8192_S4x8192_1_0_0_1_n_n := ⟨rfl, rfl, rfl, rfl, rfl, rfl⟩
  refine (out_assemble _ _ x _ _ _ _ X (Cert.Spec.mean X)
    (fun k r => Real.sqrt (Cert.Spec.var X k r + Cert.Spec.eps)) (fun k j => 1 + Cert.Spec.dot T WS k j)
    (Cert.Spec.dot T WSH) hx hm ?_ ?_ ?_ ?_ k r j).trans rfl
  · exact fun k r z => std_apply _ _ (Cert.Spec.var X) (fun k r z => hvar k r z) (Cert.Spec.var_nonneg X) k r z
  · exact fun k r =>
      (Real.sqrt_pos.mpr (add_pos_of_nonneg_of_pos (Cert.Spec.var_nonneg X k r) Cert.Spec.eps_pos)).ne'
  · exact fun k z j => scale_apply _ _ _ (Cert.Spec.dot T WS)
      (fun k j => dot_apply _ hplain t ws T WS ht hws k j) k z j
  · exact fun k z j => (bc_mid _ _ k z j).trans (dot_apply _ hplain t wsh T WSH ht hwsh k j)

end Cert.ReferenceIdeal.RefValue

end
-- ==== Proof.Finite.lean ====
import proofs.«900771_g7700000000000772_dist_diff_adaln_cshard_i_b4_s512_c256_v7x_i32_f32_1_alg».proof.Defs
import proofs.«900771_g7700000000000772_dist_diff_adaln_cshard_i_b4_s512_c256_v7x_i32_f32_1_alg».proof.Proof.Gen.Pre_finite_inputs_Kernel
import proofs.«900771_g7700000000000772_dist_diff_adaln_cshard_i_b4_s512_c256_v7x_i32_f32_1_alg».proof.Proof.Spec
import Idealize.ShloMosaic.Lib.Layout
import Idealize.ShloMosaic.Lib.ValueIdx
import Idealize.ShloMosaic.Lib.ReduceAll

noncomputable section

namespace Cert.Finite

open Idealize.ShloMosaic Idealize.SL.Sem

theorem block3_apply {α : Type} (c : Fin 32) (v : (⟨3, ![4, 512, 8192]⟩ : Shape).Idx → α) (k : Fin 4)
    (r : Fin 512) (i : Fin 256) :
    (Layout.block ⟨3, ![4, 512, 256]⟩ ⟨3, ![4, 512, 8192]⟩ 2 32 c v) (ValueIdx.ix3 k r i)
      = v (ValueIdx.ix3 k r (Cert.Spec.col c i)) := by
  rw [Layout.block_apply]
  congr 1
  funext b
  match b with
  | ⟨0, _⟩ => rfl
  | ⟨1, _⟩ => rfl
  | ⟨2, _⟩ =>
    apply Fin.ext
    show c.val * 256 + i.val = 256 * c.val + i.val
    omega

theorem block2_apply {α : Type} (c : Fin 32) (v : (⟨2, ![128, 8192]⟩ : Shape).Idx → α) (q : Fin 128)
    (i : Fin 256) :
    (Layout.block ⟨2, ![128, 256]⟩ ⟨2, ![128, 8192]⟩ 1 32 c v) (ValueIdx.ix2 q i)
      = v (ValueIdx.ix2 q (Cert.Spec.col c i)) := by
  rw [Layout.block_apply]
  congr 1
  funext b
  match b with
  | ⟨0, _⟩ => rfl
  | ⟨1, _⟩ =>
    apply Fin.ext
    show c.val * 256 + i.val = 256 * c.val + i.val
    omega

theorem col_surj (j : Fin 8192) : ∃ (d : Fin 32) (i : Fin 256), Cert.Spec.col d i = j :=
  ⟨(Cert.Spec.colEquiv.symm j).1, (Cert.Spec.colEquiv.symm j).2, Cert.Spec.colEquiv.apply_symm_apply j⟩

theorem ofBits_inf : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

instance : Subsingleton Cert.Pre_finite_inputs_Kernel.S_.Idx := ⟨fun a b => funext fun d => d.elim0⟩

theorem finite_of_fn [hF : Cert.Pre_finite_inputs_Kernel.Facts]
    (a0 : FVec Ideal Cert.Pre_finite_inputs_Kernel.S4x512x256 .f32)
    (a1 : FVec Ideal Cert.Pre_finite_inputs_Kernel.S4x128 .f32)
    (a2 a3 : FVec Ideal Cert.Pre_finite_inputs_Kernel.S128x256 .f32)
    (h : Cert.Pre_finite_inputs_Kernel.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs_Kernel.fn, Cert.Pre_finite_inputs_Kernel.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt_inf (a0 i) (Host.reduce_andi_all _ _ _ _ _ h0' i),
    fun i => real_of_abs_lt_inf (a1 i) (Host.reduce_andi_all _ _ _ _ _ h1 i),
    fun i => real_of_abs_lt_inf (a2 i) (Host.reduce_andi_all _ _ _ _ _ h2 i),
    fun i => real_of_abs_lt_inf (a3 i) (Host.reduce_andi_all _ _ _ _ _ h3 i)⟩

-- Finite inputs are reals, and the devices' blocks are the columns of the whole arrays.
theorem reals_of_pre [hPre : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 8192]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3)))) :
    ∃ (X : Fin 4 → Fin 512 → Fin 8192 → ℝ) (T : Fin 4 → Fin 128 → ℝ) (WS WSH : Fin 128 → Fin 8192 → ℝ),
      (∀ k r j, m' (((0 : Dev Cert.ReferenceIdeal.nD).tc : Thread Cert.ReferenceIdeal.nD Cert.ReferenceIdeal.τ).loc Cert.ReferenceIdeal.main_arg0) (ValueIdx.ix3 k r j) = ((X k r j : ℝ) : EReal))
      ∧ (∀ k q, m' (((0 : Dev Cert.ReferenceIdeal.nD).tc : Thread Cert.ReferenceIdeal.nD Cert.ReferenceIdeal.τ).loc Cert.ReferenceIdeal.main_arg1) (ValueIdx.ix2 k q) = ((T k q : ℝ) : EReal))
      ∧ (∀ q j, m' (((0 : Dev Cert.ReferenceIdeal.nD).tc : Thread Cert.ReferenceIdeal.nD Cert.ReferenceIdeal.τ).loc Cert.ReferenceIdeal.main_arg2) (ValueIdx.ix2 q j) = ((WS q j : ℝ) : EReal))
      ∧ (∀ q j, m' (((0 : Dev Cert.ReferenceIdeal.nD).tc : Thread Cert.ReferenceIdeal.nD Cert.ReferenceIdeal.τ).loc Cert.ReferenceIdeal.main_arg3) (ValueIdx.ix2 q j) = ((WSH q j : ℝ) : EReal))
      ∧ (∀ (c : Dev Cert.KernelIdeal.nD) k r i, m ((c.tc : Thread Cert.KernelIdeal.nD Cert.KernelIdeal.τ).loc Cert.KernelIdeal.main_arg0) (ValueIdx.ix3 k r i) = ((X k r (Cert.Spec.col c i) : ℝ) : EReal))
      ∧ (∀ (c : Dev Cert.KernelIdeal.nD) k q, m ((c.tc : Thread Cert.KernelIdeal.nD Cert.KernelIdeal.τ).loc Cert.KernelIdeal.main_arg1) (ValueIdx.ix2 k q) = ((T k q : ℝ) : EReal))
      ∧ (∀ (c : Dev Cert.KernelIdeal.nD) q i, m ((c.tc : Thread Cert.KernelIdeal.nD Cert.KernelIdeal.τ).loc Cert.KernelIdeal.main_arg2) (ValueIdx.ix2 q i) = ((WS q (Cert.Spec.col c i) : ℝ) : EReal))
      ∧ (∀ (c : Dev Cert.KernelIdeal.nD) q i, m ((c.tc : Thread Cert.KernelIdeal.nD Cert.KernelIdeal.τ).loc Cert.KernelIdeal.main_arg3) (ValueIdx.ix2 q i) = ((WSH q (Cert.Spec.col c i) : ℝ) : EReal)) := by
  have hfin := fun c : Dev Cert.KernelIdeal.nD => finite_of_fn _ _ _ _ (hpre c)
  have hX : ∀ (k : Fin 4) (r : Fin 512) (j : Fin 8192), ∃ x : ℝ,
      m' (((0 : Dev Cert.ReferenceIdeal.nD).tc : Thread Cert.ReferenceIdeal.nD Cert.ReferenceIdeal.τ).loc Cert.ReferenceIdeal.main_arg0) (ValueIdx.ix3 k r j) = (x : EReal) := by
    intro k r j
    obtain ⟨d, i, rfl⟩ := col_surj j
    obtain ⟨x, hx⟩ := (hfin d).1 (ValueIdx.ix3 k r i)
    exact ⟨x, (block3_apply d _ k r i).symm.trans
      ((congrFun (hagree d).1 (ValueIdx.ix3 k r i)).symm.trans hx)⟩
  have hT : ∀ (k : Fin 4) (q : Fin 128), ∃ x : ℝ,
      m' (((0 : Dev Cert.ReferenceIdeal.nD).tc : Thread Cert.ReferenceIdeal.nD Cert.ReferenceIdeal.τ).loc Cert.ReferenceIdeal.main_arg1) (ValueIdx.ix2 k q) = (x : EReal) := by
    intro k q
    obtain ⟨x, hx⟩ := (hfin 0).2.1 (ValueIdx.ix2 k q)
    exact ⟨x, (congrFun (hagree 0).2.1 (ValueIdx.ix2 k q)).symm.trans hx⟩
  have hWS : ∀ (q : Fin 128) (j : Fin 8192), ∃ x : ℝ,
      m' (((0 : Dev Cert.ReferenceIdeal.nD).tc : Thread Cert.ReferenceIdeal.nD Cert.ReferenceIdeal.τ).loc Cert.ReferenceIdeal.main_arg2) (ValueIdx.ix2 q j) = (x : EReal) := by
    intro q j
    obtain ⟨d, i, rfl⟩ := col_surj j
    obtain ⟨x, hx⟩ := (hfin d).2.2.1 (ValueIdx.ix2 q i)
    exact ⟨x, (block2_apply d _ q i).symm.trans
      ((congrFun (hagree d).2.2.1 (ValueIdx.ix2 q i)).symm.trans hx)⟩
  have hWSH : ∀ (q : Fin 128) (j : Fin 8192), ∃ x : ℝ,
      m' (((0 : Dev Cert.ReferenceIdeal.nD).tc : Thread Cert.ReferenceIdeal.nD Cert.ReferenceIdeal.τ).loc Cert.ReferenceIdeal.main_arg3) (ValueIdx.ix2 q j) = (x : EReal) := by
    intro q j
    obtain ⟨d, i, rfl⟩ := col_surj j
    obtain ⟨x, hx⟩ := (hfin d).2.2.2 (ValueIdx.ix2 q i)
    exact ⟨x, (block2_apply d _ q i).symm.trans
      ((congrFun (hagree d).2.2.2 (ValueIdx.ix2 q i)).symm.trans hx)⟩
  choose X hX using hX
  choose T hT using hT
  choose WS hWS using hWS
  choose WSH hWSH using hWSH
  refine ⟨X, T, WS, WSH, hX, hT, hWS, hWSH, ?_, ?_, ?_, ?_⟩
  · intro c k r i
    exact (congrFun (hagree c).1 (ValueIdx.ix3 k r i)).trans
      ((block3_apply c _ k r i).trans (hX k r (Cert.Spec.col c i)))
  · intro c k q
    exact (congrFun (hagree c).2.1 (ValueIdx.ix2 k q)).trans (hT k q)
  · intro c q i
    exact (congrFun (hagree c).2.2.1 (ValueIdx.ix2 q i)).trans
      ((block2_apply c _ q i).trans (hWS q (Cert.Spec.col c i)))
  · intro c q i
    exact (congrFun (hagree c).2.2.2 (ValueIdx.ix2 q i)).trans
      ((block2_apply c _ q i).trans (hWSH q (Cert.Spec.col c i)))

end Cert.Finite

end
-- ==== Proof.KClaims.lean ====
import proofs.«900771_g7700000000000772_dist_diff_adaln_cshard_i_b4_s512_c256_v7x_i32_f32_1_alg».proof.Defs
import proofs.«900771_g7700000000000772_dist_diff_adaln_cshard_i_b4_s512_c256_v7x_i32_f32_1_alg».proof.Proof.Gen.KernelIdeal
import proofs.«900771_g7700000000000772_dist_diff_adaln_cshard_i_b4_s512_c256_v7x_i32_f32_1_alg».proof.Proof.Gen.ReferenceIdeal
import proofs.«900771_g7700000000000772_dist_diff_adaln_cshard_i_b4_s512_c256_v7x_i32_f32_1_alg».proof.Proof.Gen.Pre_finite_inputs_Kernel
import proofs.«900771_g7700000000000772_dist_diff_adaln_cshard_i_b4_s512_c256_v7x_i32_f32_1_alg».proof.Proof.RunSpec
import proofs.«900771_g7700000000000772_dist_diff_adaln_cshard_i_b4_s512_c256_v7x_i32_f32_1_alg».proof.Proof.KValue
import proofs.«900771_g7700000000000772_dist_diff_adaln_cshard_i_b4_s512_c256_v7x_i32_f32_1_alg».proof.Proof.RefValue
import proofs.«900771_g7700000000000772_dist_diff_adaln_cshard_i_b4_s512_c256_v7x_i32_f32_1_alg».proof.Proof.RefRun
import proofs.«900771_g7700000000000772_dist_diff_adaln_cshard_i_b4_s512_c256_v7x_i32_f32_1_alg».proof.Proof.Finite
import proofs.«900771_g7700000000000772_dist_diff_adaln_cshard_i_b4_s512_c256_v7x_i32_f32_1_alg».proof.Proof.Spec
import Idealize.ShloMosaic.Lib.ValueIdx

noncomputable section

namespace Cert.KernelIdeal.Claims

open Cert.KernelIdeal Cert.KernelIdeal.Gen
open Idealize.ShloMosaic Idealize.ShloMosaic.TcCoe Idealize.SL.Sem
open Idealize.ShloMosaic.ValueIdx
open scoped BigOperators

theorem ld_apply {F : FTy → Type} [FloatOps F] (X : (cc0_scratch0 : Ref sig .tc).ty.Contents (Elt F)) (k : Fin 4)
    (r : Fin 512) (i : Fin 256) : Proto.ld X k (ix3 (0 : Fin 1) r i) = X (ix3 k r i) := by
  unfold Proto.ld
  rw [View.readAt_apply]
  show X _ = X _
  refine congrArg X ?_
  funext a
  apply Fin.ext
  match a with
  | ⟨0, _⟩ => show k.val + 1 * 0 = k.val; omega
  | ⟨1, _⟩ => show 0 + 1 * r.val = r.val; omega
  | ⟨2, _⟩ => show 0 + 1 * i.val = i.val; omega

-- A window whose one block is the whole array reads back the array.
theorem tOf_eq {F : FTy → Type} [FloatOps F] (m : (ℓ : Loc nD τ sig) → Buf (Elt F) ℓ) (c : Dev nD) :
    Proto.tOf m c = m ((c.tc : Thread nD τ).loc main_arg1) :=
  Memref.read_access_unit_zero (Elt F) main_arg1 (funext fun a => by fin_cases a <;> decide) (fun a => by fin_cases a <;> decide) _

theorem wsOf_eq {F : FTy → Type} [FloatOps F] (m : (ℓ : Loc nD τ sig) → Buf (Elt F) ℓ) (c : Dev nD) :
    Proto.wsOf m c = m ((c.tc : Thread nD τ).loc main_arg2) :=
  Memref.read_access_unit_zero (Elt F) main_arg2 (funext fun a => by fin_cases a <;> decide) (fun a => by fin_cases a <;> decide) _

theorem wshOf_eq {F : FTy → Type} [FloatOps F] (m : (ℓ : Loc nD τ sig) → Buf (Elt F) ℓ) (c : Dev nD) :
    Proto.wshOf m c = m ((c.tc : Thread nD τ).loc main_arg3) :=
  Memref.read_access_unit_zero (Elt F) main_arg3 (funext fun a => by fin_cases a <;> decide) (fun a => by fin_cases a <;> decide) _

-- On real inputs a device's output block is its 256 columns of the specification.
theorem outAt_apply (X : Fin 4 → Fin 512 → Fin 8192 → ℝ) (T : Fin 4 → Fin 128 → ℝ) (WS WSH : Fin 128 → Fin 8192 → ℝ)
    (m : (ℓ : Loc nD τ sig) → Buf (Elt Ideal) ℓ)
    (hX : ∀ (c : Dev nD) (k : Fin 4) (r : Fin 512) (i : Fin 256),
      m ((c.tc : Thread nD τ).loc main_arg0) (ValueIdx.ix3 k r i) = ((X k r (Cert.Spec.col c i) : ℝ) : EReal))
    (hT : ∀ (c : Dev nD) (k : Fin 4) (q : Fin 128),
      m ((c.tc : Thread nD τ).loc main_arg1) (ValueIdx.ix2 k q) = ((T k q : ℝ) : EReal))
    (hWS : ∀ (c : Dev nD) (q : Fin 128) (i : Fin 256),
      m ((c.tc : Thread nD τ).loc main_arg2) (ValueIdx.ix2 q i) = ((WS q (Cert.Spec.col c i) : ℝ) : EReal))
    (hWSH : ∀ (c : Dev nD) (q : Fin 128) (i : Fin 256),
      m ((c.tc : Thread nD τ).loc main_arg3) (ValueIdx.ix2 q i) = ((WSH q (Cert.Spec.col c i) : ℝ) : EReal))
    (c : Dev nD) (k : Fin 4) (r : Fin 512) (i : Fin 256) :
    Proto.outAt (F := Ideal) m c (ValueIdx.ix3 k r i)
      = ((Cert.Spec.out Cert.Spec.eps X T WS WSH k r (Cert.Spec.col c i) : ℝ) : EReal) := by
  have hld : ∀ (d : Dev nD) (g : Fin 4) (r : Fin 512) (i : Fin 256),
      Proto.ld (Proto.xOf m d) g (ix3 (0 : Fin 1) r i) = ((X g r (Cert.Spec.col d i) : ℝ) : EReal) := fun d g r i =>
    (ld_apply (Proto.xOf m d) g r i).trans (hX d g r i)
  unfold Proto.outAt
  refine KVal.outBlock_apply c X T WS WSH _ _ _ _ _ _ _ _ _ (hld c 0) (hld c 1) (hld c 2) (hld c 3)
    (fun k r i => hX c k r i) (fun k q => (congrFun (tOf_eq m c) _).trans (hT c k q))
    (fun q i => (congrFun (wsOf_eq m c) _).trans (hWS c q i)) (fun q i => (congrFun (wshOf_eq m c) _).trans (hWSH c q i))
    (fun d _ s k r => ?_) k r i
  show KVal.statsSent (F := Ideal) (Proto.ld (Proto.xOf m d) 0) (Proto.ld (Proto.xOf m d) 1) (Proto.ld (Proto.xOf m d) 2)
      (Proto.ld (Proto.xOf m d) 3) (ix3 s k r) = _
  exact KVal.statsSent_apply (fun k r i => X k r (Cert.Spec.col d i)) _ _ _ _ (hld d 0) (hld d 1) (hld d 2) (hld d 3) s k r

-- Both runs end in the same specification, so each device's block is its block of the reference's array.
theorem algebraic_of_run (h : Proto.RunValue Ideal) : Cert.algebraic_KernelIdeal_ReferenceIdeal := by
  intro m g m' g' hpre hagree
  obtain ⟨X, T, WS, WSH, hX', hT', hWS', hWSH', hX, hT, hWS, hWSH⟩ := Cert.Finite.reals_of_pre m m' hpre hagree
  refine ⟨Cert.ReferenceIdeal.RefRun.refOut (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)), ?_, Cert.ReferenceIdeal.RefRun.run (F := Ideal) m' g'⟩
  refine (θ_run defs _ _).mono (fun _ hr c => ?_) (h m g)
  obtain ⟨h1, hrest⟩ := hr c
  refine ⟨h1.trans ?_, hrest⟩
  funext idx
  obtain ⟨k, r, i, rfl⟩ : ∃ (k : Fin 4) (r : Fin 512) (i : Fin 256), idx = ix3 k r i :=
    ⟨idx 0, idx 1, idx 2, eq_ix3 idx⟩
  refine (outAt_apply X T WS WSH m hX hT hWS hWSH c k r i).trans ?_
  refine ((Cert.Finite.block3_apply c _ k r i).trans ?_).symm
  exact Cert.ReferenceIdeal.RefValue.refOut_apply X T WS WSH _ _ _ _ hX' hT' hWS' hWSH' k r (Cert.Spec.col c i)

end Cert.KernelIdeal.Claims

end
-- ==== Proof.Sched.lean ====
import proofs.«900771_g7700000000000772_dist_diff_adaln_cshard_i_b4_s512_c256_v7x_i32_f32_1_alg».proof.Proof.Data

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sendOf_send (j : Dev nD) : sendOf (.dma (sendS j) : SemLoc sig) = some j := by
  revert j; decide

theorem sendOf_recv (i : Dev nD) : sendOf (.dma (recvS i) : SemLoc sig) = none := by
  revert i; decide

theorem recvOf_recv (i : Dev nD) : recvOf (.dma (recvS i) : SemLoc sig) = some i := by
  revert i; decide

theorem copyOf_copy (k : Fin 4) : copyOf (.dma (copyS k) : SemLoc sig) = some k := by
  revert k; decide

theorem sendOf_copy (k : Fin 4) : sendOf (.dma (copyS k) : SemLoc sig) = none := by
  revert k; decide

theorem recvOf_copy (k : Fin 4) : recvOf (.dma (copyS k) : SemLoc sig) = none := by
  revert k; decide

theorem copyOf_send (j : Dev nD) : copyOf (.dma (sendS j) : SemLoc sig) = none := by
  revert j; decide

theorem copyOf_recv (i : Dev nD) : copyOf (.dma (recvS i) : SemLoc sig) = none := by
  revert i; decide

theorem dma_ne_bar {q : DmaSem sig} : (SemLoc.dma q : SemLoc sig) ≠ .reg barS := fun h => by cases h

theorem duties_bar (c : Dev nD) : (sched (F := F) m).duties (barCell c) 0 = Finset.univ.erase c := by
  dsimp only [sched]
  rw [if_pos ⟨rfl, rfl⟩, if_pos rfl]

theorem duties_send (c j : Dev nD) (h : j ≠ c) : (sched (F := F) m).duties (sendCell c j) 0 = {c} := by
  dsimp only [sched]
  rw [if_pos ⟨rfl, rfl⟩, if_neg dma_ne_bar, sendOf_send]
  exact if_neg h

theorem duties_send_self (c : Dev nD) (r : ℕ) : (sched (F := F) m).duties (sendCell c c) r = ∅ := by
  dsimp only [sched]
  by_cases hr : r = 0 ∧ ((sendCell c c).1.2 : Proc τ) = .tc
  · rw [if_pos hr, if_neg dma_ne_bar, sendOf_send]
    exact if_pos rfl
  · exact if_neg hr

theorem duties_recv (c i : Dev nD) (h : i ≠ c) : (sched (F := F) m).duties (recvCell c i) 0 = {i} := by
  dsimp only [sched]
  rw [if_pos ⟨rfl, rfl⟩, if_neg dma_ne_bar, sendOf_recv, recvOf_recv]
  exact if_neg h

theorem duties_recv_self (c : Dev nD) (r : ℕ) : (sched (F := F) m).duties (recvCell c c) r = ∅ := by
  dsimp only [sched]
  by_cases hr : r = 0 ∧ ((recvCell c c).1.2 : Proc τ) = .tc
  · rw [if_pos hr, if_neg dma_ne_bar, sendOf_recv, recvOf_recv]
    exact if_pos rfl
  · exact if_neg hr

theorem duties_copy (c : Dev nD) (k : Fin 4) : (sched (F := F) m).duties (copyCell c k) 0 = {c} := by
  dsimp only [sched]
  rw [if_pos ⟨rfl, rfl⟩, if_neg dma_ne_bar, sendOf_copy, recvOf_copy, copyOf_copy]

theorem duties_later (g : GSem nD τ sig) : ∀ r, 1 ≤ r → (sched (F := F) m).duties g r = ∅ := by
  intro r hr
  dsimp only [sched]
  exact if_neg fun h => by omega

theorem amount_bar (c d : Dev nD) : (sched (F := F) m).amount (barCell c) 0 d = 1 := by
  dsimp only [sched]
  exact if_pos rfl

theorem amount_send (c j d : Dev nD) : (sched (F := F) m).amount (sendCell c j) 0 d = N := by
  dsimp only [sched]
  rw [if_neg dma_ne_bar, copyOf_send]
  rfl

theorem amount_recv (c i d : Dev nD) : (sched (F := F) m).amount (recvCell c i) 0 d = N := by
  dsimp only [sched]
  rw [if_neg dma_ne_bar, copyOf_recv]
  rfl

theorem amount_copy (c : Dev nD) (k : Fin 4) (d : Dev nD) : (sched (F := F) m).amount (copyCell c k) 0 d = NC := by
  dsimp only [sched]
  rw [if_neg dma_ne_bar, copyOf_copy]
  rfl

theorem expect_bar (c : Dev nD) : (sched (F := F) m).expect (barCell c) 0 = 31 := by
  unfold Schedule.expect Schedule.amountOf
  rw [duties_bar, Finset.sum_congr rfl fun d _ => amount_bar m c d, Finset.sum_const,
    Finset.card_erase_of_mem (Finset.mem_univ c), Finset.card_univ, Fintype.card_fin, smul_eq_mul]
  rfl

theorem expect_send (c j : Dev nD) (h : j ≠ c) : (sched (F := F) m).expect (sendCell c j) 0 = N := by
  unfold Schedule.expect Schedule.amountOf
  rw [duties_send m c j h, Finset.sum_singleton, amount_send]

theorem expect_recv (c i : Dev nD) (h : i ≠ c) : (sched (F := F) m).expect (recvCell c i) 0 = N := by
  unfold Schedule.expect Schedule.amountOf
  rw [duties_recv m c i h, Finset.sum_singleton, amount_recv]

theorem expect_copy (c : Dev nD) (k : Fin 4) : (sched (F := F) m).expect (copyCell c k) 0 = NC := by
  unfold Schedule.expect Schedule.amountOf
  rw [duties_copy, Finset.sum_singleton, amount_copy]

theorem payload_bar (c d : Dev nD) : (sched m).payload (barCell c) 0 d = barPay c d := by
  dsimp only [sched]
  exact if_pos rfl

theorem payload_send (c j d : Dev nD) : (sched m).payload (sendCell c j) 0 d = sendPay m c j := by
  dsimp only [sched]
  rw [if_neg dma_ne_bar, sendOf_send]

theorem payload_recv (c i d : Dev nD) : (sched m).payload (recvCell c i) 0 d = recvPay m c i := by
  dsimp only [sched]
  rw [if_neg dma_ne_bar, sendOf_recv, recvOf_recv]

theorem payload_copy (c : Dev nD) (k : Fin 4) (d : Dev nD) : (sched m).payload (copyCell c k) 0 d = copyPay m c k := by
  dsimp only [sched]
  rw [if_neg dma_ne_bar, sendOf_copy, recvOf_copy, copyOf_copy]

instance sched_payload_storable (g : GSem nD τ sig) (r : ℕ) (d : Dev nD) :
    BI.Storable (upEmb : UEmb _ 𝕄) ((sched m).payload g r d) := by
  show BI.Storable upEmb (if g.2 = .reg barS then barPay g.1.1 d
    else match sendOf g.2 with
      | some j => sendPay m g.1.1 j
      | none => match recvOf g.2 with
        | some i => recvPay m g.1.1 i
        | none => match copyOf g.2 with
          | some k => copyPay m g.1.1 k
          | none => iprop(emp))
  unfold barPay sendPay recvPay copyPay slotPts stPts
  (repeat' split) <;> infer_instance

theorem rest_bar (c : Dev nD) :
    bigSep ((sched m).duties (barCell c) 0 \ ∅) (fun d => (sched m).payload (barCell c) 0 d)
      = bigSep (Finset.univ.erase c) (fun d => barPay (F := F) c d) := by
  rw [Finset.sdiff_empty, duties_bar]
  exact bigSep_congr fun d _ => payload_bar m c d

theorem rest_send (c j : Dev nD) (h : j ≠ c) :
    bigSep ((sched m).duties (sendCell c j) 0 \ ∅) (fun d => (sched m).payload (sendCell c j) 0 d) = sendPay m c j := by
  rw [Finset.sdiff_empty, duties_send m c j h, bigSep_singleton, payload_send]

theorem rest_recv (c i : Dev nD) (h : i ≠ c) :
    bigSep ((sched m).duties (recvCell c i) 0 \ ∅) (fun d => (sched m).payload (recvCell c i) 0 d) = recvPay m c i := by
  rw [Finset.sdiff_empty, duties_recv m c i h, bigSep_singleton, payload_recv]

theorem rest_copy (c : Dev nD) (k : Fin 4) :
    bigSep ((sched m).duties (copyCell c k) 0 \ ∅) (fun d => (sched m).payload (copyCell c k) 0 d) = copyPay m c k := by
  rw [Finset.sdiff_empty, duties_copy, bigSep_singleton, payload_copy]

theorem L_of_ne (g : GSem nD τ sig) (h : g.1.2 ≠ .tc) : L g = ∅ := by
  exact if_neg h

theorem L_tc (c : Dev nD) (sm : SemLoc sig) : L ((c : Thread nD τ), sm) = {()} := by
  exact if_pos rfl

theorem sumFrom_pos {base : CellTallies nD τ sig Unit} {f : Dev nD → CellTallies nD τ sig Unit} {g : GSem nD τ sig} {u : Unit} :
    ∀ {l : List (Dev nD)}, 0 < sumFrom base f l g u → 0 < base g u ∨ ∃ j ∈ l, 0 < f j g u
  | [], h => Or.inl h
  | j :: js, h => by
    rcases Pipeline.add_pos_cases (show 0 < (sumFrom base f js + f j) g u from h) with h' | h'
    · rcases sumFrom_pos h' with hb | ⟨j', hj', hp⟩
      · exact Or.inl hb
      · exact Or.inr ⟨j', List.mem_cons_of_mem _ hj', hp⟩
    · exact Or.inr ⟨j, List.mem_cons_self, h'⟩

theorem sumFrom_apply (base : CellTallies nD τ sig Unit) (f : Dev nD → CellTallies nD τ sig Unit) (g : GSem nD τ sig) (u : Unit) :
    ∀ l : List (Dev nD), sumFrom base f l g u = base g u + (l.map fun j => f j g u).sum
  | [] => by simp [sumFrom]
  | j :: js => by
    show (sumFrom base f js + f j) g u = _
    rw [Pi.add_apply, Finsupp.add_apply, sumFrom_apply base f g u js, List.map_cons, List.sum_cons]
    omega

theorem peers_eq : peers = List.finRange 32 := by decide

theorem sumFrom_peers (base : CellTallies nD τ sig Unit) (f : Dev nD → CellTallies nD τ sig Unit) (g : GSem nD τ sig) (u : Unit) :
    sumFrom base f peers g u = base g u + ∑ j : Dev nD, f j g u := by
  rw [sumFrom_apply, peers_eq, Fin.sum_univ_def]

theorem owedRecv_pos {c j : Dev nD} {g : GSem nD τ sig} {u : Unit} (h : 0 < owedRecv c j g u) : j ≠ c ∧ g = recvCell j c := by
  unfold owedRecv at h
  by_cases hj : j = c
  · rw [if_pos hj] at h; exact absurd h (Nat.lt_irrefl 0)
  · rw [if_neg hj] at h; exact ⟨hj, (Pipeline.tallyAt_pos h).1⟩

theorem owedBar_pos {c j : Dev nD} {g : GSem nD τ sig} {u : Unit} (h : 0 < owedBar c j g u) : j ≠ c ∧ g = barCell j := by
  unfold owedBar at h
  by_cases hj : j = c
  · rw [if_pos hj] at h; exact absurd h (Nat.lt_irrefl 0)
  · rw [if_neg hj] at h; exact ⟨hj, (Pipeline.tallyAt_pos h).1⟩

theorem O₁_pos {c : Dev nD} {g : GSem nD τ sig} {u : Unit} (h : 0 < O₁ c g u) : ∃ j, j ≠ c ∧ g = recvCell j c := by
  unfold O₁ at h
  rcases sumFrom_pos h with h0 | ⟨j, _, hj⟩
  · exact absurd h0 (Nat.lt_irrefl 0)
  · exact ⟨j, owedRecv_pos hj⟩

theorem O₀_pos {c : Dev nD} {g : GSem nD τ sig} {u : Unit} (h : 0 < O₀ c g u) :
    (∃ j, j ≠ c ∧ g = barCell j) ∨ (∃ j, j ≠ c ∧ g = recvCell j c) := by
  unfold O₀ at h
  rcases sumFrom_pos h with h1 | ⟨j, _, hj⟩
  · exact Or.inr (O₁_pos h1)
  · exact Or.inl ⟨j, owedBar_pos hj⟩

theorem lv_bar (c : Dev nD) (u : Unit) : lv (barCell c) u = 1 := if_pos rfl

theorem lv_recv (j c : Dev nD) (u : Unit) : lv (recvCell j c) u = 2 := by
  dsimp only [lv]
  rw [if_neg dma_ne_bar, recvOf_recv]
  rfl

theorem lv_low (c : Dev nD) (q : DmaSem sig) (hq : recvOf (.dma q : SemLoc sig) = none) (u : Unit) :
    lv ((c : Thread nD τ), (.dma q : SemLoc sig)) u = 0 := by
  dsimp only [lv]
  rw [if_neg dma_ne_bar, hq]
  rfl

-- At its barrier wait a device owes only receive credits, and those sit one level higher.
theorem mayWait_bar (c : Dev nD) :
    (levAts L lv : sProp 𝕄) ⊢ MayWait (c : Thread nD τ) (.reg barS) () (O₁ c) := by
  refine MayOwe.of_cut (L := L) (lev := lv) 1
    (fun p hp => by rw [Finset.mem_singleton.mp hp, L_tc]; exact Finset.mem_singleton_self _)
    (fun g u hg => by
      obtain ⟨j, _, rfl⟩ := O₁_pos hg
      rw [L_tc]; exact Finset.mem_singleton_self _)
    (fun p hp => by rw [Finset.mem_singleton.mp hp]; exact (lv_bar c ()).le)
    (fun g u hg => by
      obtain ⟨j, _, rfl⟩ := O₁_pos hg
      rw [lv_recv]; decide)

theorem mayWait_low (c : Dev nD) (q : DmaSem sig) (hq : recvOf (.dma q : SemLoc sig) = none)
    (O : CellTallies nD τ sig Unit) (hO : O = O₀ c ∨ O = O₁ c ∨ O = 0) :
    (levAts L lv : sProp 𝕄) ⊢ MayWait (c : Thread nD τ) (.dma q) () O := by
  have hpos : ∀ (g : GSem nD τ sig) (u : Unit), 0 < O g u →
      (∃ j, j ≠ c ∧ g = barCell j) ∨ (∃ j, j ≠ c ∧ g = recvCell j c) := by
    intro g u hg
    rcases hO with rfl | rfl | rfl
    · exact O₀_pos hg
    · exact Or.inr (O₁_pos hg)
    · exact absurd hg (Nat.lt_irrefl 0)
  refine MayOwe.of_cut (L := L) (lev := lv) 0
    (fun p hp => by rw [Finset.mem_singleton.mp hp, L_tc]; exact Finset.mem_singleton_self _)
    (fun g u hg => by
      rcases hpos g u hg with ⟨j, _, rfl⟩ | ⟨j, _, rfl⟩
      · rw [L_tc]; exact Finset.mem_singleton_self _
      · rw [L_tc]; exact Finset.mem_singleton_self _)
    (fun p hp => by rw [Finset.mem_singleton.mp hp]; exact (lv_low c q hq ()).le)
    (fun g u hg => by
      rcases hpos g u hg with ⟨j, _, rfl⟩ | ⟨j, _, rfl⟩
      · rw [lv_bar]; decide
      · rw [lv_recv]; decide)

theorem barCell_inj {a b : Dev nD} (h : barCell a = barCell b) : a = b :=
  Fin.ext (congrArg (fun g : GSem nD τ sig => g.1.1.val) h)

theorem recvS_inj {a b : Dev nD} (h : recvS a = recvS b) : a = b := by
  have h' : 40 + a.val = 40 + b.val := congrArg (fun q : DmaSem sig => q.val) h
  exact Fin.ext (by omega)

theorem recvCell_inj {a b i k : Dev nD} (h : recvCell a i = recvCell b k) : a = b ∧ i = k :=
  ⟨Fin.ext (congrArg (fun g : GSem nD τ sig => g.1.1.val) h), recvS_inj (SemLoc.dma.inj (congrArg Prod.snd h))⟩

theorem bar_ne_recv {c j d : Dev nD} : barCell c ≠ recvCell j d := fun h => dma_ne_bar (congrArg Prod.snd h).symm

theorem owed_bar_at (d c : Dev nD) : O₀ d (barCell c) () = if d = c then 0 else 1 := by
  have hR : ∑ j : Dev nD, owedRecv d j (barCell c) () = 0 :=
    Finset.sum_eq_zero fun j _ => Nat.eq_zero_of_not_pos fun hp => bar_ne_recv (owedRecv_pos hp).2
  have hB : ∑ j : Dev nD, owedBar d j (barCell c) () = owedBar d c (barCell c) () :=
    Finset.sum_eq_single c (fun j _ hj => Nat.eq_zero_of_not_pos fun hp => hj (barCell_inj (owedBar_pos hp).2).symm)
      (fun h => absurd (Finset.mem_univ c) h)
  unfold O₀ O₁
  rw [sumFrom_peers, sumFrom_peers, hR, hB]
  show 0 + 0 + owedBar d c (barCell c) () = _
  unfold owedBar
  by_cases h : c = d
  · subst h; rw [if_pos rfl, if_pos rfl]; rfl
  · rw [if_neg h, if_neg (Ne.symm h), tallyAt_self]

theorem owed_recv_at (d c i : Dev nD) : O₀ d (recvCell c i) () = if d = i ∧ i ≠ c then N else 0 := by
  have hB : ∑ j : Dev nD, owedBar d j (recvCell c i) () = 0 :=
    Finset.sum_eq_zero fun j _ => Nat.eq_zero_of_not_pos fun hp => bar_ne_recv (owedBar_pos hp).2.symm
  have hR : ∑ j : Dev nD, owedRecv d j (recvCell c i) () = owedRecv d c (recvCell c i) () :=
    Finset.sum_eq_single c (fun j _ hj => Nat.eq_zero_of_not_pos fun hp => hj (recvCell_inj (owedRecv_pos hp).2).1.symm)
      (fun h => absurd (Finset.mem_univ c) h)
  unfold O₀ O₁
  rw [sumFrom_peers, sumFrom_peers, hR, hB]
  show 0 + owedRecv d c (recvCell c i) () + 0 = _
  unfold owedRecv
  by_cases hcd : c = d
  · subst hcd
    rw [if_pos rfl, if_neg (fun hh : c = i ∧ i ≠ c => hh.2 hh.1.symm)]; rfl
  · rw [if_neg hcd, tallyAt_apply]
    by_cases hid : d = i
    · subst hid; rw [if_pos ⟨rfl, rfl⟩, if_pos ⟨rfl, Ne.symm hcd⟩, Nat.zero_add, Nat.add_zero]
    · rw [if_neg (fun hh => hid (recvCell_inj hh.1).2.symm), if_neg (fun hh => hid hh.1)]

theorem launch_bar (c : Dev nD) :
    tallyOn (barCell c) (launchCredit (Pipeline.owing O₀) 0 (barCell c))
      = (tallyAt (barCell c) () 31 : CellTallies nD τ sig Unit) := by
  unfold tallyAt
  refine congrArg _ (Finsupp.ext fun u => ?_)
  cases u
  rw [Pipeline.launchCredit_owing, Finsupp.single_eq_same, Finset.sum_congr rfl fun d _ => owed_bar_at d c,
    ← Finset.sum_erase_add _ _ (Finset.mem_univ c), if_pos rfl,
    Finset.sum_congr rfl (fun d hd => if_neg (Finset.ne_of_mem_erase hd)), Finset.sum_const,
    Finset.card_erase_of_mem (Finset.mem_univ c), Finset.card_univ, Fintype.card_fin]
  rfl

theorem launch_recv (c i : Dev nD) (h : i ≠ c) :
    tallyOn (recvCell c i) (launchCredit (Pipeline.owing O₀) 0 (recvCell c i))
      = (tallyAt (recvCell c i) () N : CellTallies nD τ sig Unit) := by
  unfold tallyAt
  refine congrArg _ (Finsupp.ext fun u => ?_)
  cases u
  rw [Pipeline.launchCredit_owing, Finsupp.single_eq_same, Finset.sum_congr rfl fun d _ => owed_recv_at d c i,
    Finset.sum_eq_single i (fun d _ hd => if_neg fun hh => hd hh.1) (fun hh => absurd (Finset.mem_univ i) hh),
    if_pos ⟨rfl, h⟩]

theorem peers_univ : (Finset.univ : Finset (Dev nD)) = peers.toFinset := by
  rw [peers_eq]
  exact Finset.ext fun j => by simp

theorem peers_nodup : peers.Nodup := by
  rw [peers_eq]
  exact List.nodup_finRange 32

theorem creds_of_launch (c : Dev nD) : (Pipeline.launchCred O₀ c : sProp 𝕄) ⊢ creds c := by
  unfold Pipeline.launchCred creds
  rw [bigSep_univ_at _ (SemLoc.reg barS), launch_bar]
  refine sep_mono_right ?_
  rw [← bigSep_univ_eq_bigSepL peers peers_univ peers_nodup (recvCred (F := F) c)]
  refine (bigSep_subset (t := Finset.univ.map
    ⟨fun i : Dev nD => (SemLoc.dma (recvS i) : SemLoc sig), fun a b hab => recvS_inj (SemLoc.dma.inj hab)⟩) ?_).trans ?_
  · intro sm hsm
    obtain ⟨i, _, rfl⟩ := Finset.mem_map.mp hsm
    exact Finset.mem_erase.mpr ⟨dma_ne_bar, Finset.mem_univ _⟩
  · rw [bigSep_map]
    refine bigSep_mono fun i _ => ?_
    unfold recvCred
    by_cases h : i = c
    · rw [if_pos h]; exact Idealize.SL.BI.affine
    · rw [if_neg h, ← launch_recv c i h]; exact .refl _

theorem waits (c : Dev nD) : (levAts L lv : sProp 𝕄) ⊢ Pipeline.cellsWaits cfgs (dats m ρ) () 0 c := by
  exact Pipeline.cellsWaits_intro cfgs (dats m ρ) () 0 c fun w s t =>
    mayWait_low c _ (by fin_cases w <;> fin_cases s <;> decide) _ (by
      rcases t with ⟨_ | _, ht⟩
      · exact Or.inl rfl
      · exact Or.inr (Or.inr rfl))

end Cert.KernelIdeal.Proto

end
-- ==== Proof.Launch.lean ====
import proofs.«900771_g7700000000000772_dist_diff_adaln_cshard_i_b4_s512_c256_v7x_i32_f32_1_alg».proof.Proof.RunSpec
import proofs.«900771_g7700000000000772_dist_diff_adaln_cshard_i_b4_s512_c256_v7x_i32_f32_1_alg».proof.Proof.Sched

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

def dmaIx (q : DmaSem sig) : Dev nD ⊕ (Dev nD ⊕ Fin 4) :=
  if h8 : q.val < 8 then .inr (.inr ⟨q.val - 4, by omega⟩)
  else if h40 : q.val < 40 then .inl ⟨q.val - 8, by show _ < 32; omega⟩
  else .inr (.inl ⟨q.val - 40, by have : q.val < 72 := q.isLt; show _ < 32; omega⟩)

def cellDec (g : GSem nD τ sig) : Dev nD × CIx :=
  (g.1.1, match g.2 with
    | .reg _ => .inl ()
    | .dma q => .inr (dmaIx q))

theorem dmaIx_send (j : Dev nD) : dmaIx (sendS j) = .inl j := by revert j; decide
theorem dmaIx_recv (i : Dev nD) : dmaIx (recvS i) = .inr (.inl i) := by revert i; decide
theorem dmaIx_copy (k : Fin 4) : dmaIx (copyS k) = .inr (.inr k) := by revert k; decide

theorem cellDec_kcell (ck : Dev nD × CIx) : cellDec (kcell ck) = ck := by
  obtain ⟨c, k⟩ := ck
  rcases k with _ | j | i | k
  · rfl
  · show (c, (Sum.inr (dmaIx (sendS j)) : CIx)) = _; rw [dmaIx_send]
  · show (c, (Sum.inr (dmaIx (recvS i)) : CIx)) = _; rw [dmaIx_recv]
  · show (c, (Sum.inr (dmaIx (copyS k)) : CIx)) = _; rw [dmaIx_copy]

theorem kcell_injective : Function.Injective (kcell : Dev nD × CIx → GSem nD τ sig) :=
  Function.LeftInverse.injective cellDec_kcell

def allCells : Finset (GSem nD τ sig) := Finset.univ.map ⟨kcell, kcell_injective⟩

abbrev TIx : Type := ((Dev nD × Dev nD) × Fin 3) ⊕ (Dev nD × Fin 4)

def tokOf : TIx → GSem nD τ sig × ℕ × Dev nD
  | .inl ((d, j), 0) => (barCell d, 0, j)
  | .inl ((d, j), 1) => (sendCell d j, 0, d)
  | .inl ((d, j), 2) => (recvCell d j, 0, j)
  | .inr (d, k) => (copyCell d k, 0, d)

def tokDec (x : GSem nD τ sig × ℕ × Dev nD) : TIx :=
  match (cellDec x.1).2 with
  | .inl _ => .inl (((cellDec x.1).1, x.2.2), 0)
  | .inr (.inl j) => .inl (((cellDec x.1).1, j), 1)
  | .inr (.inr (.inl i)) => .inl (((cellDec x.1).1, i), 2)
  | .inr (.inr (.inr k)) => .inr ((cellDec x.1).1, k)

theorem tokDec_tokOf (y : TIx) : tokDec (tokOf y) = y := by
  rcases y with ⟨⟨d, j⟩, k⟩ | ⟨d, k⟩
  · fin_cases k
    · show tokDec (kcell (d, .inl ()), 0, j) = _
      unfold tokDec; rw [cellDec_kcell]; rfl
    · show tokDec (kcell (d, .inr (.inl j)), 0, d) = _
      unfold tokDec; rw [cellDec_kcell]; rfl
    · show tokDec (kcell (d, .inr (.inr (.inl j))), 0, j) = _
      unfold tokDec; rw [cellDec_kcell]; rfl
  · show tokDec (kcell (d, .inr (.inr (.inr k))), 0, d) = _
    unfold tokDec; rw [cellDec_kcell]

theorem tokOf_injective : Function.Injective tokOf := Function.LeftInverse.injective tokDec_tokOf

abbrev TSub : Type := ({p : Dev nD × Dev nD // p.1 ≠ p.2} × Fin 3) ⊕ (Dev nD × Fin 4)

def tsubVal : TSub → TIx := Sum.map (Prod.map Subtype.val id) id

theorem tsubVal_injective : Function.Injective tsubVal :=
  Function.Injective.sumMap (Function.Injective.prodMap Subtype.val_injective Function.injective_id) Function.injective_id

def allToks : Finset (GSem nD τ sig × ℕ × Dev nD) :=
  Finset.univ.map ⟨tokOf ∘ tsubVal, tokOf_injective.comp tsubVal_injective⟩

def u₀ : UU :=
  (initOf (Pipeline.cells cfgs cellOf_inj) (Pipeline.launchToks cfgs cellOf_inj), initOf allCells allToks)

def tokA (c : Dev nD) : sProp 𝕄 := bigSep Finset.univ fun j : Dev nD => if j = c then iprop(emp) else dutyTok ER (barCell c) 0 j
def tokS (c : Dev nD) : sProp 𝕄 := bigSep Finset.univ fun j : Dev nD => if j = c then iprop(emp) else dutyTok ER (sendCell c j) 0 c
def tokR (c : Dev nD) : sProp 𝕄 := bigSep Finset.univ fun j : Dev nD => if j = c then iprop(emp) else dutyTok ER (recvCell c j) 0 j
def tokC (c : Dev nD) : sProp 𝕄 := bigSep Finset.univ fun k : Fin 4 => dutyTok ER (copyCell c k) 0 c
def toks (c : Dev nD) : sProp 𝕄 := iprop((tokA c ∗ tokS c ∗ tokR c) ∗ tokC c)

def G (c : Dev nD) : sProp 𝕄 :=
  iprop((bigSep Finset.univ fun k : CIx => roundState ER (sched m) (kcell (c, k)) 0)
    ∗ (bigSep Finset.univ fun k : CIx => iprop(atPos ER (kcell (c, k)) 0 ∅ 0 ∗ reached ER (kcell (c, k)) 0)) ∗ toks c)

def G' (c : Dev nD) : sProp 𝕄 := iprop(∃ K, ghost m K c)

omit [FloatOps F] in
theorem bigSep_fin3' (Φ : Fin 3 → sProp 𝕄) : bigSep Finset.univ Φ = iprop(Φ 0 ∗ Φ 1 ∗ Φ 2) :=
  bigSep_univ_eq_bigSepL [0, 1, 2] (by decide) (by decide) Φ

omit [FloatOps F] in

theorem bigSep_pairs (Ψ : Dev nD × Dev nD → sProp 𝕄) :
    (bigSep Finset.univ fun p : {p : Dev nD × Dev nD // p.1 ≠ p.2} => Ψ p.1)
      = bigSep Finset.univ fun d : Dev nD => bigSep Finset.univ fun j : Dev nD => if j = d then iprop(emp) else Ψ (d, j) := by
  rw [bigSep_subtype (fun p : Dev nD × Dev nD => p.1 ≠ p.2) Ψ, bigSep_filter, bigSep_univ_prod]
  refine bigSep_congr fun d _ => bigSep_congr fun j _ => ?_
  by_cases h : j = d
  · rw [if_pos h, if_neg (fun h' : d ≠ j => h' h.symm)]; rfl
  · rw [if_neg h, if_pos (fun h' : d = j => h h'.symm)]

omit [FloatOps F] in
theorem toks_minted : bigSep allToks (fun x => (dutyTok ER x.1 x.2.1 x.2.2 : sProp 𝕄)) = bigSep Finset.univ fun c : Dev nD => toks c := by
  unfold allToks
  rw [bigSep_map, bigSep_univ_sum, bigSep_univ_prod, bigSep_univ_prod]
  have h1 : (bigSep Finset.univ fun a : {p : Dev nD × Dev nD // p.1 ≠ p.2} => bigSep Finset.univ fun b : Fin 3 =>
        (dutyTok ER (tokOf (tsubVal (Sum.inl (a, b)))).1 (tokOf (tsubVal (Sum.inl (a, b)))).2.1 (tokOf (tsubVal (Sum.inl (a, b)))).2.2 : sProp 𝕄))
      = iprop((bigSep Finset.univ fun c : Dev nD => tokA c) ∗ (bigSep Finset.univ fun c : Dev nD => tokS c) ∗ (bigSep Finset.univ fun c : Dev nD => tokR c)) := by
    have hA := bigSep_pairs (F := F) (fun p => (dutyTok ER (barCell p.1) 0 p.2 : sProp 𝕄))
    have hS := bigSep_pairs (F := F) (fun p => (dutyTok ER (sendCell p.1 p.2) 0 p.1 : sProp 𝕄))
    have hR := bigSep_pairs (F := F) (fun p => (dutyTok ER (recvCell p.1 p.2) 0 p.2 : sProp 𝕄))
    rw [bigSep_congr (s := Finset.univ) fun (a : {p : Dev nD × Dev nD // p.1 ≠ p.2}) _ => bigSep_fin3' _, bigSep_sep', bigSep_sep']
    exact congrArg₂ BI.sep hA (congrArg₂ BI.sep hS hR)
  have h2 : (bigSep Finset.univ fun a : Dev nD => bigSep Finset.univ fun b : Fin 4 =>
        (dutyTok ER (tokOf (tsubVal (Sum.inr (a, b)))).1 (tokOf (tsubVal (Sum.inr (a, b)))).2.1 (tokOf (tsubVal (Sum.inr (a, b)))).2.2 : sProp 𝕄))
      = bigSep Finset.univ fun c : Dev nD => tokC c := rfl
  unfold toks
  rw [bigSep_sep', bigSep_sep', bigSep_sep']
  exact congrArg₂ BI.sep h1 h2

omit [FloatOps F] in

theorem bigSep_CIx (Φ : CIx → sProp 𝕄) :
    bigSep Finset.univ Φ = iprop(Φ (.inl ()) ∗ (bigSep Finset.univ fun j : Dev nD => Φ (.inr (.inl j)))
      ∗ (bigSep Finset.univ fun i : Dev nD => Φ (.inr (.inr (.inl i)))) ∗ bigSep Finset.univ fun k : Fin 4 => Φ (.inr (.inr (.inr k)))) := by
  rw [bigSep_univ_sum, bigSep_univ_sum, bigSep_univ_sum, bigSep_univ_of_subsingleton ()]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_minted (F := F))) $$ Htok
  unfold G; simp only [bigSep_sep']
  iframe Hst'
  isplitl [Hat' Hr']
  · isplitl [Hat'] <;> iassumption
  iexact Htok'

def semEquiv : Fin 4 ⊕ (Dev nD ⊕ Dev nD) ≃ Fin 68 := (Equiv.sumCongr (Equiv.refl (Fin 4)) finSumFinEquiv).trans finSumFinEquiv

theorem osem_copy (k : Fin 4) : osem (semEquiv (.inl k)) = .dma (copyS k) :=
  congrArg SemLoc.dma (Fin.ext (by show 4 + k.val = 4 + k.val; rfl))
theorem osem_send (j : Dev nD) : osem (semEquiv (.inr (.inl j))) = .dma (sendS j) :=
  congrArg SemLoc.dma (Fin.ext (by show 4 + (4 + j.val) = 8 + j.val; omega))
theorem osem_recv (i : Dev nD) : osem (semEquiv (.inr (.inr i))) = .dma (recvS i) :=
  congrArg SemLoc.dma (Fin.ext (by show 4 + (4 + (32 + i.val)) = 40 + i.val; omega))

omit [FloatOps F] in
theorem ownSems0_split (c : Dev nD) :
    (Pipeline.ownSems0 (Ix := Unit) (Name := ℕ) (U := UU) (Lvl := ℕ) (Val := Elt F) (τ := τ) osem c : sProp 𝕄)
      = iprop((bigSep Finset.univ fun k : Fin 4 => semVal (copyCell c k) 0) ∗ (bigSep Finset.univ fun j : Dev nD => semVal (sendCell c j) 0)
          ∗ bigSep Finset.univ fun i : Dev nD => semVal (recvCell c i) 0) := by
  unfold Pipeline.ownSems0
  rw [bigSep_univ_equiv semEquiv, bigSep_univ_sum, bigSep_univ_sum]
  refine congrArg₂ BI.sep (bigSep_congr fun k _ => ?_) (congrArg₂ BI.sep (bigSep_congr fun j _ => ?_) (bigSep_congr fun i _ => ?_))
  · rw [osem_copy]
  · rw [osem_send]
  · rw [osem_recv]

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_split, unscopedSems0_eq, bigSep_CIx]
  iintro ⟨⟨HC, HS, HV⟩, HB⟩
  iframe HB HS HV HC

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (sched m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  iframe Hinv Hat Htok

omit [FloatOps F] in
theorem myPos_eq (c : Dev nD) : (myPos c : sProp 𝕄) = bigSep Finset.univ fun k : CIx => atPos ER (kcell (c, k)) 0 ∅ 0 := by
  unfold myPos
  rw [bigSep_CIx, bigSep_univ_eq_bigSepL peers (by decide) (by decide), bigSep_univ_eq_bigSepL peers (by decide) (by decide),
    bigSep_univ_eq_bigSepL grps (by decide) (by decide)]

omit [FloatOps F] in
theorem payToks_eq (c : Dev nD) : (payToks c : sProp 𝕄)
    = iprop((bigSep Finset.univ fun j : Dev nD => sigTok c j) ∗ (bigSep Finset.univ fun j : Dev nD => sndTok c j) ∗ bigSep Finset.univ fun k : Fin 4 => cpyTok c k) := by
  unfold payToks
  rw [bigSep_univ_eq_bigSepL peers (by decide) (by decide) (fun j : Dev nD => (sigTok c j : sProp 𝕄)),
    bigSep_univ_eq_bigSepL peers (by decide) (by decide) (fun j : Dev nD => (sndTok c j : sProp 𝕄)),
    bigSep_univ_eq_bigSepL grps (by decide) (by decide) (fun k : Fin 4 => (cpyTok c k : sProp 𝕄))]

omit [FloatOps F] in
theorem ite_comm_emp (a b : Dev nD) (X : sProp 𝕄) : (if a = b then iprop(emp) else X) = (if b = a then iprop(emp) else X) := by
  by_cases h : a = b
  · rw [if_pos h, if_pos h.symm]
  · rw [if_neg h, if_neg fun h' => h h'.symm]

omit [FloatOps F] in
theorem ite_sep_emp (p : Prop) [Decidable p] (X Y : sProp 𝕄) :
    (if p then iprop(emp) else iprop(X ∗ Y)) = iprop((if p then iprop(emp) else X) ∗ (if p then iprop(emp) else Y)) := by
  by_cases h : p
  · rw [if_pos h, if_pos h, if_pos h]; exact (equiv_iff.mp emp_sep).symm
  · rw [if_neg h, if_neg h, if_neg h]

omit [FloatOps F] in

theorem sig_around : (bigSep Finset.univ fun c : Dev nD => bigSep Finset.univ fun j : Dev nD => (sigTok c j : sProp 𝕄)) = bigSep Finset.univ fun c : Dev nD => tokA c := by
  rw [bigSep_univ_comm]
  refine bigSep_congr fun d _ => ?_
  unfold tokA
  refine bigSep_congr fun c _ => ?_
  unfold sigTok
  exact ite_comm_emp d c _

omit [FloatOps F] in

theorem snd_around : (bigSep Finset.univ fun c : Dev nD => bigSep Finset.univ fun j : Dev nD => (sndTok c j : sProp 𝕄))
    = iprop((bigSep Finset.univ fun c : Dev nD => tokS c) ∗ bigSep Finset.univ fun c : Dev nD => tokR c) := by
  have h (c j : Dev nD) : (sndTok c j : sProp 𝕄)
      = iprop((if j = c then iprop(emp) else dutyTok ER (sendCell c j) 0 c) ∗ (if j = c then iprop(emp) else dutyTok ER (recvCell j c) 0 c)) := by
    unfold sndTok; exact ite_sep_emp _ _ _
  rw [bigSep_congr (s := Finset.univ) fun (c : Dev nD) _ => (bigSep_congr (s := Finset.univ) fun (j : Dev nD) _ => h c j).trans (bigSep_sep' _ _ _), bigSep_sep']
  refine congrArg₂ BI.sep rfl ?_
  rw [bigSep_univ_comm]
  refine bigSep_congr fun d _ => ?_
  unfold tokR
  refine bigSep_congr fun c _ => ?_
  exact ite_comm_emp d c _

omit [FloatOps F] in
theorem toks_around : (bigSep Finset.univ fun c : Dev nD => (toks c : sProp 𝕄)) ⊢ bigSep Finset.univ fun c : Dev nD => payToks c := by
  unfold toks
  rw [bigSep_congr (s := Finset.univ) fun (c : Dev nD) _ => payToks_eq (F := F) c, bigSep_sep', bigSep_sep', bigSep_sep', bigSep_sep', bigSep_sep',
    sig_around, snd_around]
  unfold tokC cpyTok
  iintro ⟨⟨HA, HS, HR⟩, HC⟩
  iframe HA
  isplitl [HS HR]
  · isplitl [HS] <;> iassumption
  iexact HC

theorem ghost_intro (K : Dev nD × CIx → ℕ) (c : Dev nD) :
    iprop(records m K ∗ ((bigSep Finset.univ fun k : CIx => atPos ER (kcell (c, k)) 0 ∅ 0) ∗ payToks c)) ⊢ G' m c := by
  unfold G' ghost
  rw [myPos_eq]
  iintro ⟨HR, HP, HT⟩
  iexists K
  iframe HR
  isplitl [HP] <;> iassumption

theorem regroup :
    (bigSep Finset.univ fun c : Dev nD => iprop((bigSep Finset.univ fun k : CIx => iprop(∃ κ : ℕ, cellInv ER (sched m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep']
    iframe Hat Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds_of_launch (F := F) c) $$ Hcr
  imodintro
  unfold start G' xPts xOf
  isplitl
  · isplitl [HG]; · iexact HG
    iframe Hc Hlev Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  iframe Hs Hr

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Hx, Hr, Hs⟩
  iframe Hx Hs Hr

theorem final_out (c : Dev nD) : (dats m ρ 0 c).arrAt (3 : Fin 4) cfg0.N = outAt m c := by
  have ho : ((cfg0.win (3 : Fin 4)).blk t₀).view.read (Elt F) ((dats m ρ 0 c).arrAt (3 : Fin 4) cfg0.N) = (dats m ρ 0 c).flushed (3 : Fin 4) t₀ := by
    rw [show cfg0.N = (t₀ : Fin cfg0.N).val + 1 from rfl, (dats m ρ 0 c).arrAt_succ (3 : Fin 4) t₀, flush0_3 t₀, if_pos rfl]
    exact View.read_write_univ _ _
  have hz : (fun a => (win0_3.index t₀) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

-- From every device's body to the run of the whole mesh: each wait sits at a level below all its waiter still owes.
set_option maxRecDepth 8000 in
theorem run_value (hbody : BodyOK F) : RunValue F := fun m ρ =>
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := xPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xPts xOf
      iintro ⟨Hx, -, HSI⟩
      icombine HSI Hx gives %hx
      imodintro
      isplitr; · ipureintro; exact Buf.eq_of_forall_mem_univ hx
      iexact HSI)
    (hQ := fun s h c => ⟨((h c).1 3).trans (final_out m ρ c), (h c).2.2,
      ((h c).1 0).trans ((dats m ρ 0 c).arrAt_in 0 rfl _),
      ((h c).1 1).trans ((dats m ρ 0 c).arrAt_in 1 rfl _),
      ((h c).1 2).trans ((dats m ρ 0 c).arrAt_in 2 rfl _)⟩)

end Cert.KernelIdeal.Proto

end
-- ==== Proof.CondTable.lean ====
import proofs.«900771_g7700000000000772_dist_diff_adaln_cshard_i_b4_s512_c256_v7x_i32_f32_1_alg».proof.Proof.Gen.KernelIdeal

namespace Cert.KernelIdeal.Proto

open Cert.KernelIdeal Cert.KernelIdeal.Gen Idealize.ShloMosaic

theorem cond1_iff (c : Dev nD) : k0_cond1 c = 1#1 ↔ (0 : Dev nD) ≠ c := by revert c; decide
theorem cond2_iff (c : Dev nD) : k0_cond2 c = 1#1 ↔ (1 : Dev nD) ≠ c := by revert c; decide
theorem cond3_iff (c : Dev nD) : k0_cond3 c = 1#1 ↔ (2 : Dev nD) ≠ c := by revert c; decide
theorem cond4_iff (c : Dev nD) : k0_cond4 c = 1#1 ↔ (3 : Dev nD) ≠ c := by revert c; decide
theorem cond5_iff (c : Dev nD) : k0_cond5 c = 1#1 ↔ (4 : Dev nD) ≠ c := by revert c; decide
theorem cond6_iff (c : Dev nD) : k0_cond6 c = 1#1 ↔ (5 : Dev nD) ≠ c := by revert c; decide
theorem cond7_iff (c : Dev nD) : k0_cond7 c = 1#1 ↔ (6 : Dev nD) ≠ c := by revert c; decide
theorem cond8_iff (c : Dev nD) : k0_cond8 c = 1#1 ↔ (7 : Dev nD) ≠ c := by revert c; decide
theorem cond9_iff (c : Dev nD) : k0_cond9 c = 1#1 ↔ (8 : Dev nD) ≠ c := by revert c; decide
theorem cond10_iff (c : Dev nD) : k0_cond10 c = 1#1 ↔ (9 : Dev nD) ≠ c := by revert c; decide
theorem cond11_iff (c : Dev nD) : k0_cond11 c = 1#1 ↔ (10 : Dev nD) ≠ c := by revert c; decide
theorem cond12_iff (c : Dev nD) : k0_cond12 c = 1#1 ↔ (11 : Dev nD) ≠ c := by revert c; decide
theorem cond13_iff (c : Dev nD) : k0_cond13 c = 1#1 ↔ (12 : Dev nD) ≠ c := by revert c; decide
theorem cond14_iff (c : Dev nD) : k0_cond14 c = 1#1 ↔ (13 : Dev nD) ≠ c := by revert c; decide
theorem cond15_iff (c : Dev nD) : k0_cond15 c = 1#1 ↔ (14 : Dev nD) ≠ c := by revert c; decide
theorem cond16_iff (c : Dev nD) : k0_cond16 c = 1#1 ↔ (15 : Dev nD) ≠ c := by revert c; decide
theorem cond17_iff (c : Dev nD) : k0_cond17 c = 1#1 ↔ (16 : Dev nD) ≠ c := by revert c; decide
theorem cond18_iff (c : Dev nD) : k0_cond18 c = 1#1 ↔ (17 : Dev nD) ≠ c := by revert c; decide
theorem cond19_iff (c : Dev nD) : k0_cond19 c = 1#1 ↔ (18 : Dev nD) ≠ c := by revert c; decide
theorem cond20_iff (c : Dev nD) : k0_cond20 c = 1#1 ↔ (19 : Dev nD) ≠ c := by revert c; decide
theorem cond21_iff (c : Dev nD) : k0_cond21 c = 1#1 ↔ (20 : Dev nD) ≠ c := by revert c; decide
theorem cond22_iff (c : Dev nD) : k0_cond22 c = 1#1 ↔ (21 : Dev nD) ≠ c := by revert c; decide
theorem cond23_iff (c : Dev nD) : k0_cond23 c = 1#1 ↔ (22 : Dev nD) ≠ c := by revert c; decide
theorem cond24_iff (c : Dev nD) : k0_cond24 c = 1#1 ↔ (23 : Dev nD) ≠ c := by revert c; decide
theorem cond25_iff (c : Dev nD) : k0_cond25 c = 1#1 ↔ (24 : Dev nD) ≠ c := by revert c; decide
theorem cond26_iff (c : Dev nD) : k0_cond26 c = 1#1 ↔ (25 : Dev nD) ≠ c := by revert c; decide
theorem cond27_iff (c : Dev nD) : k0_cond27 c = 1#1 ↔ (26 : Dev nD) ≠ c := by revert c; decide
theorem cond28_iff (c : Dev nD) : k0_cond28 c = 1#1 ↔ (27 : Dev nD) ≠ c := by revert c; decide
theorem cond29_iff (c : Dev nD) : k0_cond29 c = 1#1 ↔ (28 : Dev nD) ≠ c := by revert c; decide
theorem cond30_iff (c : Dev nD) : k0_cond30 c = 1#1 ↔ (29 : Dev nD) ≠ c := by revert c; decide
theorem cond31_iff (c : Dev nD) : k0_cond31 c = 1#1 ↔ (30 : Dev nD) ≠ c := by revert c; decide
theorem cond32_iff (c : Dev nD) : k0_cond32 c = 1#1 ↔ (31 : Dev nD) ≠ c := by revert c; decide
theorem cond33_iff (c : Dev nD) : k0_cond33 c = 1#1 ↔ (0 : Dev nD) ≠ c := by revert c; decide
theorem cond34_iff (c : Dev nD) : k0_cond34 c = 1#1 ↔ (1 : Dev nD) ≠ c := by revert c; decide
theorem cond35_iff (c : Dev nD) : k0_cond35 c = 1#1 ↔ (2 : Dev nD) ≠ c := by revert c; decide
theorem cond36_iff (c : Dev nD) : k0_cond36 c = 1#1 ↔ (3 : Dev nD) ≠ c := by revert c; decide
theorem cond37_iff (c : Dev nD) : k0_cond37 c = 1#1 ↔ (4 : Dev nD) ≠ c := by revert c; decide
theorem cond38_iff (c : Dev nD) : k0_cond38 c = 1#1 ↔ (5 : Dev nD) ≠ c := by revert c; decide
theorem cond39_iff (c : Dev nD) : k0_cond39 c = 1#1 ↔ (6 : Dev nD) ≠ c := by revert c; decide
theorem cond40_iff (c : Dev nD) : k0_cond40 c = 1#1 ↔ (7 : Dev nD) ≠ c := by revert c; decide
theorem cond41_iff (c : Dev nD) : k0_cond41 c = 1#1 ↔ (8 : Dev nD) ≠ c := by revert c; decide
theorem cond42_iff (c : Dev nD) : k0_cond42 c = 1#1 ↔ (9 : Dev nD) ≠ c := by revert c; decide
theorem cond43_iff (c : Dev nD) : k0_cond43 c = 1#1 ↔ (10 : Dev nD) ≠ c := by revert c; decide
theorem cond44_iff (c : Dev nD) : k0_cond44 c = 1#1 ↔ (11 : Dev nD) ≠ c := by revert c; decide
theorem cond45_iff (c : Dev nD) : k0_cond45 c = 1#1 ↔ (12 : Dev nD) ≠ c := by revert c; decide
theorem cond46_iff (c : Dev nD) : k0_cond46 c = 1#1 ↔ (13 : Dev nD) ≠ c := by revert c; decide
theorem cond47_iff (c : Dev nD) : k0_cond47 c = 1#1 ↔ (14 : Dev nD) ≠ c := by revert c; decide
theorem cond48_iff (c : Dev nD) : k0_cond48 c = 1#1 ↔ (15 : Dev nD) ≠ c := by revert c; decide
theorem cond49_iff (c : Dev nD) : k0_cond49 c = 1#1 ↔ (16 : Dev nD) ≠ c := by revert c; decide
theorem cond50_iff (c : Dev nD) : k0_cond50 c = 1#1 ↔ (17 : Dev nD) ≠ c := by revert c; decide
theorem cond51_iff (c : Dev nD) : k0_cond51 c = 1#1 ↔ (18 : Dev nD) ≠ c := by revert c; decide
theorem cond52_iff (c : Dev nD) : k0_cond52 c = 1#1 ↔ (19 : Dev nD) ≠ c := by revert c; decide
theorem cond53_iff (c : Dev nD) : k0_cond53 c = 1#1 ↔ (20 : Dev nD) ≠ c := by revert c; decide
theorem cond54_iff (c : Dev nD) : k0_cond54 c = 1#1 ↔ (21 : Dev nD) ≠ c := by revert c; decide
theorem cond55_iff (c : Dev nD) : k0_cond55 c = 1#1 ↔ (22 : Dev nD) ≠ c := by revert c; decide
theorem cond56_iff (c : Dev nD) : k0_cond56 c = 1#1 ↔ (23 : Dev nD) ≠ c := by revert c; decide
theorem cond57_iff (c : Dev nD) : k0_cond57 c = 1#1 ↔ (24 : Dev nD) ≠ c := by revert c; decide
theorem cond58_iff (c : Dev nD) : k0_cond58 c = 1#1 ↔ (25 : Dev nD) ≠ c := by revert c; decide
theorem cond59_iff (c : Dev nD) : k0_cond59 c = 1#1 ↔ (26 : Dev nD) ≠ c := by revert c; decide
theorem cond60_iff (c : Dev nD) : k0_cond60 c = 1#1 ↔ (27 : Dev nD) ≠ c := by revert c; decide
theorem cond61_iff (c : Dev nD) : k0_cond61 c = 1#1 ↔ (28 : Dev nD) ≠ c := by revert c; decide
theorem cond62_iff (c : Dev nD) : k0_cond62 c = 1#1 ↔ (29 : Dev nD) ≠ c := by revert c; decide
theorem cond63_iff (c : Dev nD) : k0_cond63 c = 1#1 ↔ (30 : Dev nD) ≠ c := by revert c; decide
theorem cond64_iff (c : Dev nD) : k0_cond64 c = 1#1 ↔ (31 : Dev nD) ≠ c := by revert c; decide

end Cert.KernelIdeal.Proto
-- ==== Proof.BodyLib.lean ====
import proofs.«900771_g7700000000000772_dist_diff_adaln_cshard_i_b4_s512_c256_v7x_i32_f32_1_alg».proof.Proof.RunSpec
import proofs.«900771_g7700000000000772_dist_diff_adaln_cshard_i_b4_s512_c256_v7x_i32_f32_1_alg».proof.Proof.Sched
import proofs.«900771_g7700000000000772_dist_diff_adaln_cshard_i_b4_s512_c256_v7x_i32_f32_1_alg».proof.Proof.CondTable

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev devWord (c : Dev nD) : BitVec 32 := Scalar.remsi (Scalar.divsi (Dev.word c) 1#32) 32#32
theorem devWord_eq (c : Dev nD) : devWord c = BitVec.ofNat 32 c.val := by revert c; decide

theorem inv_at (K : Dev nD × CIx → ℕ) (ck : Dev nD × CIx) :
    (bigSep Finset.univ fun ck : Dev nD × CIx => (cellInv ER (sched m) (K ck) (kcell ck) : sProp 𝕄)) ⊢ cellInv ER (sched m) (K ck) (kcell ck) :=
  bigSep_elim (Finset.mem_univ ck)
theorem reached_at (ck : Dev nD × CIx) :
    (bigSep Finset.univ fun ck : Dev nD × CIx => (reached ER (kcell ck) 0 : sProp 𝕄)) ⊢ reached ER (kcell ck) 0 :=
  bigSep_elim (Finset.mem_univ ck)

def slotIf (c j : Dev nD) : sProp 𝕄 := if j = c then iprop(emp) else iprop(∃ f, slotPts c j f)

def barIf (c j : Dev nD) : sProp 𝕄 := if j = c then iprop(emp) else barPay c j

def stIf (c j : Dev nD) : sProp 𝕄 := if j = c then iprop(emp) else stPts m c (Transfers.shareTok fullShare 32 j)

def sendCr (c j : Dev nD) : sProp 𝕄 := if j = c then iprop(emp) else cred (tallyAt (sendCell c j) () N)

def slotGot (c i : Dev nD) : sProp 𝕄 := if i = c then iprop(emp) else slotPts c i (gathAll m)

theorem bigSepL_cons_sep {I : Type} (i : I) (l : List I) (Φ : I → sProp 𝕄) : bigSepL (i :: l) Φ = iprop(Φ i ∗ bigSepL l Φ) := bigSepL_cons i l Φ

theorem wp_sig_block (K : Dev nD × CIx → ℕ) (c j : Dev nD) (cond : BitVec 1) (dev : ℕ) (hlt : cond = 1#1 → dev < nD)
    (hc : cond = 1#1 ↔ j ≠ c) (hd : dev = j.val)
    (O : CellTallies nD τ sig Unit) (W : Waits sig Unit) {α : Type}
    (k : PUnit → Prog (TpuEff nD τ sig (Elt F) Λ₀ .tc) α) (Q : α → sProp 𝕄) :
    iprop(records m K ∗ owes (c : Thread nD τ) (O + owedBar c j) W ∗ sigTok c j ∗ slotIf c j
        ∗ (owes (c : Thread nD τ) O W -∗ wp frame (wpE (defs₀ (F := F)) 𝒱₀ c none) Set.univ (k ⟨⟩) Q))
      ⊢ wp frame (wpE (defs₀ (F := F)) 𝒱₀ c none) Set.univ
          (if h : cond = 1#1 then (do semSignalWord (⟨dev, hlt h⟩ : Dev nD) barS 1#32 hamt_1; k ⟨⟩) else k ⟨⟩) Q := by
  subst hd
  by_cases hj : j = c
  · subst hj
    have hn : ¬ cond = 1#1 := fun h => (hc.mp h) rfl
    rw [dif_neg hn]
    unfold owedBar sigTok slotIf; rw [if_pos rfl, if_pos rfl, if_pos rfl, add_zero]
    iintro ⟨-, HO, -, -, Hk⟩
    iapply Hk; iexact HO
  · have hp : cond = 1#1 := hc.mpr hj
    rw [dif_pos hp]
    unfold owedBar sigTok slotIf; rw [if_neg hj, if_neg hj, if_neg hj]
    simp only [semSignalWord, Prog.bind_op, Prog.bind_ret, bind, Prog.bind]
    iintro ⟨#HR, HO, Htok, ⟨%f, Hslot⟩, Hk⟩
    unfold records
    icases HR with ⟨#HI, #Hre⟩
    iapply (Rounds.wp_signal 𝒱₀ ER (sched m) (c : Thread nD τ) none (dst := (j : Thread nD τ)) (sem := barS) (r := 0) (κ := K (j, .inl ()))
        (d := c) (k' := (1#32).toNat) (by rw [duties_bar]; exact Finset.mem_erase.mpr ⟨Ne.symm hj, Finset.mem_univ _⟩)
        (amount_bar m j c) () O rfl) $$ [HO Htok Hslot]
    · isplitr; · iapply (inv_at m K (j, .inl ())); iexact HI
      isplitl [HO]; · iexact HO
      isplitl [Htok]; · iexact Htok
      isplitl [Hslot]
      · rw [payload_bar]; unfold barPay
        isplitl [Hslot]; · iexists f; iexact Hslot
        iapply (reached_at (F := F) (c, .inr (.inr (.inl j)))); iexact Hre
      · iapply (reached_at (F := F) (j, .inl ())); iexact Hre
    iintro HO
    iapply Hk; iexact HO

end Cert.KernelIdeal.Proto

end
-- ==== Proof.BodyA.lean ====
import proofs.«900771_g7700000000000772_dist_diff_adaln_cshard_i_b4_s512_c256_v7x_i32_f32_1_alg».proof.Proof.BodyLib

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barV : Sems sig S_ := SemArray.scalar (sig.barrier 0 rfl)

abbrev seg1 : List (Dev nD) := [0, 1, 2, 3, 4, 5, 6, 7]
abbrev seg2 : List (Dev nD) := [8, 9, 10, 11, 12, 13, 14, 15, 16, 17]
abbrev seg3 : List (Dev nD) := [18, 19, 20, 21, 22, 23, 24, 25, 26, 27]
abbrev seg4 : List (Dev nD) := [28, 29, 30, 31]

set_option hygiene false in

macro "sig_step" j:term:max hc:term:max hd:term:max : tactic => `(tactic| (
  icases Hsig with ⟨Ht, Hsig⟩
  icases Hslots with ⟨Hs, Hslots⟩
  iapply (wp_sig_block m K c $j _ _ _ $hc $hd _ W (k := fun (_ : PUnit.{1}) => _) Q)
  iframe HR HO Ht Hs
  iintro HO))

set_option maxRecDepth 8000 in

theorem part1_run (K : Dev nD × CIx → ℕ) (c : Dev nD) (O : CellTallies nD τ sig Unit) (W : Waits sig Unit)
    (Q : (Σ' (d0 : Dev nD) (v2 : BitVec 32), Sems sig S_) → sProp 𝕄) :
    iprop(records m K ∗ owes (c : Thread nD τ) (sumFrom O (owedBar c) seg1) W ∗ bigSepL seg1 (sigTok c) ∗ bigSepL seg1 (slotIf c)
        ∗ (owes (c : Thread nD τ) O W -∗ Q ⟨c, devWord c, barV⟩))
      ⊢ wp frame (wpE (defs₀ (F := F)) 𝒱₀ c none) Set.univ (k0_part1 (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5) Q := by
  rw [k0_part1_eq_skeleton]; unfold k0_part1_skel
  rw [Prog.lift, Prog.bind_op, wp_deviceId]
  simp (config := {zeta := false}) only [seg1, sumFrom, bigSepL_cons_sep, bigSepL_nil, Prog.bind_ret]
  iintro ⟨#HR, HO, Hsig, Hslots, Hk⟩
  sig_step 0 (cond1_iff c) k0_dev1_eq
  sig_step 1 (cond2_iff c) k0_dev2_eq
  sig_step 2 (cond3_iff c) k0_dev3_eq
  sig_step 3 (cond4_iff c) k0_dev4_eq
  sig_step 4 (cond5_iff c) k0_dev5_eq
  sig_step 5 (cond6_iff c) k0_dev6_eq
  sig_step 6 (cond7_iff c) k0_dev7_eq
  sig_step 7 (cond8_iff c) k0_dev8_eq
  simp only [Prog.pure_eq_ret, wp_ret]
  imodintro
  iapply Hk; iexact HO

set_option maxRecDepth 8000 in

theorem part2_run (K : Dev nD × CIx → ℕ) (c : Dev nD) (O : CellTallies nD τ sig Unit) (W : Waits sig Unit)
    (Q : PUnit → sProp 𝕄) :
    iprop(records m K ∗ owes (c : Thread nD τ) (sumFrom O (owedBar c) seg2) W ∗ bigSepL seg2 (sigTok c) ∗ bigSepL seg2 (slotIf c)
        ∗ (owes (c : Thread nD τ) O W -∗ Q ⟨⟩))
      ⊢ wp frame (wpE (defs₀ (F := F)) 𝒱₀ c none) Set.univ (k0_part2 (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5 c (devWord c) barV) Q := by
  rw [k0_part2_eq_skeleton]; unfold k0_part2_skel
  simp (config := {zeta := false}) only [seg2, sumFrom, bigSepL_cons_sep, bigSepL_nil]
  iintro ⟨#HR, HO, Hsig, Hslots, Hk⟩
  sig_step 8 (cond9_iff c) k0_dev9_eq
  sig_step 9 (cond10_iff c) k0_dev10_eq
  sig_step 10 (cond11_iff c) k0_dev11_eq
  sig_step 11 (cond12_iff c) k0_dev12_eq
  sig_step 12 (cond13_iff c) k0_dev13_eq
  sig_step 13 (cond14_iff c) k0_dev14_eq
  sig_step 14 (cond15_iff c) k0_dev15_eq
  sig_step 15 (cond16_iff c) k0_dev16_eq
  sig_step 16 (cond17_iff c) k0_dev17_eq
  sig_step 17 (cond18_iff c) k0_dev18_eq
  simp only [Prog.pure_eq_ret, wp_ret]
  imodintro
  iapply Hk; iexact HO

set_option maxRecDepth 8000 in

theorem part3_run (K : Dev nD × CIx → ℕ) (c : Dev nD) (O : CellTallies nD τ sig Unit) (W : Waits sig Unit)
    (Q : PUnit → sProp 𝕄) :
    iprop(records m K ∗ owes (c : Thread nD τ) (sumFrom O (owedBar c) seg3) W ∗ bigSepL seg3 (sigTok c) ∗ bigSepL seg3 (slotIf c)
        ∗ (owes (c : Thread nD τ) O W -∗ Q ⟨⟩))
      ⊢ wp frame (wpE (defs₀ (F := F)) 𝒱₀ c none) Set.univ (k0_part3 (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5 c (devWord c) barV) Q := by
  rw [k0_part3_eq_skeleton]; unfold k0_part3_skel
  simp (config := {zeta := false}) only [seg3, sumFrom, bigSepL_cons_sep, bigSepL_nil]
  iintro ⟨#HR, HO, Hsig, Hslots, Hk⟩
  sig_step 18 (cond19_iff c) k0_dev19_eq
  sig_step 19 (cond20_iff c) k0_dev20_eq
  sig_step 20 (cond21_iff c) k0_dev21_eq
  sig_step 21 (cond22_iff c) k0_dev22_eq
  sig_step 22 (cond23_iff c) k0_dev23_eq
  sig_step 23 (cond24_iff c) k0_dev24_eq
  sig_step 24 (cond25_iff c) k0_dev25_eq
  sig_step 25 (cond26_iff c) k0_dev26_eq
  sig_step 26 (cond27_iff c) k0_dev27_eq
  sig_step 27 (cond28_iff c) k0_dev28_eq
  simp only [Prog.pure_eq_ret, wp_ret]
  imodintro
  iapply Hk; iexact HO

end Cert.KernelIdeal.Proto

end
-- ==== Proof.Regions.lean ====
import proofs.«900771_g7700000000000772_dist_diff_adaln_cshard_i_b4_s512_c256_v7x_i32_f32_1_alg».proof.Proof.Data
import Idealize.ShloMosaic.Lib.Pipeline.Value
import Idealize.ShloMosaic.Lib.ValueLayout
import Idealize.ShloMosaic.Lib.Transfers

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem slot_emb (i : Dev nD) (s : Fin 2) (k : Fin 4) (r : Fin 512) :
    (slotM i).view.emb (ix3 s k r) = (ix4 i s k r : S32x2x4x512.Idx) := by
  show (Rect.unit (s := S32x2x4x512) ![i.val, 0, 0, 0] S1x2x4x512.size (slot_inb i)).emb
      (Shape.reshapeEquiv _ (ix3 s k r)) = _
  rw [reshapeEquiv_ix3_1abc]
  funext a
  apply Fin.ext
  rw [Rect.emb_apply]
  match a with
  | ⟨0, _⟩ => show i.val + 1 * 0 = i.val; omega
  | ⟨1, _⟩ => show 0 + 1 * s.val = s.val; omega
  | ⟨2, _⟩ => show 0 + 1 * k.val = k.val; omega
  | ⟨3, _⟩ => show 0 + 1 * r.val = r.val; omega

theorem cast_cast_self {α β : Type} (h1 : α = β) (h2 : β = α) (a : α) : cast h2 (cast h1 a) = a := by
  subst h1; rfl

theorem land_slot (c d : Dev nD) (fd : Buf (Elt F) ((slotM c).view.loc (d : Thread nD τ))) :
    ((slotM c).view.loc (d : Thread nD τ) ↦[(slotM c).view.set]{fullShare}
        ((slotM c).view.write (Elt F) fd
          ((stM : Memref sig .tc .vmem S2x4x512 .bf16).view.read (Elt F) (sentOf m c)) Finset.univ) : sProp 𝕄)
      ⊢ recvPay m d c := by
  unfold recvPay slotPts
  refine Entails.of_eq (pointsTo_congr fun i hi => ?_)
  obtain ⟨y, rfl⟩ := View.exists_emb_of_mem_set _ hi
  obtain ⟨s, k, r, rfl⟩ : ∃ (s : Fin 2) (k : Fin 4) (r : Fin 512), y = ix3 s k r := ⟨y 0, y 1, y 2, eq_ix3 y⟩
  refine (View.write_emb_of_mem _ _ (Finset.mem_univ _)).trans ?_
  rw [slot_emb]
  exact cast_cast_self _ _ _

theorem land_copy (c : Dev nD) (k : Fin 4) (fd : Buf (Elt F) ((xvSl k).view.loc (c : Thread nD τ))) :
    iprop(((xvSl k).view.loc (c : Thread nD τ) ↦[(xvSl k).view.set]{fullShare}
        ((xvSl k).view.write (Elt F) fd ((xSl k).view.read (Elt F) (xOf m c)) Finset.univ))
      ∗ ((xSl k).view.loc (c : Thread nD τ) ↦[(xSl k).view.set]{fullShare} xOf m c)) ⊢ (copyPay m c k : sProp 𝕄) := by
  unfold copyPay
  refine sep_mono_left (Entails.of_eq (pointsTo_congr fun i hi => ?_))
  obtain ⟨y, rfl⟩ := View.exists_emb_of_mem_set _ hi
  refine (View.write_emb_of_mem _ _ (Finset.mem_univ _)).trans ?_
  exact cast_cast_self _ _ _

theorem tile_eq {ℓ : Loc nD τ sig} {T : Type} [Fintype T] [DecidableEq T] (l : List T)
    (hl : Finset.univ = l.toFinset) (hn : l.Nodup) (K : T → Finset (Idx ℓ)) (key : Idx ℓ → T)
    (hK : ∀ t i, i ∈ K t ↔ key i = t) (q : PosShare TreeShare) (f : Buf (Elt F) ℓ) :
    (ℓ ↦{q} f : sProp 𝕄) = bigSepL l fun t => ℓ ↦[K t]{q} f := by
  have hU : (Finset.univ : Finset (Idx ℓ)) = Finset.univ.biUnion K := by
    ext i
    simp only [Finset.mem_univ, Finset.mem_biUnion, true_and, true_iff]
    exact ⟨key i, (hK _ i).mpr rfl⟩
  rw [hU, pointsTo_biUnion _ _ (fun t _ t' _ hne => Finset.disjoint_left.mpr fun i hi hj =>
      hne (((hK t i).mp hi).symm.trans ((hK t' i).mp hj))),
    bigSep_univ_eq_bigSepL l hl hn]

theorem slot_set (i : Dev nD) :
    (slotM i).view.set = (Rect.unit (s := S32x2x4x512) ![i.val, 0, 0, 0] S1x2x4x512.size (slot_inb i)).set :=
  (View.set_reshape _ _).trans (View.set_slice_whole _ _)

-- A rectangle that is one layer of axis z and whole on every other axis holds exactly the indices whose z coordinate is that layer.
theorem mem_layer {s : Shape} {off size : Fin s.rank → ℕ} {inb : ∀ a, off a + size a ≤ s.size a} (z : Fin s.rank)
    (hz : size z = 1) (hr : ∀ a, a ≠ z → off a = 0 ∧ size a = s.size a) (idx : s.Idx) :
    idx ∈ (Rect.unit (s := s) off size inb).set ↔ (idx z).val = off z := by
  rw [Rect.mem_set_unit]
  constructor
  · intro h; have := h z; omega
  · intro h a
    by_cases ha : a = z
    · subst ha; omega
    · have := (idx a).isLt; rw [(hr a ha).1, (hr a ha).2]; omega

theorem mem_slot (i : Dev nD) (idx : S32x2x4x512.Idx) : idx ∈ (slotM i).view.set ↔ idx 0 = i := by
  rw [slot_set, mem_layer 0 rfl (fun a ha => by fin_cases a <;> first | exact absurd rfl ha | exact ⟨rfl, rfl⟩)]
  exact ⟨fun h => Fin.ext h, fun h => congrArg Fin.val h⟩

theorem g_tile (c : Dev nD) (f : Buf (Elt F) ((c : Thread nD τ).loc cc0_scratch2)) :
    (((c : Thread nD τ).loc cc0_scratch2) ↦{fullShare} f : sProp 𝕄) = bigSepL peers (fun i => slotPts c i f) :=
  tile_eq (F := F) (ℓ := (c : Thread nD τ).loc cc0_scratch2) peers (by decide) (by decide)
    (fun i : Dev nD => (slotM i).view.set) (fun idx : S32x2x4x512.Idx => (idx 0 : Dev nD))
    (fun i idx => mem_slot i idx) fullShare f

def keepOwn (c : Dev nD) (f : Buf (Elt F) ((c : Thread nD τ).loc cc0_scratch2)) :
    Buf (Elt F) ((c : Thread nD τ).loc cc0_scratch2) :=
  fun idx : S32x2x4x512.Idx => if (idx 0).val = c.val then f idx else gathAll m idx

theorem keepOwn_off (c : Dev nD) (f : Buf (Elt F) ((c : Thread nD τ).loc cc0_scratch2)) (idx : S32x2x4x512.Idx)
    (hne : (idx 0).val ≠ c.val) : keepOwn m c f idx = gathAll m idx := by
  unfold keepOwn
  rw [if_neg hne]

theorem slot_keepOwn (c i : Dev nD) (f : Buf (Elt F) ((c : Thread nD τ).loc cc0_scratch2)) :
    (if i = c then slotPts c c f else slotPts (F := F) c i (gathAll m)) = slotPts c i (keepOwn m c f) := by
  by_cases h : i = c
  · subst h
    rw [if_pos rfl]
    unfold slotPts
    exact pointsTo_congr fun idx hidx => by
      have e : (idx 0 : Dev nD) = i := (mem_slot i idx).mp hidx
      show f idx = if (idx 0).val = i.val then f idx else gathAll m idx
      rw [if_pos (congrArg Fin.val e)]
  · rw [if_neg h]
    unfold slotPts
    exact pointsTo_congr fun idx hidx => by
      have e : (idx 0 : Dev nD) = i := (mem_slot i idx).mp hidx
      show gathAll m idx = if (idx 0).val = c.val then f idx else gathAll m idx
      rw [if_neg (fun e' => h (Fin.ext ((congrArg Fin.val e).symm.trans e')))]

theorem g_join (c : Dev nD) (f : Buf (Elt F) ((c : Thread nD τ).loc cc0_scratch2)) :
    bigSepL peers (fun i => if i = c then slotPts c c f else slotPts (F := F) c i (gathAll m))
      ⊢ (iprop(∃ g : Buf (Elt F) ((c : Thread nD τ).loc cc0_scratch2),
          ⌜∀ idx, (idx 0).val ≠ c.val → g idx = gathAll m idx⌝ ∗ (((c : Thread nD τ).loc cc0_scratch2) ↦{fullShare} g)) : sProp 𝕄) := by
  have hpt : (fun i : Dev nD => if i = c then slotPts c c f else slotPts (F := F) c i (gathAll m))
      = fun i => slotPts c i (keepOwn m c f) := funext fun i => slot_keepOwn m c i f
  rw [hpt, ← g_tile c (keepOwn m c f)]
  iintro H
  iexists (keepOwn m c f)
  isplitr
  · ipureintro
    exact fun idx hne => keepOwn_off m c f idx hne
  · iexact H

theorem st_toks (c : Dev nD) :
    (((c : Thread nD τ).loc cc0_scratch1) ↦{fullShare} sentOf m c : sProp 𝕄)
      ⊣⊢ iprop(stPts m c (Transfers.shareDrop fullShare 32) ∗ bigSepL peers (fun j => stPts m c (Transfers.shareTok fullShare 32 j))) := by
  have h := Transfers.pointsTo_toks (nD := nD) (τ := τ) (sig := sig) (Ix := Unit) (Val := Elt F) (Name := ℕ) (U := UU) (Lvl := ℕ)
    (ℓ := (c : Thread nD τ).loc cc0_scratch1) (S := Finset.univ) (f := sentOf m c) fullShare 32
  rw [bigSep_univ_eq_bigSepL peers (by decide) (by decide)] at h
  unfold stPts
  rw [View.set_whole]
  exact h

theorem xSl_set (k : Fin 4) :
    (xSl k).view.set = (Rect.unit (s := S4x512x256) ![k.val, 0, 0] S1x512x256.size (grp_inb k)).set :=
  (View.set_reshape _ _).trans (View.set_slice_whole _ _)

theorem xvSl_set (k : Fin 4) :
    (xvSl k).view.set = (Rect.unit (s := S4x512x256) ![k.val, 0, 0] S1x512x256.size (grp_inb k)).set :=
  (View.set_reshape _ _).trans (View.set_slice_whole _ _)

theorem mem_grp (k : Fin 4) (idx : S4x512x256.Idx) :
    idx ∈ (Rect.unit (s := S4x512x256) ![k.val, 0, 0] S1x512x256.size (grp_inb k)).set ↔ idx 0 = k := by
  rw [mem_layer 0 rfl (fun a ha => by fin_cases a <;> first | exact absurd rfl ha | exact ⟨rfl, rfl⟩)]
  exact ⟨fun h => Fin.ext h, fun h => congrArg Fin.val h⟩

theorem mem_xSl (k : Fin 4) (idx : S4x512x256.Idx) : idx ∈ (xSl k).view.set ↔ idx 0 = k := by
  rw [xSl_set]; exact mem_grp k idx

theorem mem_xvSl (k : Fin 4) (idx : S4x512x256.Idx) : idx ∈ (xvSl k).view.set ↔ idx 0 = k := by
  rw [xvSl_set]; exact mem_grp k idx

theorem x_tile (c : Dev nD) :
    (xPts m c : sProp 𝕄)
      = bigSepL grps (fun k => ((xSl k).view.loc (c : Thread nD τ) ↦[(xSl k).view.set]{fullShare} xOf m c : sProp 𝕄)) := by
  unfold xPts
  exact tile_eq (F := F) (ℓ := (c : Thread nD τ).loc main_arg0) grps (by decide) (by decide)
    (fun k : Fin 4 => (xSl k).view.set) (fun idx : S4x512x256.Idx => (idx 0 : Fin 4))
    (fun k idx => mem_xSl k idx) fullShare (xOf m c)

theorem xv_tile (c : Dev nD) (f : Buf (Elt F) ((c : Thread nD τ).loc cc0_scratch0)) :
    (((c : Thread nD τ).loc cc0_scratch0) ↦{fullShare} f : sProp 𝕄)
      = bigSepL grps (fun k => (xvSl k).view.loc (c : Thread nD τ) ↦[(xvSl k).view.set]{fullShare} f) :=
  tile_eq (F := F) (ℓ := (c : Thread nD τ).loc cc0_scratch0) grps (by decide) (by decide)
    (fun k : Fin 4 => (xvSl k).view.set) (fun idx : S4x512x256.Idx => (idx 0 : Fin 4))
    (fun k idx => mem_xvSl k idx) fullShare f

theorem zeros2 : (![0, 0] : Fin 2 → Nat) = fun _ => 0 :=
  funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl
theorem zeros4 : (![0, 0, 0, 0] : Fin 4 → Nat) = fun _ => 0 :=
  funext fun a => match a with | ⟨0, _⟩ => rfl | ⟨1, _⟩ => rfl | ⟨2, _⟩ => rfl | ⟨3, _⟩ => rfl

theorem ld_of_xv (c : Dev nD) (k : Fin 4) :
    (xvM : Memref sig .tc .vmem S4x512x256 .f32).view.readAt (Elt F)
        (Rect.unit (s := S4x512x256) ![k.val, 0, 0] S1x512x256.size (grp_inb k)).toLoadRect (xOf m c)
      = ld (xOf m c) k := rfl

theorem read_whole_xv (X : (cc0_scratch0 : Ref sig .tc).ty.Contents (Elt F)) :
    (xvM : Memref sig .tc .vmem S4x512x256 .f32).view.readAt (Elt F)
        (Rect.unit (s := S4x512x256) ![0, 0, 0] S4x512x256.size inb_S4x512x256_S4x512x256_0_0_0).toLoadRect X = X :=
  Memref.readAt_unit_zero (Elt F) cc0_scratch0 zeros3 _ X

theorem read_whole_g (X : (cc0_scratch2 : Ref sig .tc).ty.Contents (Elt F)) :
    (gM : Memref sig .tc .vmem S32x2x4x512 .bf16).view.readAt (Elt F)
        (Rect.unit (s := S32x2x4x512) ![0, 0, 0, 0] S32x2x4x512.size inb_S32x2x4x512_S32x2x4x512_0_0_0_0).toLoadRect X = X :=
  Memref.readAt_unit_zero (Elt F) cc0_scratch2 zeros4 _ X

theorem read_whole_t (X : (cc0_stg0_0 : Ref sig .tc).ty.Contents (Elt F)) :
    (tM : Memref sig .tc .vmem S4x128 .f32).view.readAt (Elt F)
        (Rect.unit (s := S4x128) ![0, 0] S4x128.size inb_S4x128_S4x128_0_0).toLoadRect X = X :=
  Memref.readAt_unit_zero (Elt F) cc0_stg0_0 zeros2 _ X

theorem read_whole_ws (X : (cc0_stg1_0 : Ref sig .tc).ty.Contents (Elt F)) :
    (wsM : Memref sig .tc .vmem S128x256 .f32).view.readAt (Elt F)
        (Rect.unit (s := S128x256) ![0, 0] S128x256.size inb_S128x256_S128x256_0_0).toLoadRect X = X :=
  Memref.readAt_unit_zero (Elt F) cc0_stg1_0 zeros2 _ X

theorem read_whole_wsh (X : (cc0_stg2_0 : Ref sig .tc).ty.Contents (Elt F)) :
    (wshM : Memref sig .tc .vmem S128x256 .f32).view.readAt (Elt F)
        (Rect.unit (s := S128x256) ![0, 0] S128x256.size inb_S128x256_S128x256_0_0).toLoadRect X = X :=
  Memref.readAt_unit_zero (Elt F) cc0_stg2_0 zeros2 _ X

theorem write_whole_st (f w : (cc0_scratch1 : Ref sig .tc).ty.Contents (Elt F)) :
    ((stM : Memref sig .tc .vmem S2x4x512 .bf16).access
        (Rect.unit (s := S2x4x512) ![0, 0, 0] S2x4x512.size inb_S2x4x512_S2x4x512_0_0_0) : View sig .tc .vmem _ _).write
      (Elt F) f w Finset.univ = w :=
  Memref.write_access_unit_zero_univ (Elt F) cc0_scratch1 zeros3 _ f w

theorem write_whole_out (f w : (cc0_stg3_0 : Ref sig .tc).ty.Contents (Elt F)) :
    ((oM : Memref sig .tc .vmem S4x512x256 .f32).access
        (Rect.unit (s := S4x512x256) ![0, 0, 0] S4x512x256.size inb_S4x512x256_S4x512x256_0_0_0) : View sig .tc .vmem _ _).write
      (Elt F) f w Finset.univ = w :=
  Memref.write_access_unit_zero_univ (Elt F) cc0_stg3_0 zeros3 _ f w

end Cert.KernelIdeal.Proto

end
-- ==== Proof.LibSepList.lean ====
import Idealize.ShloMosaic.Lib.Pipeline.Kit

noncomputable section

namespace Idealize.ShloMosaic

open Idealize.SL
open Idealize.SL.BI (sProp bigSep bigSepL bigSep_eq_bigSepL bigSep_univ_eq_bigSepL bigSep_erase bigSep_univ_split
  bigSep_congr equiv_iff)
open scoped Idealize.SL.BI
open Idealize.SL.BI.BIBase Idealize.SL.BI.Laws
open Idealize.SL.RA

theorem bigSep_emptied {I : Type} [DecidableEq I] {M : Type} [URA M] (s : Finset I) (c : I) (hc : c ∈ s)
    (Φ : I → sProp M) :
    bigSep s (fun i => if i = c then iprop(emp) else Φ i) = bigSep (s.erase c) Φ := by
  rw [bigSep_erase hc, if_pos rfl]
  refine (equiv_iff.mp Idealize.SL.BI.emp_sep).trans ?_
  exact bigSep_congr fun i hi => if_neg (Finset.ne_of_mem_erase hi)

theorem bigSepL_own_out_eq {I : Type} [DecidableEq I] {M : Type} [URA M] (l : List I) (hl : l.Nodup) (c : I)
    (hc : c ∈ l) (Φ : I → sProp M) :
    bigSepL l Φ = iprop(Φ c ∗ bigSepL l (fun i => if i = c then iprop(emp) else Φ i)) := by
  rw [← bigSep_eq_bigSepL l hl Φ, ← bigSep_eq_bigSepL l hl (fun i => if i = c then iprop(emp) else Φ i),
    bigSep_emptied _ c (List.mem_toFinset.mpr hc)]
  exact bigSep_erase (List.mem_toFinset.mpr hc)

theorem bigSepL_own_out {I : Type} [DecidableEq I] {M : Type} [URA M] (l : List I) (hl : l.Nodup) (c : I)
    (hc : c ∈ l) (Φ : I → sProp M) :
    bigSepL l Φ ⊣⊢ iprop(Φ c ∗ bigSepL l (fun i => if i = c then iprop(emp) else Φ i)) :=
  ⟨Entails.of_eq (bigSepL_own_out_eq l hl c hc Φ), Entails.of_eq (bigSepL_own_out_eq l hl c hc Φ).symm⟩

theorem bigSep_erase_bigSepL_eq {I : Type} [Fintype I] [DecidableEq I] {M : Type} [URA M] (l : List I)
    (h : Finset.univ = l.toFinset) (hl : l.Nodup) (c : I) (Φ : I → sProp M) :
    bigSep (Finset.univ.erase c) Φ = bigSepL l (fun i => if i = c then iprop(emp) else Φ i) := by
  rw [← bigSep_univ_eq_bigSepL l h hl (fun i => if i = c then iprop(emp) else Φ i),
    bigSep_emptied _ c (Finset.mem_univ c)]

theorem bigSep_erase_bigSepL {I : Type} [Fintype I] [DecidableEq I] {M : Type} [URA M] (l : List I)
    (h : Finset.univ = l.toFinset) (hl : l.Nodup) (c : I) (Φ : I → sProp M) :
    bigSep (Finset.univ.erase c) Φ ⊣⊢ bigSepL l (fun i => if i = c then iprop(emp) else Φ i) :=
  ⟨Entails.of_eq (bigSep_erase_bigSepL_eq l h hl c Φ), Entails.of_eq (bigSep_erase_bigSepL_eq l h hl c Φ).symm⟩

theorem bigSepL_mono {I : Type} {M : Type} [URA M] (l : List I) {Φ Ψ : I → sProp M} (h : ∀ i ∈ l, Φ i ⊢ Ψ i) :
    bigSepL l Φ ⊢ bigSepL l Ψ := by
  induction l with
  | nil => exact Entails.of_eq rfl
  | cons i l ih =>
    rw [Idealize.SL.BI.bigSepL_cons, Idealize.SL.BI.bigSepL_cons]
    exact sep_mono (h i List.mem_cons_self) (ih fun j hj => h j (List.mem_cons_of_mem _ hj))

end Idealize.ShloMosaic

end
-- ==== Proof.BodyMid.lean ====
import proofs.«900771_g7700000000000772_dist_diff_adaln_cshard_i_b4_s512_c256_v7x_i32_f32_1_alg».proof.Proof.BodyLib
import proofs.«900771_g7700000000000772_dist_diff_adaln_cshard_i_b4_s512_c256_v7x_i32_f32_1_alg».proof.Proof.Regions
import proofs.«900771_g7700000000000772_dist_diff_adaln_cshard_i_b4_s512_c256_v7x_i32_f32_1_alg».proof.Proof.LibSepList

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem wp_copy_start (K : Dev nD × CIx → ℕ) (c : Dev nD) (k : Fin 4)
    (f : Buf (Elt F) ((xvSl k).view.loc (c : Thread nD τ)))
    {hsrc : (xSl k).view.WordExact} {hdst : (xvSl k).view.WordExact}
    {hsem : DmaTarget.Typed (nD := nD) .hbm (.dma (copyS k)) (DmaTarget.here (p := (.tc : Proc τ)) (xvSl k))} {α : Type}
    (kont : PUnit → Prog (TpuEff nD τ sig (Elt F) Λ₀ .tc) α) (Q : α → sProp 𝕄) :
    iprop(records m K ∗ cpyTok c k
        ∗ ((xSl k).view.loc (c : Thread nD τ) ↦[(xSl k).view.set]{fullShare} xOf m c)
        ∗ ((xvSl k).view.loc (c : Thread nD τ) ↦[(xvSl k).view.set]{fullShare} f)
        ∗ (cred (tallyAt (copyCell c k) () NC) -∗ wp frame (wpE (defs₀ (F := F)) 𝒱₀ c none) Set.univ (kont ⟨⟩) Q))
      ⊢ wp frame (wpE (defs₀ (F := F)) 𝒱₀ c none) Set.univ
          (.op (.enqueueDma (xSl k) (.here (xvSl k)) (.dma (copyS k)) hsrc hdst hsem) kont) Q := by
  iintro ⟨#HR, Htok, Hsrc, Hdst, Hk⟩
  unfold records
  icases HR with ⟨#HI, #Hre⟩
  iapply (Rounds.wp_copy_pointsTo 𝒱₀ ER (sched m) (c : Thread nD τ) none (src := xSl k) (dst := xvSl k)
      (sem := .dma (copyS k)) (q := fullShare) (fs := xOf m c) (fd := f) (r := 0) (d := c)
      (κ := K (c, .inr (.inr (.inr k))))
      (by rw [duties_copy]; exact Finset.mem_singleton_self _) () NC rfl (amount_copy m c k c)
      (by rw [payload_copy]; exact land_copy m c k f)) $$ [Htok Hsrc Hdst]
  · isplitr; · iapply (inv_at m K (c, .inr (.inr (.inr k)))); iexact HI
    iframe Hsrc Hdst
    isplitl [Htok]; · unfold cpyTok; iexact Htok
    iapply (reached_at (F := F) (c, .inr (.inr (.inr k)))); iexact Hre
  iexact Hk

theorem wp_copy_wait (K : Dev nD × CIx → ℕ) (c : Dev nD) (k : Fin 4) (O : CellTallies nD τ sig Unit)
    (hO : O = O₀ c ∨ O = O₁ c ∨ O = 0) (W : Waits sig Unit)
    {hsrc : (xSl k).view.WordExact} {hdst : (xvSl k).view.WordExact} {α : Type}
    (kont : PUnit → Prog (TpuEff nD τ sig (Elt F) Λ₀ .tc) α) (Q : α → sProp 𝕄) :
    iprop(records m K ∗ levAts L lv ∗ cred (tallyAt (copyCell c k) () NC) ∗ owes (c : Thread nD τ) O W
        ∗ atPos ER (copyCell c k) 0 ∅ 0
        ∗ ((owes (c : Thread nD τ) O (insert (SemLoc.dma (copyS k), ()) W) ∗ atPos ER (copyCell c k) 1 ∅ 0
              ∗ copyPay m c k)
            -∗ wp frame (wpE (defs₀ (F := F)) 𝒱₀ c none) Set.univ (kont ⟨⟩) Q))
      ⊢ wp frame (wpE (defs₀ (F := F)) 𝒱₀ c none) Set.univ
          (.op (.waitDma2 (copyS k) (xSl k) (xvSl k) hsrc hdst) kont) Q := by
  iintro ⟨#HR, Hlev, Hcred, HO, Hat, Hk⟩
  unfold records
  icases HR with ⟨#HI, #Hre⟩
  iapply (Rounds.wp_wait_rest_token 𝒱₀ ER (sched m) (c : Thread nD τ) none
      (w := .waitDma2 (copyS k) (xSl k) (xvSl k) hsrc hdst) (sm := .dma (copyS k)) (k' := NC)
      (κ := K (c, .inr (.inr (.inr k))))
      (wpE_waitDma2_eq 𝒱₀ (c : Thread nD τ) none Set.univ) (Set.mem_univ _) () (R := 0) (m := 0) (T := ∅)
      (by rw [expect_copy]; exact Nat.zero_add _)) $$ [Hlev Hcred HO Hat]
  · isplitr; · iapply (inv_at m K (c, .inr (.inr (.inr k)))); iexact HI
    iframe Hcred HO
    isplitl [Hlev]; · iapply (mayWait_low c (copyS k) (recvOf_copy k) O hO); iexact Hlev
    iexact Hat
  iintro ⟨HO, Hat, -, Hpay⟩
  iapply Hk
  iframe HO Hat
  iapply (Entails.of_eq (rest_copy m c k)); iexact Hpay

theorem mem_peers (c : Dev nD) : c ∈ peers :=
  List.mem_toFinset.mp (peers_univ ▸ Finset.mem_univ c)

theorem bar_list (c : Dev nD) :
    bigSep (Finset.univ.erase c) (fun d => barPay (F := F) c d) ⊢ bigSepL peers (barIf (F := F) c) :=
  (bigSep_erase_bigSepL peers peers_univ peers_nodup c (fun d => barPay (F := F) c d)).1

theorem wp_bar_wait (K : Dev nD × CIx → ℕ) (c : Dev nD) (W : Waits sig Unit) {α : Type}
    (kont : PUnit → Prog (TpuEff nD τ sig (Elt F) Λ₀ .tc) α) (Q : α → sProp 𝕄) :
    iprop(records m K ∗ levAts L lv ∗ cred (tallyAt (barCell c) () 31) ∗ owes (c : Thread nD τ) (O₁ c) W
        ∗ atPos ER (barCell c) 0 ∅ 0
        ∗ ((owes (c : Thread nD τ) (O₁ c) (insert (SemLoc.reg barS, ()) W) ∗ atPos ER (barCell c) 1 ∅ 0
              ∗ bigSepL peers (barIf c))
            -∗ wp frame (wpE (defs₀ (F := F)) 𝒱₀ c none) Set.univ (kont ⟨⟩) Q))
      ⊢ wp frame (wpE (defs₀ (F := F)) 𝒱₀ c none) Set.univ (.op (.semWait barS (31#32).toNat) kont) Q := by
  iintro ⟨#HR, Hlev, Hcred, HO, Hat, Hk⟩
  unfold records
  icases HR with ⟨#HI, #Hre⟩
  iapply (Rounds.wp_wait_rest_token 𝒱₀ ER (sched m) (c : Thread nD τ) none
      (w := .semWait barS (31#32).toNat) (sm := .reg barS) (k' := 31) (κ := K (c, .inl ()))
      (wpE_semWait_eq 𝒱₀ (c : Thread nD τ) none Set.univ) (Set.mem_univ _) () (R := 0) (m := 0) (T := ∅)
      (by rw [expect_bar])) $$ [Hlev Hcred HO Hat]
  · isplitr; · iapply (inv_at m K (c, .inl ())); iexact HI
    iframe Hcred HO
    isplitl [Hlev]; · iapply (mayWait_bar c); iexact Hlev
    iexact Hat
  iintro ⟨HO, Hat, -, Hpay⟩
  iapply Hk
  iframe HO Hat
  iapply (bar_list c)
  iapply (Entails.of_eq (rest_bar m c)); iexact Hpay

theorem slots_own (c : Dev nD) (f : Buf (Elt F) ((c : Thread nD τ).loc cc0_scratch2)) :
    bigSepL peers (fun i => slotPts (F := F) c i f) ⊢ iprop(slotPts c c f ∗ bigSepL peers (slotIf c)) := by
  refine (bigSepL_own_out peers peers_nodup c (mem_peers c) (fun i => slotPts (F := F) c i f)).1.trans ?_
  refine sep_mono_right (bigSepL_mono peers fun i _ => ?_)
  unfold slotIf
  by_cases h : i = c
  · rw [if_pos h, if_pos h]
  · rw [if_neg h, if_neg h]
    iintro H
    iexists f
    iexact H

theorem st_own (c : Dev nD) :
    bigSepL peers (fun j => stPts m c (Transfers.shareTok fullShare 32 j))
      ⊣⊢ iprop(stPts m c (Transfers.shareTok fullShare 32 c) ∗ bigSepL peers (stIf m c)) :=
  bigSepL_own_out peers peers_nodup c (mem_peers c) (fun j => stPts m c (Transfers.shareTok fullShare 32 j))

theorem got_join (c : Dev nD) (f : Buf (Elt F) ((c : Thread nD τ).loc cc0_scratch2)) :
    iprop(slotPts c c f ∗ bigSepL peers (slotGot m c))
      ⊢ bigSepL peers (fun i => if i = c then slotPts c c f else slotPts (F := F) c i (gathAll m)) := by
  have h := (bigSepL_own_out peers peers_nodup c (mem_peers c)
    (fun i => if i = c then slotPts c c f else slotPts (F := F) c i (gathAll m))).2
  have e : (fun i : Dev nD => if i = c then (iprop(emp) : sProp 𝕄)
        else (if i = c then slotPts c c f else slotPts (F := F) c i (gathAll m))) = slotGot m c := by
    funext i
    unfold slotGot
    by_cases hi : i = c
    · rw [if_pos hi, if_pos hi]
    · rw [if_neg hi, if_neg hi, if_neg hi]
  rw [e] at h
  rw [if_pos rfl] at h
  exact h

end Cert.KernelIdeal.Proto

end
-- ==== Proof.BodyB.lean ====
import proofs.«900771_g7700000000000772_dist_diff_adaln_cshard_i_b4_s512_c256_v7x_i32_f32_1_alg».proof.Proof.BodyA
import proofs.«900771_g7700000000000772_dist_diff_adaln_cshard_i_b4_s512_c256_v7x_i32_f32_1_alg».proof.Proof.BodyMid

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev xSlPts (c : Dev nD) (k : Fin 4) : sProp 𝕄 := (xSl k).view.loc (c : Thread nD τ) ↦[(xSl k).view.set]{fullShare} xOf m c
abbrev xvSlPts (c : Dev nD) (k : Fin 4) (f : Buf (Elt F) ((xvSl k).view.loc (c : Thread nD τ))) : sProp 𝕄 :=
  (xvSl k).view.loc (c : Thread nD τ) ↦[(xvSl k).view.set]{fullShare} f

set_option maxRecDepth 8000 in

theorem part4_run (K : Dev nD × CIx → ℕ) (c : Dev nD) (O : CellTallies nD τ sig Unit) (W : Waits sig Unit)
    (f : Buf (Elt F) ((c : Thread nD τ).loc cc0_scratch0)) (Q : PUnit → sProp 𝕄) :
    iprop(records m K ∗ owes (c : Thread nD τ) (sumFrom O (owedBar c) seg4) W ∗ bigSepL seg4 (sigTok c) ∗ bigSepL seg4 (slotIf c)
        ∗ cpyTok c 0 ∗ cpyTok c 1 ∗ xSlPts m c 0 ∗ xSlPts m c 1 ∗ xvSlPts c 0 f ∗ xvSlPts c 1 f
        ∗ ((owes (c : Thread nD τ) O W ∗ cred (tallyAt (copyCell c 0) () NC) ∗ cred (tallyAt (copyCell c 1) () NC)) -∗ Q ⟨⟩))
      ⊢ wp frame (wpE (defs₀ (F := F)) 𝒱₀ c none) Set.univ (k0_part4 (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5 c (devWord c) barV) Q := by
  rw [k0_part4_eq_skeleton]; unfold k0_part4_skel
  simp (config := {zeta := false}) only [seg4, sumFrom, bigSepL_cons_sep, bigSepL_nil]
  extract_lets
  iintro ⟨#HR, HO, Hsig, Hslots, Hc0, Hc1, Hx0, Hx1, Hv0, Hv1, Hk⟩
  sig_step 28 (cond29_iff c) k0_dev29_eq
  sig_step 29 (cond30_iff c) k0_dev30_eq
  sig_step 30 (cond31_iff c) k0_dev31_eq
  sig_step 31 (cond32_iff c) k0_dev32_eq
  iapply (wp_copy_start m K c 0 f (fun (_ : PUnit.{1}) => _) Q)
  iframe HR Hc0 Hx0 Hv0
  iintro Hcr0
  iapply (wp_copy_start m K c 1 f (fun (_ : PUnit.{1}) => _) Q)
  iframe HR Hc1 Hx1 Hv1
  iintro Hcr1
  simp only [Prog.pure_eq_ret, Prog.bind_ret, Prog.bind, wp_ret]
  imodintro
  iapply Hk
  iframe HO Hcr0 Hcr1

end Cert.KernelIdeal.Proto

end
-- ==== Proof.BodyGlue.lean ====
import proofs.«900771_g7700000000000772_dist_diff_adaln_cshard_i_b4_s512_c256_v7x_i32_f32_1_alg».proof.Proof.BodyLib

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSepL_append {I : Type} (l₁ l₂ : List I) (Φ : I → sProp 𝕄) :
    bigSepL (l₁ ++ l₂) Φ ⊣⊢ iprop(bigSepL l₁ Φ ∗ bigSepL l₂ Φ) := by
  induction l₁ with
  | nil => rw [List.nil_append, bigSepL_nil]; exact ⟨BIClass.emp_sep.mpr, BIClass.emp_sep.mp⟩
  | cons i l ih =>
    rw [List.cons_append, bigSepL_cons_sep, bigSepL_cons_sep]
    exact ⟨(sep_mono_right ih.1).trans sep_assoc.2, sep_assoc.1.trans (sep_mono_right ih.2)⟩

theorem sumFrom_append (base : CellTallies nD τ sig Unit) (f : Dev nD → CellTallies nD τ sig Unit) (l₁ l₂ : List (Dev nD)) :
    sumFrom base f (l₁ ++ l₂) = sumFrom (sumFrom base f l₂) f l₁ := by
  induction l₁ with
  | nil => rfl
  | cons j l ih => rw [List.cons_append, sumFrom, sumFrom, ih]

end Cert.KernelIdeal.Proto

end
-- ==== Proof.BodyEnds.lean ====
import proofs.«900771_g7700000000000772_dist_diff_adaln_cshard_i_b4_s512_c256_v7x_i32_f32_1_alg».proof.Proof.Launch
import proofs.«900771_g7700000000000772_dist_diff_adaln_cshard_i_b4_s512_c256_v7x_i32_f32_1_alg».proof.Proof.BodyLib

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem before_t (c : Dev nD) (d) : (dats (F := F) m ρ 0 c).before (0 : Fin 4) t₀ d = tOf m c := by
  unfold Dat.before; rw [if_pos (fetch0_0 t₀)]; rfl
theorem before_ws (c : Dev nD) (d) : (dats (F := F) m ρ 0 c).before (1 : Fin 4) t₀ d = wsOf m c := by
  unfold Dat.before; rw [if_pos (fetch0_1 t₀)]; rfl
theorem before_wsh (c : Dev nD) (d) : (dats (F := F) m ρ 0 c).before (2 : Fin 4) t₀ d = wshOf m c := by
  unfold Dat.before; rw [if_pos (fetch0_2 t₀)]; rfl

theorem owesAt_start (c : Dev nD) :
    (dats (F := F) m ρ 0 c).owesAt () t₀.castSucc ⊢ iprop(∃ W : Waits sig Unit, owes (c : Thread nD τ) (O₀ c) W) := by
  unfold Dat.owesAt Pipeline.owesWithin
  iintro ⟨%W, -, HO⟩
  iexists W
  iexact HO

theorem owesAt_end (c : Dev nD) (W : Waits sig Unit) :
    owes (c : Thread nD τ) 0 W ⊢ (dats (F := F) m ρ 0 c).owesAt () t₀.succ := by
  unfold Dat.owesAt Pipeline.owesWithin
  iintro HO
  iexists W
  isplitr; · ipureintro; exact fun _ _ => Or.inl trivial
  iexact HO

theorem copy_close (K : Dev nD × CIx → ℕ) (c : Dev nD) (k : Fin 4) :
    iprop(records m K ∗ atPos ER (copyCell c k) 1 ∅ 0) ⊢ (|={Set.univ}=> semVal (copyCell c k) 0 : sProp 𝕄) := by
  unfold records
  iintro ⟨⟨#HI, -⟩, Hat⟩
  iapply (Rounds.cell_close ER (sched m) (κ := K (c, .inr (.inr (.inr k)))) (Set.mem_univ _) (fun h => h) (R := 0 + 1) (duties_later m (copyCell c k)))
  isplitr
  · iapply (inv_at m K (c, .inr (.inr (.inr k)))); iexact HI
  · iexact Hat

theorem ownSems_intro (c : Dev nD) :
    iprop(bigSepL grps (fun k => semVal (copyCell c k) 0) ∗ bigSepL peers (fun j => semVal (sendCell c j) 0)
        ∗ bigSepL peers (fun i => semVal (recvCell c i) 0))
      ⊢ (Pipeline.ownSems0 osem c : sProp 𝕄) := by
  rw [ownSems0_split, bigSep_univ_eq_bigSepL grps (by decide) (by decide), bigSep_univ_eq_bigSepL peers peers_univ peers_nodup,
    bigSep_univ_eq_bigSepL peers peers_univ peers_nodup]

theorem phi1_intro (c : Dev nD) (f0 : Buf (Elt F) ((c : Thread nD τ).loc cc0_scratch0)) (f1 : Buf (Elt F) ((c : Thread nD τ).loc cc0_scratch1))
    (f2 : Buf (Elt F) ((c : Thread nD τ).loc cc0_scratch2)) :
    iprop(xPts m c ∗ (((c : Thread nD τ).loc cc0_scratch0) ↦{fullShare} f0) ∗ (((c : Thread nD τ).loc cc0_scratch1) ↦{fullShare} f1)
        ∗ (((c : Thread nD τ).loc cc0_scratch2) ↦{fullShare} f2) ∗ Pipeline.ownSems0 osem c)
      ⊢ Φ₁ m c := by
  unfold Φ₁ scratch
  iintro ⟨Hx, H0, H1, H2, Hs⟩
  iframe Hx
  isplitl [H0 H1 H2]
  · isplitl [H0]; · iexists f0; iexact H0
    isplitl [H1]; · iexists f1; iexact H1
    iexists f2; iexact H2
  iexact Hs

end Cert.KernelIdeal.Proto

end
-- ==== Proof.BodyParts56.lean ====
import proofs.«900771_g7700000000000772_dist_diff_adaln_cshard_i_b4_s512_c256_v7x_i32_f32_1_alg».proof.Proof.BodyMid

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem copyPay_elim (c : Dev nD) (k : Fin 4) :
    (copyPay m c k : sProp 𝕄) ⊢ iprop(((xvSl k).view.loc (c : Thread nD τ) ↦[(xvSl k).view.set]{fullShare} xOf m c)
      ∗ ((xSl k).view.loc (c : Thread nD τ) ↦[(xSl k).view.set]{fullShare} xOf m c)) :=
  Entails.of_eq rfl

theorem copyPay_intro (c : Dev nD) (k : Fin 4) :
    iprop(((xvSl k).view.loc (c : Thread nD τ) ↦[(xvSl k).view.set]{fullShare} xOf m c)
      ∗ ((xSl k).view.loc (c : Thread nD τ) ↦[(xSl k).view.set]{fullShare} xOf m c)) ⊢ (copyPay m c k : sProp 𝕄) :=
  Entails.of_eq rfl

theorem load_grp_sub (k : Fin 4) :
    (xvM : Memref sig .tc .vmem S4x512x256 .f32).view.setOn
        (Rect.unit (s := S4x512x256) ![k.val, 0, 0] S1x512x256.size (grp_inb k)).toLoadRect.set ⊆ (xvSl k).view.set := by
  rw [xvSl_set]
  intro i hi
  obtain ⟨y, hy, rfl⟩ := Finset.mem_map.mp hi
  exact hy

theorem wp_load_eq (c : Dev nD) {cs : CoreSpace} {s : Shape} {e : EltTy} {mr : Memref sig .tc cs s e} {r : LoadRect s}
    {hl : mr.view.LoadsAt r} {α : Type} {k : (r.shape.Idx → Elt F e) → Prog (TpuEff nD τ sig (Elt F) Λ₀ .tc) α}
    {S : Finset (Idx (mr.view.loc (c : Thread nD τ)))} {q : PosShare TreeShare}
    {f : Buf (Elt F) (mr.view.loc (c : Thread nD τ))}
    (hS : mr.view.setOn r.set ⊆ S) (v : r.shape.Idx → Elt F e) (hv : mr.view.readAt (Elt F) r f = v)
    (Q : α → sProp 𝕄) :
    iprop((mr.view.loc (c : Thread nD τ) ↦[S]{q} f)
        ∗ ((mr.view.loc (c : Thread nD τ) ↦[S]{q} f)
            -∗ wp frame (wpE (defs₀ (F := F)) 𝒱₀ c none) Set.univ (k v) Q))
      ⊢ wp frame (wpE (defs₀ (F := F)) 𝒱₀ c none) Set.univ (.op (.load mr r hl) k) Q := by
  subst hv
  iintro ⟨H, Hk⟩
  iapply (wp_load 𝒱₀ (c : Thread nD τ) none Set.univ (m := mr) hS) $$ H
  iexact Hk

theorem part5_run (K : Dev nD × CIx → ℕ) (c : Dev nD) (W : Waits sig Unit)
    (f : Buf (Elt F) ((c : Thread nD τ).loc cc0_scratch0))
    (Q : (Σ' (v128 : FVec F S4x256 .f32) (v133 : FVec F S4x256 .f32) (v142 : FVec F S512 .f32), FVec F S512 .f32) → sProp 𝕄) :
    iprop(records m K ∗ levAts L lv
        ∗ cpyTok c 2 ∗ cpyTok c 3
        ∗ ((xSl 2).view.loc (c : Thread nD τ) ↦[(xSl 2).view.set]{fullShare} xOf m c)
        ∗ ((xvSl 2).view.loc (c : Thread nD τ) ↦[(xvSl 2).view.set]{fullShare} f)
        ∗ ((xSl 3).view.loc (c : Thread nD τ) ↦[(xSl 3).view.set]{fullShare} xOf m c)
        ∗ ((xvSl 3).view.loc (c : Thread nD τ) ↦[(xvSl 3).view.set]{fullShare} f)
        ∗ stg c cc0_stg0_0 (tOf m c) ∗ stg c cc0_stg1_0 (wsOf m c) ∗ stg c cc0_stg2_0 (wshOf m c)
        ∗ cred (tallyAt (copyCell c 0) () NC) ∗ owes (c : Thread nD τ) (O₁ c) W ∗ atPos ER (copyCell c 0) 0 ∅ 0
        ∗ ((cred (tallyAt (copyCell c 2) () NC) ∗ cred (tallyAt (copyCell c 3) () NC)
              ∗ stg c cc0_stg0_0 (tOf m c) ∗ stg c cc0_stg1_0 (wsOf m c) ∗ stg c cc0_stg2_0 (wshOf m c)
              ∗ owes (c : Thread nD τ) (O₁ c) (insert (SemLoc.dma (copyS 0), ()) W)
              ∗ atPos ER (copyCell c 0) 1 ∅ 0 ∗ copyPay m c 0)
            -∗ Q ⟨k0_pay2 (tOf m c) (wsOf m c), k0_pay3 (tOf m c) (wshOf m c),
                  k0_pay5 (ld (xOf m c) 0), k0_pay6 (ld (xOf m c) 0)⟩))
      ⊢ wp frame (wpE (defs₀ (F := F)) 𝒱₀ c none) Set.univ
          (k0_part5 (F := F) xM (Memref.isWhole_whole _) tM (Memref.isWhole_whole _) wsM (Memref.isWhole_whole _)
            wshM (Memref.isWhole_whole _) oM (Memref.isWhole_whole _) xvM (Memref.isWhole_whole _)
            stM (Memref.isWhole_whole _) gM (Memref.isWhole_whole _) cc0_scratch3 cc0_scratch4 cc0_scratch5) Q := by
  rw [k0_part5_eq_skeleton]
  unfold k0_part5_skel
  iintro ⟨#HR, #Hlev, Htok2, Htok3, Hx2, Hxv2, Hx3, Hxv3, Hst0, Hst1, Hst2, Hc0, HO, Hat0, Hk⟩
  iapply (wp_copy_start m K c 2 f _ _)
  iframe HR Htok2 Hx2 Hxv2
  iintro Hc2
  iapply (wp_copy_start m K c 3 f _ _)
  iframe HR Htok3 Hx3 Hxv3
  iintro Hc3
  icases Hst0 with ⟨%ft, %hft, Ht⟩
  subst hft
  icases Hst1 with ⟨%fws, %hfws, Hws⟩
  subst hfws
  icases Hst2 with ⟨%fwsh, %hfwsh, Hwsh⟩
  subst hfwsh
  iapply (wp_load_eq c (mr := tM) (S := Finset.univ) (q := fullShare) (f := tOf m c) (Finset.subset_univ _)
    (tOf m c) (read_whole_t (tOf m c)) Q)
  iframe Ht
  iintro Ht
  iapply (wp_load_eq c (mr := wsM) (S := Finset.univ) (q := fullShare) (f := wsOf m c) (Finset.subset_univ _)
    (wsOf m c) (read_whole_ws (wsOf m c)) Q)
  iframe Hws
  iintro Hws
  iapply (wp_load_eq c (mr := tM) (S := Finset.univ) (q := fullShare) (f := tOf m c) (Finset.subset_univ _)
    (tOf m c) (read_whole_t (tOf m c)) Q)
  iframe Ht
  iintro Ht
  iapply (wp_load_eq c (mr := wshM) (S := Finset.univ) (q := fullShare) (f := wshOf m c) (Finset.subset_univ _)
    (wshOf m c) (read_whole_wsh (wshOf m c)) Q)
  iframe Hwsh
  iintro Hwsh
  iapply (wp_copy_wait m K c 0 (O₁ c) (Or.inr (Or.inl rfl)) W _ _)
  iframe HR Hlev Hc0 HO Hat0
  iintro ⟨HO, Hat0, Hp0⟩
  ihave Hp0 := (copyPay_elim m c 0) $$ Hp0
  icases Hp0 with ⟨Hxv0, Hx0⟩
  iapply (wp_load_eq c (mr := xvM) (S := (xvSl 0).view.set) (q := fullShare) (f := xOf m c) (load_grp_sub 0)
    (ld (xOf m c) 0) (ld_of_xv m c 0) Q)
  iframe Hxv0
  iintro Hxv0
  simp only [Prog.pure_eq_ret, Prog.bind, wp_ret]
  imodintro
  iapply Hk
  iframe Hc2 Hc3
  isplitl [Ht]; · iexists (tOf m c); isplitr; · ipureintro; rfl
                  iexact Ht
  isplitl [Hws]; · iexists (wsOf m c); isplitr; · ipureintro; rfl
                   iexact Hws
  isplitl [Hwsh]; · iexists (wshOf m c); isplitr; · ipureintro; rfl
                    iexact Hwsh
  iframe HO Hat0
  iapply (copyPay_intro m c 0); isplitl [Hxv0]; · iexact Hxv0
  iexact Hx0

theorem part6_run (K : Dev nD × CIx → ℕ) (c : Dev nD) (W : Waits sig Unit)
    (Q : (Σ' (v153 : FVec F S512 .f32) (v155 : FVec F S512 .f32) (v164 : FVec F S512 .f32), FVec F S512 .f32) → sProp 𝕄) :
    iprop(records m K ∗ levAts L lv
        ∗ cred (tallyAt (copyCell c 1) () NC) ∗ cred (tallyAt (copyCell c 2) () NC)
        ∗ owes (c : Thread nD τ) (O₁ c) W ∗ atPos ER (copyCell c 1) 0 ∅ 0 ∗ atPos ER (copyCell c 2) 0 ∅ 0
        ∗ ((owes (c : Thread nD τ) (O₁ c) (insert (SemLoc.dma (copyS 2), ()) (insert (SemLoc.dma (copyS 1), ()) W))
              ∗ atPos ER (copyCell c 1) 1 ∅ 0 ∗ atPos ER (copyCell c 2) 1 ∅ 0 ∗ copyPay m c 1 ∗ copyPay m c 2)
            -∗ Q ⟨k0_pay8 (ld (xOf m c) 1), k0_pay9 (ld (xOf m c) 1), k0_pay11 (ld (xOf m c) 2), k0_pay12 (ld (xOf m c) 2)⟩))
      ⊢ wp frame (wpE (defs₀ (F := F)) 𝒱₀ c none) Set.univ
          (k0_part6 (F := F) xM (Memref.isWhole_whole _) tM (Memref.isWhole_whole _) wsM (Memref.isWhole_whole _)
            wshM (Memref.isWhole_whole _) oM (Memref.isWhole_whole _) xvM (Memref.isWhole_whole _)
            stM (Memref.isWhole_whole _) gM (Memref.isWhole_whole _) cc0_scratch3 cc0_scratch4 cc0_scratch5) Q := by
  rw [k0_part6_eq_skeleton]
  unfold k0_part6_skel
  iintro ⟨#HR, #Hlev, Hc1, Hc2, HO, Hat1, Hat2, Hk⟩
  iapply (wp_copy_wait m K c 1 (O₁ c) (Or.inr (Or.inl rfl)) W _ _)
  iframe HR Hlev Hc1 HO Hat1
  iintro ⟨HO, Hat1, Hp1⟩
  ihave Hp1 := (copyPay_elim m c 1) $$ Hp1
  icases Hp1 with ⟨Hxv1, Hx1⟩
  iapply (wp_load_eq c (mr := xvM) (S := (xvSl 1).view.set) (q := fullShare) (f := xOf m c) (load_grp_sub 1)
    (ld (xOf m c) 1) (ld_of_xv m c 1) Q)
  iframe Hxv1
  iintro Hxv1
  iapply (wp_copy_wait m K c 2 (O₁ c) (Or.inr (Or.inl rfl)) (insert (SemLoc.dma (copyS 1), ()) W) _ _)
  iframe HR Hlev Hc2 HO Hat2
  iintro ⟨HO, Hat2, Hp2⟩
  ihave Hp2 := (copyPay_elim m c 2) $$ Hp2
  icases Hp2 with ⟨Hxv2, Hx2⟩
  iapply (wp_load_eq c (mr := xvM) (S := (xvSl 2).view.set) (q := fullShare) (f := xOf m c) (load_grp_sub 2)
    (ld (xOf m c) 2) (ld_of_xv m c 2) Q)
  iframe Hxv2
  iintro Hxv2
  simp only [Prog.pure_eq_ret, Prog.bind, wp_ret]
  imodintro
  iapply Hk
  iframe HO Hat1 Hat2
  isplitl [Hxv1 Hx1]
  · iapply (copyPay_intro m c 1); isplitl [Hxv1]; · iexact Hxv1
    iexact Hx1
  · iapply (copyPay_intro m c 2); isplitl [Hxv2]; · iexact Hxv2
    iexact Hx2

end Cert.KernelIdeal.Proto

end
-- ==== Proof.BodySend.lean ====
import proofs.«900771_g7700000000000772_dist_diff_adaln_cshard_i_b4_s512_c256_v7x_i32_f32_1_alg».proof.Proof.BodyLib
import proofs.«900771_g7700000000000772_dist_diff_adaln_cshard_i_b4_s512_c256_v7x_i32_f32_1_alg».proof.Proof.Regions

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem slot_amount (c : Dev nD) (q : DmaSem sig) :
    (slotM c : Memref sig .tc .vmem S2x4x512 .bf16).view.amount (.dma q) = N := by
  rfl

theorem wp_send_core (K : Dev nD × CIx → ℕ) (c j : Dev nD) (hj : j ≠ c)
    (n : Dev nD) (hn : n = j) (sS sR : DmaSem sig) (hS : sS = sendS j) (hR : sR = recvS c)
    (D : Memref sig .tc .vmem S2x4x512 .bf16) (hD : D = slotM c)
    (hsc : D.view.ref.isScScratch = false)
    (hsrc : (stM : Memref sig .tc .vmem S2x4x512 .bf16).view.WordExact) (hdst : D.view.WordExact)
    (hsem : DmaTarget.Typed (nD := nD) (τ := τ) (p := (.tc : Proc τ)) .vmem (.dma sR) (.remote (Dev.tc n : Thread nD τ) D (.dma sS) hsc))
    (O : CellTallies nD τ sig Unit) (W : Waits sig Unit) {α : Type} (Q : α → sProp 𝕄)
    (k : PUnit → Prog (TpuEff nD τ sig (Elt F) Λ₀ .tc) α) :
    iprop(records m K ∗ owes (c : Thread nD τ) (O + tallyAt (recvCell j c) () N) W
        ∗ (dutyTok ER (sendCell c j) 0 c ∗ dutyTok ER (recvCell j c) 0 c)
        ∗ barPay c j ∗ stPts m c (Transfers.shareTok fullShare 32 j)
        ∗ ((cred (tallyAt (sendCell c j) () N) ∗ owes (c : Thread nD τ) O W)
            -∗ wp frame (wpE (defs₀ (F := F)) 𝒱₀ c none) Set.univ (k ⟨⟩) Q))
      ⊢ wp frame (wpE (defs₀ (F := F)) 𝒱₀ c none) Set.univ
          (.op (.enqueueDma stM (.remote (Dev.tc n : Thread nD τ) D (.dma sS) hsc) (.dma sR) hsrc hdst hsem) k) Q := by
  subst hn hS hR hD
  unfold barPay slotPts stPts
  iintro ⟨#HR, HO, ⟨Ht1, Ht2⟩, ⟨⟨%fd, Hslot⟩, #Hre2⟩, Hst, Hk⟩
  unfold records
  icases HR with ⟨#HI, #Hre⟩
  iapply (Rounds.wp_send_pointsTo 𝒱₀ ER (sched m) (c : Thread nD τ) none (c' := (n : Thread nD τ))
      (src := (stM : Memref sig .tc .vmem S2x4x512 .bf16)) (dst := slotM c) (q := Transfers.shareTok fullShare 32 n)
      (fs := sentOf m c) (fd := fd) (sS := .dma (sendS n)) (sem := .dma (recvS c))
      (κ₁ := K (c, .inr (.inl n))) (κ₂ := K (n, .inr (.inr (.inl c)))) (r₁ := 0) (r₂ := 0) (d₁ := c) (d₂ := c)
      (by rw [duties_send m c n hj]; exact Finset.mem_singleton_self _)
      (by rw [duties_recv m n c (Ne.symm hj)]; exact Finset.mem_singleton_self _)
      () () N (slot_amount c _) (amount_send m c n c) (amount_recv m n c c) O rfl (W := W)
      (by rw [payload_send]; exact BI.Entails.refl _)
      (by rw [payload_recv]; exact land_slot m c n fd)) $$ [HO Ht1 Ht2 Hslot Hst]
  · isplitr; · iapply (inv_at m K (c, .inr (.inl n))); iexact HI
    isplitr; · iapply (inv_at m K (n, .inr (.inr (.inl c)))); iexact HI
    iframe Hst Hslot HO Ht1
    isplitr; · iapply (reached_at (F := F) (c, .inr (.inl n))); iexact Hre
    iframe Ht2 Hre2
  iexact Hk

theorem recv_sem_eq (c : Dev nD) (o : Fin 1 → ℕ) (ho : o = ![c.val]) (hin : ∀ a, o a + S1.size a ≤ S32.size a) :
    ((cc0_scratch5.slice (Rect.unit (s := S32) o S1.size hin)).squeeze S_ squeezes_S1_S_).sem = recvS c := by
  subst ho
  revert hin
  revert c
  decide

theorem slot_view_eq (c : Dev nD) (o : Fin 4 → ℕ) (ho : o = ![c.val, 0, 0, 0])
    (hin : ∀ a, o a + S1x2x4x512.size a ≤ S32x2x4x512.size a) :
    ((gM : Memref sig .tc .vmem S32x2x4x512 .bf16).slice (Rect.unit (s := S32x2x4x512) o S1x2x4x512.size hin) (fun _ => rfl)).squeeze S2x4x512 squeezes_S1x2x4x512_S2x4x512
      = slotM c := by
  subst ho
  rfl

theorem wp_send_block (K : Dev nD × CIx → ℕ) (c j : Dev nD) (cond : BitVec 1) (dev : ℕ) (hlt : cond = 1#1 → dev < nD)
    (hc : cond = 1#1 ↔ j ≠ c) (hd : dev = j.val)
    (sS : DmaSem sig) (hS : sS = sendS j)
    (sR : cond = 1#1 → DmaSem sig) (hR : ∀ h, sR h = recvS c)
    (D : cond = 1#1 → Memref sig .tc .vmem S2x4x512 .bf16) (hD : ∀ h, D h = slotM c)
    (hsc : ∀ h, (D h).view.ref.isScScratch = false)
    (hsrc : (stM : Memref sig .tc .vmem S2x4x512 .bf16).view.WordExact) (hdst : ∀ h, (D h).view.WordExact)
    (hsem : ∀ h, DmaTarget.Typed (nD := nD) (τ := τ) (p := (.tc : Proc τ)) .vmem (.dma (sR h))
      (.remote (Dev.tc (⟨dev, hlt h⟩ : Dev nD) : Thread nD τ) (D h) (.dma sS) (hsc h)))
    (O : CellTallies nD τ sig Unit) (W : Waits sig Unit) {α : Type} (Q : α → sProp 𝕄)
    (k : PUnit → Prog (TpuEff nD τ sig (Elt F) Λ₀ .tc) α) :
    iprop(records m K ∗ owes (c : Thread nD τ) (O + owedRecv c j) W ∗ sndTok c j ∗ barIf c j ∗ stIf m c j
        ∗ ((sendCr c j ∗ owes (c : Thread nD τ) O W) -∗ wp frame (wpE (defs₀ (F := F)) 𝒱₀ c none) Set.univ (k ⟨⟩) Q))
      ⊢ wp frame (wpE (defs₀ (F := F)) 𝒱₀ c none) Set.univ
          (if h : cond = 1#1 then (do
              Prog.lift (.enqueueDma stM (.remote (Dev.tc (⟨dev, hlt h⟩ : Dev nD)) (D h) (.dma sS) (hsc h)) (.dma (sR h)) hsrc (hdst h) (hsem h))
              k ⟨⟩)
           else k ⟨⟩) Q := by
  subst hd
  by_cases hj : j = c
  · subst hj
    have hn : ¬ cond = 1#1 := fun h => (hc.mp h) rfl
    rw [dif_neg hn]
    unfold owedRecv sndTok barIf stIf sendCr
    rw [if_pos rfl, if_pos rfl, if_pos rfl, if_pos rfl, if_pos rfl, add_zero]
    iintro ⟨-, HO, -, -, -, Hk⟩
    iapply Hk
    isplitr; · iempintro
    iexact HO
  · have hp : cond = 1#1 := hc.mpr hj
    rw [dif_pos hp]
    unfold owedRecv sndTok barIf stIf sendCr
    rw [if_neg hj, if_neg hj, if_neg hj, if_neg hj, if_neg hj]
    simp only [Prog.lift, Prog.bind_op, Prog.bind_ret, bind, Prog.bind]
    exact wp_send_core m K c j hj ⟨j.val, hlt hp⟩ (Fin.ext rfl) sS (sR hp) hS (hR hp) (D hp) (hD hp) (hsc hp) hsrc (hdst hp)
      (hsem hp) O W Q (fun _ => k ⟨⟩)

end Cert.KernelIdeal.Proto

end
-- ==== Proof.BodySendPart7.lean ====
import proofs.«900771_g7700000000000772_dist_diff_adaln_cshard_i_b4_s512_c256_v7x_i32_f32_1_alg».proof.Proof.BodySend
import proofs.«900771_g7700000000000772_dist_diff_adaln_cshard_i_b4_s512_c256_v7x_i32_f32_1_alg».proof.Proof.BodyMid
import proofs.«900771_g7700000000000772_dist_diff_adaln_cshard_i_b4_s512_c256_v7x_i32_f32_1_alg».proof.Proof.BodyGlue

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev seg7 : List (Dev nD) := [0, 1, 2, 3]

abbrev rest7 : List (Dev nD) := [4, 5, 6, 7, 8, 9, 10, 11, 12, 13, 14, 15, 16, 17, 18, 19, 20, 21, 22, 23, 24, 25, 26, 27, 28, 29, 30, 31]

theorem load3_sub :
    ((xvM : Memref sig .tc .vmem S4x512x256 .f32).access
        (Rect.unit (s := S4x512x256) ![3, 0, 0] S1x512x256.size inb_S4x512x256_S1x512x256_3_0_0)).set
      ⊆ (xvSl 3).view.set :=
  (View.set_slice_whole _ _).subset.trans (xvSl_set 3).superset

theorem st_after_store (c : Dev nD) (f : (cc0_scratch1 : Ref sig .tc).ty.Contents (Elt F))
    (l3 : Vec F S1x512x256 .f32) (hl : l3 = ld (xOf m c) 3) :
    (((stM : Memref sig .tc .vmem S2x4x512 .bf16).access
          (Rect.unit (s := S2x4x512) ![0, 0, 0] S2x4x512.size inb_S2x4x512_S2x4x512_0_0_0)).loc (c : Thread nD τ)
        ↦[Finset.univ]{fullShare}
        (((stM : Memref sig .tc .vmem S2x4x512 .bf16).access
          (Rect.unit (s := S2x4x512) ![0, 0, 0] S2x4x512.size inb_S2x4x512_S2x4x512_0_0_0) : View sig .tc .vmem _ _).write
            (Elt F) f
            (k0_pay14 (k0_pay5 (ld (xOf m c) 0)) (k0_pay6 (ld (xOf m c) 0)) (k0_pay8 (ld (xOf m c) 1)) (k0_pay9 (ld (xOf m c) 1))
              (k0_pay11 (ld (xOf m c) 2)) (k0_pay12 (ld (xOf m c) 2)) l3) Finset.univ) : sProp 𝕄)
      ⊢ iprop(stPts m c (Transfers.shareDrop fullShare 32) ∗ stPts m c (Transfers.shareTok fullShare 32 c)
          ∗ bigSepL peers (stIf m c)) := by
  subst hl
  rw [write_whole_st]
  exact (st_toks m c).1.trans (sep_mono_right (st_own m c).1)

theorem peers_split7 (Φ : Dev nD → sProp 𝕄) :
    bigSepL peers Φ ⊢ iprop((Φ 0 ∗ Φ 1 ∗ Φ 2 ∗ Φ 3) ∗ bigSepL rest7 Φ) :=
  (bigSepL_append seg7 rest7 Φ).1

set_option maxRecDepth 8000 in
set_option maxHeartbeats 1600000 in

theorem part7_run (K : Dev nD × CIx → ℕ) (c : Dev nD) (W : Waits sig Unit)
    (Q : (Σ' (_ : FVec F S2x4x512 .f32), BitVec 32) → sProp 𝕄) :
    iprop(records m K ∗ levAts L lv ∗ owes (c : Thread nD τ) (O₁ c) W
        ∗ cred (tallyAt (copyCell c 3) () NC) ∗ atPos ER (copyCell c 3) 0 ∅ 0
        ∗ (∃ f : Buf (Elt F) ((c : Thread nD τ).loc cc0_scratch1), ((c : Thread nD τ).loc cc0_scratch1) ↦{fullShare} f)
        ∗ cred (tallyAt (barCell c) () 31) ∗ atPos ER (barCell c) 0 ∅ 0
        ∗ bigSepL seg7 (sndTok c)
        ∗ ((owes (c : Thread nD τ) (sumFrom 0 (owedRecv c) rest7)
                (insert (SemLoc.reg barS, ()) (insert (SemLoc.dma (copyS 3), ()) W))
              ∗ atPos ER (copyCell c 3) 1 ∅ 0 ∗ copyPay m c 3 ∗ atPos ER (barCell c) 1 ∅ 0
              ∗ bigSepL seg7 (sendCr c) ∗ bigSepL rest7 (barIf c) ∗ bigSepL rest7 (stIf m c)
              ∗ stPts m c (Transfers.shareTok fullShare 32 c) ∗ stPts m c (Transfers.shareDrop fullShare 32))
            -∗ Q ⟨KVal.statsF32 (ld (xOf m c) 0) (ld (xOf m c) 1) (ld (xOf m c) 2) (ld (xOf m c) 3), 4#32⟩))
      ⊢ wp frame (wpE (defs₀ (F := F)) 𝒱₀ c none) Set.univ
          (k0_part7 (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5 c (devWord c)
            (SemArray.scalar (sig.barrier 0 rfl) : Sems sig S_)
            (k0_pay5 (ld (xOf m c) 0)) (k0_pay6 (ld (xOf m c) 0)) (k0_pay8 (ld (xOf m c) 1)) (k0_pay9 (ld (xOf m c) 1))
            (k0_pay11 (ld (xOf m c) 2)) (k0_pay12 (ld (xOf m c) 2))) Q := by
  rw [k0_part7_eq_skeleton]; unfold k0_part7_skel
  unfold copyPay
  rw [show KVal.statsF32 (ld (xOf m c) 0) (ld (xOf m c) 1) (ld (xOf m c) 2) (ld (xOf m c) 3)
      = k0_pay13 (k0_pay5 (ld (xOf m c) 0)) (k0_pay6 (ld (xOf m c) 0)) (k0_pay8 (ld (xOf m c) 1)) (k0_pay9 (ld (xOf m c) 1))
        (k0_pay11 (ld (xOf m c) 2)) (k0_pay12 (ld (xOf m c) 2))
        (((xvM : Memref sig .tc .vmem S4x512x256 .f32).access
          (Rect.unit (s := S4x512x256) ![3, 0, 0] S1x512x256.size inb_S4x512x256_S1x512x256_3_0_0)).read (Elt F) (xOf m c)) from rfl]
  rw [show O₁ c = ((((sumFrom 0 (owedRecv c) rest7 + owedRecv c 3) + owedRecv c 2) + owedRecv c 1) + owedRecv c 0) from rfl]
  rw [show bigSepL seg7 (sndTok (F := F) c) = iprop(sndTok c 0 ∗ sndTok c 1 ∗ sndTok c 2 ∗ sndTok c 3) from rfl,
    show bigSepL seg7 (sendCr (F := F) c) = iprop(sendCr c 0 ∗ sendCr c 1 ∗ sendCr c 2 ∗ sendCr c 3) from rfl]
  extract_lets v167 v168 v169 v170 v171 v172
  iintro ⟨#HR, #Hlev, HO, Hcr3, Hat3, ⟨%fst, Hst⟩, Hcrb, Hatb, Hs, Hk⟩
  iapply (wp_copy_wait m K c 3 (O₁ c) (Or.inr (Or.inl rfl)) W (fun (_ : PUnit.{1}) => _) Q)
  iframe HR Hlev Hcr3 Hat3
  isplitl [HO]; · iexact HO
  unfold copyPay
  iintro ⟨HO, Hat3, Hxv3, Hx3⟩
  iapply (wp_load_rect 𝒱₀ (c : Thread nD τ) none Set.univ (m := xvM)
      (r := Rect.unit (s := S4x512x256) ![3, 0, 0] S1x512x256.size inb_S4x512x256_S1x512x256_3_0_0)
      (S := (xvSl 3).view.set) (q := fullShare) (f := xOf m c) load3_sub) $$ [Hxv3]
  · iexact Hxv3
  iintro Hxv3
  iapply (wp_load_rect 𝒱₀ (c : Thread nD τ) none Set.univ (m := stM)
      (r := Rect.unit (s := S2x4x512) ![0, 0, 0] S2x4x512.size inb_S2x4x512_S2x4x512_0_0_0)
      (S := Finset.univ) (q := fullShare) (f := fst) (Finset.subset_univ _)) $$ [Hst]
  · iexact Hst
  iintro Hst
  iapply (wp_store 𝒱₀ (c : Thread nD τ) none Set.univ (m := stM)
      (r := Rect.unit (s := S2x4x512) ![0, 0, 0] S2x4x512.size inb_S2x4x512_S2x4x512_0_0_0)
      (S := Finset.univ) (f := fst) (Finset.subset_univ _)) $$ [Hst]
  · iexact Hst
  iintro Hst
  icases (st_after_store m c fst
      (((xvM : Memref sig .tc .vmem S4x512x256 .f32).access
        (Rect.unit (s := S4x512x256) ![3, 0, 0] S1x512x256.size inb_S4x512x256_S1x512x256_3_0_0)).read (Elt F) (xOf m c))
      rfl) $$ Hst with ⟨Hdrop, Hown, Hsts⟩
  icases (peers_split7 (stIf m c)) $$ Hsts with ⟨⟨Hst0, Hst1, Hst2, Hst3⟩, Hstrest⟩
  iapply (wp_bar_wait m K c (insert (SemLoc.dma (copyS 3), ()) W) (fun (_ : PUnit.{1}) => _) Q)
  iframe HR Hlev Hcrb HO Hatb
  iintro ⟨HO, Hatb, Hbar⟩
  icases (peers_split7 (barIf (F := F) c)) $$ Hbar with ⟨⟨Hb0, Hb1, Hb2, Hb3⟩, Hbrest⟩
  icases Hs with ⟨Hs0, Hs1, Hs2, Hs3⟩
  iapply (wp_send_block m K c 0 _ _ _ (cond33_iff c) k0_dev33_eq
      _ rfl _ (fun h => recv_sem_eq c _ (k0_off1_eq c) _) _ (fun h => slot_view_eq c _ (k0_off2_eq c) _)
      _ _ _ _ _ _ Q (fun (_ : PUnit.{1}) => _))
  iframe HR Hs0 Hb0 Hst0
  isplitl [HO]; · iexact HO
  iintro ⟨Hc0, HO⟩
  iapply (wp_send_block m K c 1 _ _ _ (cond34_iff c) k0_dev34_eq
      _ rfl _ (fun h => recv_sem_eq c _ (k0_off3_eq c) _) _ (fun h => slot_view_eq c _ (k0_off4_eq c) _)
      _ _ _ _ _ _ Q (fun (_ : PUnit.{1}) => _))
  iframe HR Hs1 Hb1 Hst1
  isplitl [HO]; · iexact HO
  iintro ⟨Hc1, HO⟩
  iapply (wp_send_block m K c 2 _ _ _ (cond35_iff c) k0_dev35_eq
      _ rfl _ (fun h => recv_sem_eq c _ (k0_off5_eq c) _) _ (fun h => slot_view_eq c _ (k0_off6_eq c) _)
      _ _ _ _ _ _ Q (fun (_ : PUnit.{1}) => _))
  iframe HR Hs2 Hb2 Hst2
  isplitl [HO]; · iexact HO
  iintro ⟨Hc2, HO⟩
  iapply (wp_send_block m K c 3 _ _ _ (cond36_iff c) k0_dev36_eq
      _ rfl _ (fun h => recv_sem_eq c _ (k0_off7_eq c) _) _ (fun h => slot_view_eq c _ (k0_off8_eq c) _)
      _ _ _ _ _ _ Q (fun (_ : PUnit.{1}) => _))
  iframe HR Hs3 Hb3 Hst3
  isplitl [HO]; · iexact HO
  iintro ⟨Hc3, HO⟩
  simp only [Prog.pure_eq_ret, wp_ret]
  imodintro
  iapply Hk
  iframe

end Cert.KernelIdeal.Proto

end
-- ==== Proof.BodySendParts.lean ====
import proofs.«900771_g7700000000000772_dist_diff_adaln_cshard_i_b4_s512_c256_v7x_i32_f32_1_alg».proof.Proof.BodySend

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev seg8 : List (Dev nD) := [4, 5, 6, 7, 8, 9, 10, 11, 12, 13]
abbrev seg9 : List (Dev nD) := [14, 15, 16, 17, 18, 19, 20, 21, 22, 23]

theorem bigSepL_cons_iprop {I : Type} (i : I) (l : List I) (Φ : I → sProp 𝕄) :
    bigSepL (i :: l) Φ = iprop(Φ i ∗ bigSepL l Φ) := bigSepL_cons i l Φ

set_option maxRecDepth 8000 in
set_option maxHeartbeats 1600000 in

theorem part8_run (K : Dev nD × CIx → ℕ) (c : Dev nD) (O : CellTallies nD τ sig Unit) (W : Waits sig Unit)
    (lit : BitVec 32) (Q : BitVec 32 → sProp 𝕄) :
    iprop(records m K ∗ owes (c : Thread nD τ) (sumFrom O (owedRecv c) seg8) W
        ∗ bigSepL seg8 (sndTok c) ∗ bigSepL seg8 (barIf c) ∗ bigSepL seg8 (stIf m c)
        ∗ ((bigSepL seg8 (sendCr c) ∗ owes (c : Thread nD τ) O W) -∗ Q 14#32))
      ⊢ wp frame (wpE (defs₀ (F := F)) 𝒱₀ c none) Set.univ
          (k0_part8 (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5 c (devWord c) lit) Q := by
  rw [k0_part8_eq_skeleton]; unfold k0_part8_skel
  simp (config := {zeta := false}) only [seg8, sumFrom, bigSepL_cons_iprop, bigSepL_nil]
  iintro ⟨#HR, HO, ⟨Hs4, Hs5, Hs6, Hs7, Hs8, Hs9, Hs10, Hs11, Hs12, Hs13, -⟩, ⟨Hb4, Hb5, Hb6, Hb7, Hb8, Hb9, Hb10, Hb11, Hb12, Hb13, -⟩, ⟨Hst4, Hst5, Hst6, Hst7, Hst8, Hst9, Hst10, Hst11, Hst12, Hst13, -⟩, Hk⟩
  iapply (wp_send_block m K c 4 _ _ _ (cond37_iff c) k0_dev37_eq
      _ rfl _ (fun h => recv_sem_eq c _ (k0_off9_eq c) _) _ (fun h => slot_view_eq c _ (k0_off10_eq c) _)
      _ _ _ _ _ W Q (fun (_ : PUnit.{1}) => _))
  iframe HR HO Hs4 Hb4 Hst4
  iintro ⟨Hc4, HO⟩
  iapply (wp_send_block m K c 5 _ _ _ (cond38_iff c) k0_dev38_eq
      _ rfl _ (fun h => recv_sem_eq c _ (k0_off11_eq c) _) _ (fun h => slot_view_eq c _ (k0_off12_eq c) _)
      _ _ _ _ _ W Q (fun (_ : PUnit.{1}) => _))
  iframe HR HO Hs5 Hb5 Hst5
  iintro ⟨Hc5, HO⟩
  iapply (wp_send_block m K c 6 _ _ _ (cond39_iff c) k0_dev39_eq
      _ rfl _ (fun h => recv_sem_eq c _ (k0_off13_eq c) _) _ (fun h => slot_view_eq c _ (k0_off14_eq c) _)
      _ _ _ _ _ W Q (fun (_ : PUnit.{1}) => _))
  iframe HR HO Hs6 Hb6 Hst6
  iintro ⟨Hc6, HO⟩
  iapply (wp_send_block m K c 7 _ _ _ (cond40_iff c) k0_dev40_eq
      _ rfl _ (fun h => recv_sem_eq c _ (k0_off15_eq c) _) _ (fun h => slot_view_eq c _ (k0_off16_eq c) _)
      _ _ _ _ _ W Q (fun (_ : PUnit.{1}) => _))
  iframe HR HO Hs7 Hb7 Hst7
  iintro ⟨Hc7, HO⟩
  iapply (wp_send_block m K c 8 _ _ _ (cond41_iff c) k0_dev41_eq
      _ rfl _ (fun h => recv_sem_eq c _ (k0_off17_eq c) _) _ (fun h => slot_view_eq c _ (k0_off18_eq c) _)
      _ _ _ _ _ W Q (fun (_ : PUnit.{1}) => _))
  iframe HR HO Hs8 Hb8 Hst8
  iintro ⟨Hc8, HO⟩
  iapply (wp_send_block m K c 9 _ _ _ (cond42_iff c) k0_dev42_eq
      _ rfl _ (fun h => recv_sem_eq c _ (k0_off19_eq c) _) _ (fun h => slot_view_eq c _ (k0_off20_eq c) _)
      _ _ _ _ _ W Q (fun (_ : PUnit.{1}) => _))
  iframe HR HO Hs9 Hb9 Hst9
  iintro ⟨Hc9, HO⟩
  iapply (wp_send_block m K c 10 _ _ _ (cond43_iff c) k0_dev43_eq
      _ rfl _ (fun h => recv_sem_eq c _ (k0_off21_eq c) _) _ (fun h => slot_view_eq c _ (k0_off22_eq c) _)
      _ _ _ _ _ W Q (fun (_ : PUnit.{1}) => _))
  iframe HR HO Hs10 Hb10 Hst10
  iintro ⟨Hc10, HO⟩
  iapply (wp_send_block m K c 11 _ _ _ (cond44_iff c) k0_dev44_eq
      _ rfl _ (fun h => recv_sem_eq c _ (k0_off23_eq c) _) _ (fun h => slot_view_eq c _ (k0_off24_eq c) _)
      _ _ _ _ _ W Q (fun (_ : PUnit.{1}) => _))
  iframe HR HO Hs11 Hb11 Hst11
  iintro ⟨Hc11, HO⟩
  iapply (wp_send_block m K c 12 _ _ _ (cond45_iff c) k0_dev45_eq
      _ rfl _ (fun h => recv_sem_eq c _ (k0_off25_eq c) _) _ (fun h => slot_view_eq c _ (k0_off26_eq c) _)
      _ _ _ _ _ W Q (fun (_ : PUnit.{1}) => _))
  iframe HR HO Hs12 Hb12 Hst12
  iintro ⟨Hc12, HO⟩
  iapply (wp_send_block m K c 13 _ _ _ (cond46_iff c) k0_dev46_eq
      _ rfl _ (fun h => recv_sem_eq c _ (k0_off27_eq c) _) _ (fun h => slot_view_eq c _ (k0_off28_eq c) _)
      _ _ _ _ _ W Q (fun (_ : PUnit.{1}) => _))
  iframe HR HO Hs13 Hb13 Hst13
  iintro ⟨Hc13, HO⟩
  simp only [Prog.pure_eq_ret, wp_ret]
  imodintro
  iapply Hk
  isplitr [HO]
  · isplitl [Hc4]; · iexact Hc4
    iframe Hc5 Hc6 Hc7 Hc8 Hc9 Hc10 Hc11 Hc12 Hc13
    iempintro
  · iexact HO

set_option maxRecDepth 8000 in
set_option maxHeartbeats 1600000 in

theorem part9_run (K : Dev nD × CIx → ℕ) (c : Dev nD) (O : CellTallies nD τ sig Unit) (W : Waits sig Unit)
    (lit : BitVec 32) (Q : BitVec 32 → sProp 𝕄) :
    iprop(records m K ∗ owes (c : Thread nD τ) (sumFrom O (owedRecv c) seg9) W
        ∗ bigSepL seg9 (sndTok c) ∗ bigSepL seg9 (barIf c) ∗ bigSepL seg9 (stIf m c)
        ∗ ((bigSepL seg9 (sendCr c) ∗ owes (c : Thread nD τ) O W) -∗ Q 24#32))
      ⊢ wp frame (wpE (defs₀ (F := F)) 𝒱₀ c none) Set.univ
          (k0_part9 (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5 c (devWord c) lit) Q := by
  rw [k0_part9_eq_skeleton]; unfold k0_part9_skel
  simp (config := {zeta := false}) only [seg9, sumFrom, bigSepL_cons_iprop, bigSepL_nil]
  iintro ⟨#HR, HO, ⟨Hs14, Hs15, Hs16, Hs17, Hs18, Hs19, Hs20, Hs21, Hs22, Hs23, -⟩, ⟨Hb14, Hb15, Hb16, Hb17, Hb18, Hb19, Hb20, Hb21, Hb22, Hb23, -⟩, ⟨Hst14, Hst15, Hst16, Hst17, Hst18, Hst19, Hst20, Hst21, Hst22, Hst23, -⟩, Hk⟩
  iapply (wp_send_block m K c 14 _ _ _ (cond47_iff c) k0_dev47_eq
      _ rfl _ (fun h => recv_sem_eq c _ (k0_off29_eq c) _) _ (fun h => slot_view_eq c _ (k0_off30_eq c) _)
      _ _ _ _ _ W Q (fun (_ : PUnit.{1}) => _))
  iframe HR HO Hs14 Hb14 Hst14
  iintro ⟨Hc14, HO⟩
  iapply (wp_send_block m K c 15 _ _ _ (cond48_iff c) k0_dev48_eq
      _ rfl _ (fun h => recv_sem_eq c _ (k0_off31_eq c) _) _ (fun h => slot_view_eq c _ (k0_off32_eq c) _)
      _ _ _ _ _ W Q (fun (_ : PUnit.{1}) => _))
  iframe HR HO Hs15 Hb15 Hst15
  iintro ⟨Hc15, HO⟩
  iapply (wp_send_block m K c 16 _ _ _ (cond49_iff c) k0_dev49_eq
      _ rfl _ (fun h => recv_sem_eq c _ (k0_off33_eq c) _) _ (fun h => slot_view_eq c _ (k0_off34_eq c) _)
      _ _ _ _ _ W Q (fun (_ : PUnit.{1}) => _))
  iframe HR HO Hs16 Hb16 Hst16
  iintro ⟨Hc16, HO⟩
  iapply (wp_send_block m K c 17 _ _ _ (cond50_iff c) k0_dev50_eq
      _ rfl _ (fun h => recv_sem_eq c _ (k0_off35_eq c) _) _ (fun h => slot_view_eq c _ (k0_off36_eq c) _)
      _ _ _ _ _ W Q (fun (_ : PUnit.{1}) => _))
  iframe HR HO Hs17 Hb17 Hst17
  iintro ⟨Hc17, HO⟩
  iapply (wp_send_block m K c 18 _ _ _ (cond51_iff c) k0_dev51_eq
      _ rfl _ (fun h => recv_sem_eq c _ (k0_off37_eq c) _) _ (fun h => slot_view_eq c _ (k0_off38_eq c) _)
      _ _ _ _ _ W Q (fun (_ : PUnit.{1}) => _))
  iframe HR HO Hs18 Hb18 Hst18
  iintro ⟨Hc18, HO⟩
  iapply (wp_send_block m K c 19 _ _ _ (cond52_iff c) k0_dev52_eq
      _ rfl _ (fun h => recv_sem_eq c _ (k0_off39_eq c) _) _ (fun h => slot_view_eq c _ (k0_off40_eq c) _)
      _ _ _ _ _ W Q (fun (_ : PUnit.{1}) => _))
  iframe HR HO Hs19 Hb19 Hst19
  iintro ⟨Hc19, HO⟩
  iapply (wp_send_block m K c 20 _ _ _ (cond53_iff c) k0_dev53_eq
      _ rfl _ (fun h => recv_sem_eq c _ (k0_off41_eq c) _) _ (fun h => slot_view_eq c _ (k0_off42_eq c) _)
      _ _ _ _ _ W Q (fun (_ : PUnit.{1}) => _))
  iframe HR HO Hs20 Hb20 Hst20
  iintro ⟨Hc20, HO⟩
  iapply (wp_send_block m K c 21 _ _ _ (cond54_iff c) k0_dev54_eq
      _ rfl _ (fun h => recv_sem_eq c _ (k0_off43_eq c) _) _ (fun h => slot_view_eq c _ (k0_off44_eq c) _)
      _ _ _ _ _ W Q (fun (_ : PUnit.{1}) => _))
  iframe HR HO Hs21 Hb21 Hst21
  iintro ⟨Hc21, HO⟩
  iapply (wp_send_block m K c 22 _ _ _ (cond55_iff c) k0_dev55_eq
      _ rfl _ (fun h => recv_sem_eq c _ (k0_off45_eq c) _) _ (fun h => slot_view_eq c _ (k0_off46_eq c) _)
      _ _ _ _ _ W Q (fun (_ : PUnit.{1}) => _))
  iframe HR HO Hs22 Hb22 Hst22
  iintro ⟨Hc22, HO⟩
  iapply (wp_send_block m K c 23 _ _ _ (cond56_iff c) k0_dev56_eq
      _ rfl _ (fun h => recv_sem_eq c _ (k0_off47_eq c) _) _ (fun h => slot_view_eq c _ (k0_off48_eq c) _)
      _ _ _ _ _ W Q (fun (_ : PUnit.{1}) => _))
  iframe HR HO Hs23 Hb23 Hst23
  iintro ⟨Hc23, HO⟩
  simp only [Prog.pure_eq_ret, wp_ret]
  imodintro
  iapply Hk
  isplitr [HO]
  · isplitl [Hc14]; · iexact Hc14
    iframe Hc15 Hc16 Hc17 Hc18 Hc19 Hc20 Hc21 Hc22 Hc23
    iempintro
  · iexact HO

end Cert.KernelIdeal.Proto

end
-- ==== Proof.BodyWait.lean ====
import proofs.«900771_g7700000000000772_dist_diff_adaln_cshard_i_b4_s512_c256_v7x_i32_f32_1_alg».proof.Proof.BodyLib

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem waitCond_iff (c i : Dev nD) :
    Scalar.cmpi .ne (Scalar.extui (Scalar.cmpi .ne (devWord c) (BitVec.ofNat 32 i.val))) 0#32 = 1#1 ↔ i ≠ c := by
  revert c i; decide

theorem wp_wait_block {α : Type} (K : Dev nD × CIx → ℕ) (c i : Dev nD) (cond : BitVec 1) (hc : cond = 1#1 ↔ i ≠ c)
    (sR sS : DmaSem sig) (hR : sR = recvS i) (hS : sS = sendS i)
    (slot slot' : Memref sig .tc .vmem S2x4x512 .bf16) (hslot : slot = slotM i) (hslot' : slot' = slotM i)
    (hst : (stM : Memref sig .tc .vmem S2x4x512 .bf16).view.WordExact) (hsl : slot.view.WordExact)
    (hsl' : slot'.view.WordExact) (hst' : (stM : Memref sig .tc .vmem S2x4x512 .bf16).view.WordExact)
    (W : Waits sig Unit) (k : PUnit → Prog (TpuEff nD τ sig (Elt F) Λ₀ .tc) α) (Q : α → sProp 𝕄) :
    iprop(records m K ∗ owes (c : Thread nD τ) 0 W ∗ recvCred c i ∗ sendCr c i
        ∗ atPos ER (recvCell c i) 0 ∅ 0 ∗ atPos ER (sendCell c i) 0 ∅ 0
        ∗ (∀ W', (owes (c : Thread nD τ) 0 W' ∗ slotGot m c i ∗ stIf m c i
              ∗ semVal (recvCell c i) 0 ∗ semVal (sendCell c i) 0)
            -∗ wp frame (wpE (defs₀ (F := F)) 𝒱₀ c none) Set.univ (k ⟨⟩) Q))
      ⊢ wp frame (wpE (defs₀ (F := F)) 𝒱₀ c none) Set.univ
          (if h : cond = 1#1 then (do
              Prog.lift (.waitDma2 sR stM slot hst hsl)
              Prog.lift (.waitDma2 sS slot' stM hsl' hst')
              k ⟨⟩)
            else k ⟨⟩) Q := by
  subst hR hS hslot hslot'
  by_cases hi : i = c
  · subst hi
    have hn : ¬ cond = 1#1 := fun h => (hc.mp h) rfl
    rw [dif_neg hn]
    unfold recvCred sendCr slotGot stIf; rw [if_pos rfl, if_pos rfl, if_pos rfl, if_pos rfl]
    iintro ⟨#HR, HO, -, -, HatR, HatS, Hk⟩
    unfold records
    icases HR with ⟨#HI, -⟩
    imod (Rounds.cell_close ER (sched m) (Set.mem_univ (K (i, .inr (.inr (.inl i))))) (fun h => h) (R := 0)
        (fun r _ => duties_recv_self m i r)) $$ [HatR] with HzR
    · isplitr; · iapply (inv_at m K (i, .inr (.inr (.inl i)))); iexact HI
      iexact HatR
    imod (Rounds.cell_close ER (sched m) (Set.mem_univ (K (i, .inr (.inl i)))) (fun h => h) (R := 0)
        (fun r _ => duties_send_self m i r)) $$ [HatS] with HzS
    · isplitr; · iapply (inv_at m K (i, .inr (.inl i))); iexact HI
      iexact HatS
    iapply Hk $$ %W
    iframe HO
    isplitr; · iempintro
    isplitr; · iempintro
    iframe HzR HzS
  · have hp : cond = 1#1 := hc.mpr hi
    rw [dif_pos hp]
    unfold recvCred sendCr slotGot stIf; rw [if_neg hi, if_neg hi, if_neg hi, if_neg hi]
    simp only [Prog.bind_lift, bind, Prog.bind, Prog.lift]
    iintro ⟨#HR, HO, HcR, HcS, HatR, HatS, Hk⟩
    unfold records
    icases HR with ⟨#HI, -⟩
    iapply (Rounds.wp_wait_rest_token 𝒱₀ ER (sched m) (c : Thread nD τ) none (κ := K (c, .inr (.inr (.inl i))))
        (wpE_waitDma2_eq 𝒱₀ (c : Thread nD τ) none Set.univ) (Set.mem_univ _) () (O := 0) (W := W) (R := 0) (m := 0) (T := ∅)
        (by rw [Nat.zero_add, expect_recv m c i hi])) $$ [HcR HO HatR]
    · isplitr; · iapply (inv_at m K (c, .inr (.inr (.inl i)))); iexact HI
      iframe HcR HO
      isplitr; · rw [MayWait_zero]; iempintro
      iexact HatR
    iintro ⟨HO, HatR, -, Hpay⟩
    ihave Hslot := (Entails.of_eq (rest_recv m c i hi)) $$ Hpay
    iapply (Rounds.wp_wait_rest_token 𝒱₀ ER (sched m) (c : Thread nD τ) none (κ := K (c, .inr (.inl i)))
        (wpE_waitDma2_eq 𝒱₀ (c : Thread nD τ) none Set.univ) (Set.mem_univ _) () (O := 0)
        (W := insert (SemLoc.dma (recvS i), ()) W) (R := 0) (m := 0) (T := ∅)
        (by rw [Nat.zero_add, expect_send m c i hi])) $$ [HcS HO HatS]
    · isplitr; · iapply (inv_at m K (c, .inr (.inl i))); iexact HI
      iframe HcS HO
      isplitr; · rw [MayWait_zero]; iempintro
      iexact HatS
    iintro ⟨HO, HatS, -, Hpay⟩
    ihave Hst := (Entails.of_eq (rest_send m c i hi)) $$ Hpay
    imod (Rounds.cell_close ER (sched m) (Set.mem_univ (K (c, .inr (.inr (.inl i))))) (fun h => h) (R := 0 + 1)
        (duties_later m (recvCell c i))) $$ [HatR] with HzR
    · isplitr; · iapply (inv_at m K (c, .inr (.inr (.inl i)))); iexact HI
      iexact HatR
    imod (Rounds.cell_close ER (sched m) (Set.mem_univ (K (c, .inr (.inl i)))) (fun h => h) (R := 0 + 1)
        (duties_later m (sendCell c i))) $$ [HatS] with HzS
    · isplitr; · iapply (inv_at m K (c, .inr (.inl i))); iexact HI
      iexact HatS
    iapply Hk $$ %(insert (SemLoc.dma (sendS i), ()) (insert (SemLoc.dma (recvS i), ()) W))
    iframe HO
    isplitl [Hslot]; · unfold recvPay; iexact Hslot
    isplitl [Hst]; · unfold sendPay; iexact Hst
    iframe HzR HzS

end Cert.KernelIdeal.Proto

end
-- ==== Proof.BodyWaitParts.lean ====
import proofs.«900771_g7700000000000772_dist_diff_adaln_cshard_i_b4_s512_c256_v7x_i32_f32_1_alg».proof.Proof.BodyWait

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev seg11 : List (Dev nD) := [2, 3, 4, 5, 6, 7, 8, 9, 10, 11]
abbrev seg12 : List (Dev nD) := [12, 13, 14, 15, 16, 17, 18, 19, 20, 21]
abbrev seg13 : List (Dev nD) := [22, 23, 24, 25, 26, 27, 28, 29, 30, 31]

def waitIn (c : Dev nD) (seg : List (Dev nD)) : sProp 𝕄 :=
  iprop(bigSepL seg (recvCred c) ∗ bigSepL seg (sendCr c)
    ∗ bigSepL seg (fun i => atPos ER (recvCell c i) 0 ∅ 0) ∗ bigSepL seg (fun i => atPos ER (sendCell c i) 0 ∅ 0))

def waitOut (c : Dev nD) (seg : List (Dev nD)) : sProp 𝕄 :=
  iprop(bigSepL seg (slotGot m c) ∗ bigSepL seg (stIf m c)
    ∗ bigSepL seg (fun i => semVal (recvCell c i) 0) ∗ bigSepL seg (fun i => semVal (sendCell c i) 0))

set_option hygiene false in

local macro "wait_step " i:term:max g:ident s:ident z:ident z':ident : tactic => `(tactic| (
  icases HcR with ⟨HcR1, HcR⟩
  icases HcS with ⟨HcS1, HcS⟩
  icases HaR with ⟨HaR1, HaR⟩
  icases HaS with ⟨HaS1, HaS⟩
  iapply (wp_wait_block m K c $i _ (waitCond_iff c $i) _ _ rfl rfl _ _ rfl rfl _ _ _ _ _ _ Q)
  iframe HR HO HcR1 HcS1 HaR1 HaS1
  iintro %W' ⟨HO, $g:ident, $s:ident, $z:ident, $z':ident⟩))

set_option maxHeartbeats 1600000 in

theorem part11_run (K : Dev nD × CIx → ℕ) (c : Dev nD) (W : Waits sig Unit) (Q : BitVec 32 → sProp 𝕄) :
    iprop(records m K ∗ owes (c : Thread nD τ) 0 W ∗ waitIn c seg11
        ∗ (∀ W', (owes (c : Thread nD τ) 0 W' ∗ waitOut m c seg11) -∗ Q 12#32))
      ⊢ wp frame (wpE (defs₀ (F := F)) 𝒱₀ c none) Set.univ
          (k0_part11 (F := F) xM (Memref.isWhole_whole _) tM (Memref.isWhole_whole _) wsM (Memref.isWhole_whole _)
            wshM (Memref.isWhole_whole _) oM (Memref.isWhole_whole _) xvM (Memref.isWhole_whole _)
            stM (Memref.isWhole_whole _) gM (Memref.isWhole_whole _) cc0_scratch3 cc0_scratch4 cc0_scratch5 (devWord c) 2#32) Q := by
  rw [k0_part11_eq_skeleton]
  unfold k0_part11_skel waitIn waitOut
  simp (config := {zeta := false}) only [seg11, bigSepL_cons_sep, bigSepL_nil]
  extract_lets
  iintro ⟨#HR, HO, ⟨HcR, HcS, HaR, HaS⟩, Hk⟩
  wait_step 2 Hg2 Hs2 Hz2 Hy2
  wait_step 3 Hg3 Hs3 Hz3 Hy3
  wait_step 4 Hg4 Hs4 Hz4 Hy4
  wait_step 5 Hg5 Hs5 Hz5 Hy5
  wait_step 6 Hg6 Hs6 Hz6 Hy6
  wait_step 7 Hg7 Hs7 Hz7 Hy7
  wait_step 8 Hg8 Hs8 Hz8 Hy8
  wait_step 9 Hg9 Hs9 Hz9 Hy9
  wait_step 10 Hg10 Hs10 Hz10 Hy10
  wait_step 11 Hg11 Hs11 Hz11 Hy11
  simp (config := {zeta := false, zetaDelta := true}) only [Prog.pure_eq_ret, wp_ret]
  imodintro
  iapply Hk $$ %_
  iframe

set_option maxHeartbeats 1600000 in

theorem part12_run (K : Dev nD × CIx → ℕ) (c : Dev nD) (W : Waits sig Unit) (Q : BitVec 32 → sProp 𝕄) :
    iprop(records m K ∗ owes (c : Thread nD τ) 0 W ∗ waitIn c seg12
        ∗ (∀ W', (owes (c : Thread nD τ) 0 W' ∗ waitOut m c seg12) -∗ Q 22#32))
      ⊢ wp frame (wpE (defs₀ (F := F)) 𝒱₀ c none) Set.univ
          (k0_part12 (F := F) xM (Memref.isWhole_whole _) tM (Memref.isWhole_whole _) wsM (Memref.isWhole_whole _)
            wshM (Memref.isWhole_whole _) oM (Memref.isWhole_whole _) xvM (Memref.isWhole_whole _)
            stM (Memref.isWhole_whole _) gM (Memref.isWhole_whole _) cc0_scratch3 cc0_scratch4 cc0_scratch5 (devWord c) 12#32) Q := by
  rw [k0_part12_eq_skeleton]
  unfold k0_part12_skel waitIn waitOut
  simp (config := {zeta := false}) only [seg12, bigSepL_cons_sep, bigSepL_nil]
  extract_lets
  iintro ⟨#HR, HO, ⟨HcR, HcS, HaR, HaS⟩, Hk⟩
  wait_step 12 Hg12 Hs12 Hz12 Hy12
  wait_step 13 Hg13 Hs13 Hz13 Hy13
  wait_step 14 Hg14 Hs14 Hz14 Hy14
  wait_step 15 Hg15 Hs15 Hz15 Hy15
  wait_step 16 Hg16 Hs16 Hz16 Hy16
  wait_step 17 Hg17 Hs17 Hz17 Hy17
  wait_step 18 Hg18 Hs18 Hz18 Hy18
  wait_step 19 Hg19 Hs19 Hz19 Hy19
  wait_step 20 Hg20 Hs20 Hz20 Hy20
  wait_step 21 Hg21 Hs21 Hz21 Hy21
  simp (config := {zeta := false, zetaDelta := true}) only [Prog.pure_eq_ret, wp_ret]
  imodintro
  iapply Hk $$ %_
  iframe

set_option maxHeartbeats 1600000 in

theorem part13_run (K : Dev nD × CIx → ℕ) (c : Dev nD) (W : Waits sig Unit) (Q : PUnit → sProp 𝕄) :
    iprop(records m K ∗ owes (c : Thread nD τ) 0 W ∗ waitIn c seg13
        ∗ (∀ W', (owes (c : Thread nD τ) 0 W' ∗ waitOut m c seg13) -∗ Q ⟨⟩))
      ⊢ wp frame (wpE (defs₀ (F := F)) 𝒱₀ c none) Set.univ
          (k0_part13 (F := F) xM (Memref.isWhole_whole _) tM (Memref.isWhole_whole _) wsM (Memref.isWhole_whole _)
            wshM (Memref.isWhole_whole _) oM (Memref.isWhole_whole _) xvM (Memref.isWhole_whole _)
            stM (Memref.isWhole_whole _) gM (Memref.isWhole_whole _) cc0_scratch3 cc0_scratch4 cc0_scratch5 (devWord c) 22#32) Q := by
  rw [k0_part13_eq_skeleton]
  unfold k0_part13_skel waitIn waitOut
  simp (config := {zeta := false}) only [seg13, bigSepL_cons_sep, bigSepL_nil]
  extract_lets
  iintro ⟨#HR, HO, ⟨HcR, HcS, HaR, HaS⟩, Hk⟩
  wait_step 22 Hg22 Hs22 Hz22 Hy22
  wait_step 23 Hg23 Hs23 Hz23 Hy23
  wait_step 24 Hg24 Hs24 Hz24 Hy24
  wait_step 25 Hg25 Hs25 Hz25 Hy25
  wait_step 26 Hg26 Hs26 Hz26 Hy26
  wait_step 27 Hg27 Hs27 Hz27 Hy27
  wait_step 28 Hg28 Hs28 Hz28 Hy28
  wait_step 29 Hg29 Hs29 Hz29 Hy29
  wait_step 30 Hg30 Hs30 Hz30 Hy30
  wait_step 31 Hg31 Hs31 Hz31 Hy31
  simp (config := {zeta := false, zetaDelta := true}) only [Prog.pure_eq_ret, wp_ret]
  imodintro
  iapply Hk $$ %_
  iframe

end Cert.KernelIdeal.Proto

end
-- ==== Proof.BodyPart10.lean ====
import proofs.«900771_g7700000000000772_dist_diff_adaln_cshard_i_b4_s512_c256_v7x_i32_f32_1_alg».proof.Proof.BodySend
import proofs.«900771_g7700000000000772_dist_diff_adaln_cshard_i_b4_s512_c256_v7x_i32_f32_1_alg».proof.Proof.BodyWaitParts

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev seg10s : List (Dev nD) := [24, 25, 26, 27, 28, 29, 30, 31]
abbrev seg10w : List (Dev nD) := [0, 1]

set_option hygiene false in

local macro "send_step " j:term:max ci:term:max de:term:max oa:term:max ob:term:max cr:ident : tactic => `(tactic| (
  icases Hs with ⟨Hs1, Hs⟩
  icases Hb with ⟨Hb1, Hb⟩
  icases Hst with ⟨Hst1, Hst⟩
  iapply (wp_send_block m K c $j _ _ _ $ci $de
      _ rfl _ (fun h => recv_sem_eq c _ $oa _) _ (fun h => slot_view_eq c _ $ob _)
      _ _ _ _ _ W Q (fun (_ : PUnit.{1}) => _))
  iframe HR HO Hs1 Hb1 Hst1
  iintro ⟨$cr:ident, HO⟩))

set_option hygiene false in

local macro "wait_step' " i:term:max g:ident s:ident z:ident z':ident : tactic => `(tactic| (
  icases HcR with ⟨HcR1, HcR⟩
  icases HcS with ⟨HcS1, HcS⟩
  icases HaR with ⟨HaR1, HaR⟩
  icases HaS with ⟨HaS1, HaS⟩
  iapply (wp_wait_block m K c $i _ (waitCond_iff c $i) _ _ rfl rfl _ _ rfl rfl _ _ _ _ _ (fun (_ : PUnit.{1}) => _) Q)
  iframe HR HO HcR1 HcS1 HaR1 HaS1
  iintro %W' ⟨HO, $g:ident, $s:ident, $z:ident, $z':ident⟩))

set_option maxRecDepth 8000 in
set_option maxHeartbeats 3200000 in

theorem part10_run (K : Dev nD × CIx → ℕ) (c : Dev nD) (W : Waits sig Unit) (lit : BitVec 32)
    (Q : BitVec 32 → sProp 𝕄) :
    iprop(records m K ∗ owes (c : Thread nD τ) (sumFrom 0 (owedRecv c) seg10s) W
        ∗ bigSepL seg10s (sndTok c) ∗ bigSepL seg10s (barIf c) ∗ bigSepL seg10s (stIf m c)
        ∗ waitIn c seg10w
        ∗ (∀ W', (bigSepL seg10s (sendCr c) ∗ owes (c : Thread nD τ) 0 W' ∗ waitOut m c seg10w) -∗ Q 2#32))
      ⊢ wp frame (wpE (defs₀ (F := F)) 𝒱₀ c none) Set.univ
          (k0_part10 (F := F) xM (Memref.isWhole_whole _) tM (Memref.isWhole_whole _) wsM (Memref.isWhole_whole _)
            wshM (Memref.isWhole_whole _) oM (Memref.isWhole_whole _) xvM (Memref.isWhole_whole _)
            stM (Memref.isWhole_whole _) gM (Memref.isWhole_whole _) cc0_scratch3 cc0_scratch4 cc0_scratch5 c (devWord c) lit) Q := by
  rw [k0_part10_eq_skeleton]
  unfold k0_part10_skel waitIn waitOut
  simp (config := {zeta := false}) only [seg10s, seg10w, sumFrom, bigSepL_cons_sep, bigSepL_nil]
  iintro ⟨#HR, HO, Hs, Hb, Hst, ⟨HcR, HcS, HaR, HaS⟩, Hk⟩
  send_step 24 (cond57_iff c) k0_dev57_eq (k0_off49_eq c) (k0_off50_eq c) Hc24
  send_step 25 (cond58_iff c) k0_dev58_eq (k0_off51_eq c) (k0_off52_eq c) Hc25
  send_step 26 (cond59_iff c) k0_dev59_eq (k0_off53_eq c) (k0_off54_eq c) Hc26
  send_step 27 (cond60_iff c) k0_dev60_eq (k0_off55_eq c) (k0_off56_eq c) Hc27
  send_step 28 (cond61_iff c) k0_dev61_eq (k0_off57_eq c) (k0_off58_eq c) Hc28
  send_step 29 (cond62_iff c) k0_dev62_eq (k0_off59_eq c) (k0_off60_eq c) Hc29
  send_step 30 (cond63_iff c) k0_dev63_eq (k0_off61_eq c) (k0_off62_eq c) Hc30
  send_step 31 (cond64_iff c) k0_dev64_eq (k0_off63_eq c) (k0_off64_eq c) Hc31
  wait_step' 0 Hg0 Hs0 Hz0 Hy0
  wait_step' 1 Hg1 Hs1 Hz1 Hy1
  simp (config := {zeta := false}) only [Prog.pure_eq_ret, wp_ret]
  imodintro
  iapply Hk $$ %_
  iframe

end Cert.KernelIdeal.Proto

end
-- ==== Proof.BodyTail.lean ====
import proofs.«900771_g7700000000000772_dist_diff_adaln_cshard_i_b4_s512_c256_v7x_i32_f32_1_alg».proof.Proof.BodyParts56
import proofs.«900771_g7700000000000772_dist_diff_adaln_cshard_i_b4_s512_c256_v7x_i32_f32_1_alg».proof.Proof.Regions
import proofs.«900771_g7700000000000772_dist_diff_adaln_cshard_i_b4_s512_c256_v7x_i32_f32_1_alg».proof.Proof.KCongr

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem out_value (c : Dev nD) (g : Buf (Elt F) ((c : Thread nD τ).loc cc0_scratch2))
    (hg : ∀ idx, (idx 0).val ≠ c.val → g idx = gathAll m idx) :
    k0_pay1 (k0_pay3 (tOf m c) (wshOf m c))
        (k0_pay15 (devWord c)
          (KVal.statsF32 (ld (xOf m c) 0) (ld (xOf m c) 1) (ld (xOf m c) 2) (ld (xOf m c) 3)) (xOf m c) g)
        (k0_pay16 (k0_pay2 (tOf m c) (wsOf m c)))
      = outAt m c := by
  unfold outAt KVal.outBlock
  rw [devWord_eq, KVal.norm_congr c _ (xOf m c) g (gathAll m) hg]

theorem tail14_run (c : Dev nD) (g : Buf (Elt F) ((c : Thread nD τ).loc cc0_scratch2))
    (v128 v133 : FVec F S4x256 .f32) (v190 : FVec F S2x4x512 .f32)
    (Q : (Σ' (v133 : FVec F S4x256 .f32) (v417 : FVec F S4x512x256 .f32), FVec F S4x512x256 .f32) → sProp 𝕄) :
    iprop((((c : Thread nD τ).loc cc0_scratch0) ↦{fullShare} xOf m c)
        ∗ (((c : Thread nD τ).loc cc0_scratch2) ↦{fullShare} g)
        ∗ (((((c : Thread nD τ).loc cc0_scratch0) ↦{fullShare} xOf m c)
              ∗ (((c : Thread nD τ).loc cc0_scratch2) ↦{fullShare} g))
            -∗ Q ⟨v133, k0_pay15 (devWord c) v190 (xOf m c) g, k0_pay16 v128⟩))
      ⊢ wp frame (wpE (defs₀ (F := F)) 𝒱₀ c none) Set.univ
          (do
            let v387 : Vec F S4x512x256 .f32 ← Prog.lift (.load xvM
              (Rect.unit (s := S4x512x256) ![0, 0, 0] S4x512x256.size inb_S4x512x256_S4x512x256_0_0_0).toLoadRect
              (View.loadsAt_vmem h_S4x512x256))
            let v391 : Vec F S32x2x4x512 .bf16 ← Prog.lift (.load gM
              (Rect.unit (s := S32x2x4x512) ![0, 0, 0, 0] S32x2x4x512.size
                inb_S32x2x4x512_S32x2x4x512_0_0_0_0).toLoadRect
              (View.loadsAt_vmem h_S32x2x4x512))
            pure ⟨v133, k0_pay15 (devWord c) v190 v387 v391, k0_pay16 v128⟩) Q := by
  iintro ⟨Hxv, Hg, Hk⟩
  iapply (wp_load_eq c (mr := xvM) (S := Finset.univ) (q := fullShare) (f := xOf m c) (Finset.subset_univ _)
    (xOf m c) (read_whole_xv (xOf m c)) Q)
  iframe Hxv
  iintro Hxv
  iapply (wp_load_eq c (mr := gM) (S := Finset.univ) (q := fullShare) (f := g) (Finset.subset_univ _)
    g (read_whole_g g) Q)
  iframe Hg
  iintro Hg
  simp only [Prog.pure_eq_ret, Prog.bind, wp_ret]
  imodintro
  iapply Hk
  iframe Hxv Hg

theorem read_whole_out (X : (cc0_stg3_0 : Ref sig .tc).ty.Contents (Elt F)) :
    (oM : Memref sig .tc .vmem S4x512x256 .f32).view.readAt (Elt F)
        (Rect.unit (s := S4x512x256) ![0, 0, 0] S4x512x256.size inb_S4x512x256_S4x512x256_0_0_0).toLoadRect X = X :=
  Memref.readAt_unit_zero (Elt F) cc0_stg3_0 zeros3 _ X

theorem wp_store_eq (c : Dev nD) {cs : CoreSpace} {s : Shape} {e : EltTy} {mr : Memref sig .tc cs s e} {r : Rect s}
    {w : r.shape.Idx → Elt F e} {Mk : Finset r.shape.Idx} {hx : (mr.access r).Stores Mk}
    {hm : Mk = Finset.univ ∨ ∀ a, r.stride a = 1} {α : Type}
    {k : PUnit → Prog (TpuEff nD τ sig (Elt F) Λ₀ .tc) α}
    {S : Finset (Idx ((mr.access r).loc (c : Thread nD τ)))} {f : Buf (Elt F) ((mr.access r).loc (c : Thread nD τ))}
    (hS : (mr.access r).setOn Mk ⊆ S) (v' : Buf (Elt F) ((mr.access r).loc (c : Thread nD τ)))
    (hv : (mr.access r).write (Elt F) f w Mk = v') (Q : α → sProp 𝕄) :
    iprop(((mr.access r).loc (c : Thread nD τ) ↦[S]{fullShare} f)
        ∗ (((mr.access r).loc (c : Thread nD τ) ↦[S]{fullShare} v')
            -∗ wp frame (wpE (defs₀ (F := F)) 𝒱₀ c none) Set.univ (k ⟨⟩) Q))
      ⊢ wp frame (wpE (defs₀ (F := F)) 𝒱₀ c none) Set.univ (.op (.store mr r w Mk hx hm) k) Q := by
  subst hv
  iintro ⟨H, Hk⟩
  iapply (wp_store 𝒱₀ (c : Thread nD τ) none Set.univ (m := mr) hS) $$ H
  iexact Hk

theorem store_out_run (c : Dev nD) (X V : (cc0_stg3_0 : Ref sig .tc).ty.Contents (Elt F)) (Q : PUnit → sProp 𝕄) :
    iprop(stg c cc0_stg3_0 X ∗ (stg c cc0_stg3_0 V -∗ Q ⟨⟩))
      ⊢ wp frame (wpE (defs₀ (F := F)) 𝒱₀ c none) Set.univ
          (do
            let v426 : Vec F S4x512x256 .f32 ← Prog.lift (.load oM
              (Rect.unit (s := S4x512x256) ![0, 0, 0] S4x512x256.size inb_S4x512x256_S4x512x256_0_0_0).toLoadRect
              (View.loadsAt_vmem h_S4x512x256))
            Prog.lift (.store oM
              (Rect.unit (s := S4x512x256) ![0, 0, 0] S4x512x256.size inb_S4x512x256_S4x512x256_0_0_0) V
              Finset.univ (View.stores_vmem_bits_univ h_S4x512x256 rfl) (.inl rfl))
            pure ⟨⟩) Q := by
  iintro ⟨Hst, Hk⟩
  icases Hst with ⟨%fo, %hfo, Ho⟩
  subst hfo
  iapply (wp_load_eq c (mr := oM) (S := Finset.univ) (q := fullShare) (f := fo) (Finset.subset_univ _)
    fo (read_whole_out fo) Q)
  iframe Ho
  iintro Ho
  iapply (wp_store_eq c (mr := oM) (S := Finset.univ) (f := fo) (Finset.subset_univ _) V (write_whole_out fo V) Q)
  iframe Ho
  iintro Ho
  simp only [Prog.pure_eq_ret, Prog.bind, wp_ret]
  imodintro
  iapply Hk
  iexists V
  isplitr; · ipureintro; rfl
  iexact Ho

end Cert.KernelIdeal.Proto

end
-- ==== Proof.Body.lean ====
import proofs.«900771_g7700000000000772_dist_diff_adaln_cshard_i_b4_s512_c256_v7x_i32_f32_1_alg».proof.Proof.BodyB
import proofs.«900771_g7700000000000772_dist_diff_adaln_cshard_i_b4_s512_c256_v7x_i32_f32_1_alg».proof.Proof.BodyGlue
import proofs.«900771_g7700000000000772_dist_diff_adaln_cshard_i_b4_s512_c256_v7x_i32_f32_1_alg».proof.Proof.BodyEnds
import proofs.«900771_g7700000000000772_dist_diff_adaln_cshard_i_b4_s512_c256_v7x_i32_f32_1_alg».proof.Proof.BodyParts56
import proofs.«900771_g7700000000000772_dist_diff_adaln_cshard_i_b4_s512_c256_v7x_i32_f32_1_alg».proof.Proof.BodySendPart7
import proofs.«900771_g7700000000000772_dist_diff_adaln_cshard_i_b4_s512_c256_v7x_i32_f32_1_alg».proof.Proof.BodySendParts
import proofs.«900771_g7700000000000772_dist_diff_adaln_cshard_i_b4_s512_c256_v7x_i32_f32_1_alg».proof.Proof.BodyPart10
import proofs.«900771_g7700000000000772_dist_diff_adaln_cshard_i_b4_s512_c256_v7x_i32_f32_1_alg».proof.Proof.BodyTail

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev mid23 : List (Dev nD) := [2, 3]
abbrev rest10 : List (Dev nD) := [2, 3, 4, 5, 6, 7, 8, 9, 10, 11, 12, 13, 14, 15, 16, 17, 18, 19, 20, 21, 22, 23, 24, 25, 26, 27, 28, 29, 30, 31]

theorem peers_sig : peers = seg1 ++ (seg2 ++ (seg3 ++ seg4)) := rfl
theorem peers_send : peers = seg7 ++ (seg8 ++ (seg9 ++ seg10s)) := rfl
theorem rest7_send : rest7 = seg8 ++ (seg9 ++ seg10s) := rfl
theorem peers_wait : peers = seg10w ++ (seg11 ++ (seg12 ++ seg13)) := rfl
theorem seg7_cut : seg7 = seg10w ++ mid23 := rfl
theorem rest10_send : rest10 = mid23 ++ (seg8 ++ (seg9 ++ seg10s)) := rfl
theorem rest10_wait : rest10 = seg11 ++ (seg12 ++ seg13) := rfl

theorem split2 (a b : List (Dev nD)) (l : List (Dev nD)) (h : l = a ++ b) (Φ : Dev nD → sProp 𝕄) :
    bigSepL l Φ ⊣⊢ iprop(bigSepL a Φ ∗ bigSepL b Φ) := by subst h; exact bigSepL_append a b Φ
theorem split3 (a b d : List (Dev nD)) (l : List (Dev nD)) (h : l = a ++ (b ++ d)) (Φ : Dev nD → sProp 𝕄) :
    bigSepL l Φ ⊣⊢ iprop(bigSepL a Φ ∗ bigSepL b Φ ∗ bigSepL d Φ) := by
  subst h
  exact ⟨(bigSepL_append _ _ Φ).1.trans (sep_mono_right (bigSepL_append _ _ Φ).1),
    (sep_mono_right (bigSepL_append _ _ Φ).2).trans (bigSepL_append _ _ Φ).2⟩
theorem split4 (a b d e : List (Dev nD)) (l : List (Dev nD)) (h : l = a ++ (b ++ (d ++ e))) (Φ : Dev nD → sProp 𝕄) :
    bigSepL l Φ ⊣⊢ iprop(bigSepL a Φ ∗ bigSepL b Φ ∗ bigSepL d Φ ∗ bigSepL e Φ) := by
  subst h
  exact ⟨(bigSepL_append _ _ Φ).1.trans (sep_mono_right (split3 _ _ _ _ rfl Φ).1),
    (sep_mono_right (split3 _ _ _ _ rfl Φ).2).trans (bigSepL_append _ _ Φ).2⟩

theorem grps_out (Φ : Fin 4 → sProp 𝕄) : bigSepL grps Φ ⊣⊢ iprop(Φ 0 ∗ Φ 1 ∗ Φ 2 ∗ Φ 3) := by
  show bigSepL [0, 1, 2, 3] Φ ⊣⊢ _
  rw [bigSepL_cons_sep, bigSepL_cons_sep, bigSepL_cons_sep, bigSepL_singleton]

theorem owed_sig (c : Dev nD) : O₀ c = sumFrom (sumFrom (sumFrom (sumFrom (O₁ c) (owedBar c) seg4) (owedBar c) seg3) (owedBar c) seg2) (owedBar c) seg1 := by
  unfold O₀; rw [peers_sig, sumFrom_append, sumFrom_append, sumFrom_append]
theorem owed_send (c : Dev nD) : sumFrom 0 (owedRecv c) rest7 = sumFrom (sumFrom (sumFrom 0 (owedRecv c) seg10s) (owedRecv c) seg9) (owedRecv c) seg8 := by
  rw [rest7_send, sumFrom_append, sumFrom_append]

theorem owes_eq (c : Dev nD) {O O' : CellTallies nD τ sig Unit} (h : O = O') (W : Waits sig Unit) :
    (owes (c : Thread nD τ) O W : sProp 𝕄) ⊢ owes (c : Thread nD τ) O' W := by subst h; exact Entails.refl _

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
set_option maxHeartbeats 6400000 in

-- One device's body: its buffers cut into the pieces the copies address, the fourteen parts run in order, the pieces joined back.
theorem sound_body (c : Dev nD) :
    bodyPre m ρ c ⊢ wp frame (wpE (defs₀ (F := F)) 𝒱₀ c none) Set.univ (cc0_body (F := F) xM (Memref.isWhole_whole _) tM (Memref.isWhole_whole _) wsM (Memref.isWhole_whole _) wshM (Memref.isWhole_whole _) oM (Memref.isWhole_whole _) xvM (Memref.isWhole_whole _) stM (Memref.isWhole_whole _) gM (Memref.isWhole_whole _) cc0_scratch3 cc0_scratch4 cc0_scratch5) (fun _ => bodyPost m ρ c) := by
  rw [cc0_body_eq_skeleton]; unfold cc0_body_skel
  rw [wp_bind]
  rw [k0_part14_eq_skeleton]; unfold k0_part14_skel
  unfold bodyPre Φ₀ start scratch
  simp only [before_t, before_ws, before_wsh]
  iintro ⟨⟨⟨⟨%K, Hg⟩, Hcreds, #Hlev, Hx⟩, ⟨%f0, Hxv⟩, ⟨%f1, Hst⟩, ⟨%f2, Hgm⟩⟩, Ho, ⟨%d0, Ht⟩, ⟨%d1, Hws⟩, ⟨%d2, Hwsh⟩, ⟨%d3, Hout⟩⟩
  unfold ghost myPos payToks creds
  icases Hg with ⟨#HR, ⟨HaB, HaS, HaR, HaC⟩, ⟨Hsig, Hsnd, Hcpy⟩⟩
  icases Hcreds with ⟨HcB, HcR⟩
  icases (owesAt_start m ρ c) $$ Ho with ⟨%W, HO⟩
  ihave Hsl := (Entails.of_eq (g_tile c f2)) $$ Hgm
  icases (slots_own c f2) $$ Hsl with ⟨Hown, Hslots⟩
  ihave Hxs := (Entails.of_eq (x_tile m c)) $$ Hx
  icases (grps_out _).1 $$ Hxs with ⟨Hx0, Hx1, Hx2, Hx3⟩
  ihave Hxvs := (Entails.of_eq (xv_tile c f0)) $$ Hxv
  icases (grps_out _).1 $$ Hxvs with ⟨Hv0, Hv1, Hv2, Hv3⟩
  icases (grps_out _).1 $$ Hcpy with ⟨Hc0, Hc1, Hc2, Hc3⟩
  icases (grps_out _).1 $$ HaC with ⟨HaC0, HaC1, HaC2, HaC3⟩
  icases (split4 seg1 seg2 seg3 seg4 peers peers_sig (sigTok c)).1 $$ Hsig with ⟨Hsig1, Hsig2, Hsig3, Hsig4⟩
  icases (split4 seg1 seg2 seg3 seg4 peers peers_sig (slotIf c)).1 $$ Hslots with ⟨Hsl1, Hsl2, Hsl3, Hsl4⟩
  icases (split4 seg7 seg8 seg9 seg10s peers peers_send (sndTok c)).1 $$ Hsnd with ⟨Hsnd7, Hsnd8, Hsnd9, Hsnd10⟩
  icases (split4 seg10w seg11 seg12 seg13 peers peers_wait (recvCred c)).1 $$ HcR with ⟨HcR10, HcR11, HcR12, HcR13⟩
  icases (split4 seg10w seg11 seg12 seg13 peers peers_wait _).1 $$ HaR with ⟨HaR10, HaR11, HaR12, HaR13⟩
  icases (split4 seg10w seg11 seg12 seg13 peers peers_wait _).1 $$ HaS with ⟨HaS10, HaS11, HaS12, HaS13⟩
  ihave HO1 := (owes_eq c (owed_sig c) W) $$ HO
  rw [wp_bind]
  iapply (part1_run m K c _ W _)
  iframe HR HO1 Hsig1 Hsl1
  iintro HO
  rw [wp_bind]
  iapply (part2_run m K c _ W _)
  iframe HR HO Hsig2 Hsl2
  iintro HO
  rw [wp_bind]
  iapply (part3_run m K c _ W _)
  iframe HR HO Hsig3 Hsl3
  iintro HO
  rw [wp_bind]
  iapply (part4_run m K c _ W f0 _)
  iframe HR HO Hsig4 Hsl4 Hc0 Hc1 Hx0 Hx1 Hv0 Hv1
  iintro ⟨HO, Hcr0, Hcr1⟩
  rw [wp_bind]
  iapply (part5_run m K c W f0 _)
  iframe HR Hlev Hc2 Hc3 Hx2 Hv2 Hx3 Hv3 Ht Hws Hwsh Hcr0 HO HaC0
  iintro ⟨Hcr2, Hcr3, Ht, Hws, Hwsh, HO, HaC0, Hp0⟩
  rw [wp_bind]
  iapply (part6_run m K c _ _)
  iframe HR Hlev Hcr1 Hcr2 HO HaC1 HaC2
  iintro ⟨HO, HaC1, HaC2, Hp1, Hp2⟩
  rw [wp_bind]
  iapply (part7_run m K c _ _)
  iframe HR Hlev HO Hcr3 HaC3
  isplitl [Hst]; · iexists f1; iexact Hst
  iframe HcB HaB Hsnd7
  iintro ⟨HO, HaC3, Hp3, HaB, Hcr7, Hbar, Hsti, Hstc, Hstd⟩
  icases (split3 seg8 seg9 seg10s rest7 rest7_send (barIf c)).1 $$ Hbar with ⟨Hbar8, Hbar9, Hbar10⟩
  icases (split3 seg8 seg9 seg10s rest7 rest7_send (stIf m c)).1 $$ Hsti with ⟨Hst8, Hst9, Hst10⟩
  ihave HO' := (owes_eq c (owed_send c) _) $$ HO
  rw [wp_bind]
  iapply (part8_run m K c _ _ _ _)
  iframe HR HO' Hsnd8 Hbar8 Hst8
  iintro ⟨Hcr8, HO⟩
  rw [wp_bind]
  iapply (part9_run m K c _ _ _ _)
  iframe HR HO Hsnd9 Hbar9 Hst9
  iintro ⟨Hcr9, HO⟩
  icases (split2 seg10w mid23 seg7 seg7_cut (sendCr c)).1 $$ Hcr7 with ⟨Hcr10w, Hcrmid⟩
  rw [wp_bind]
  iapply (part10_run m K c _ _ _)
  iframe HR HO Hsnd10 Hbar10 Hst10
  isplitl [HcR10 Hcr10w HaR10 HaS10]
  · unfold waitIn
    iframe HcR10 Hcr10w HaR10 HaS10
  iintro %W10 ⟨Hcr10, HO, Hwo10⟩
  unfold waitOut
  icases Hwo10 with ⟨Hg10, Hs10, Hzr10, Hzs10⟩
  ihave Hcrall := (split4 mid23 seg8 seg9 seg10s rest10 rest10_send (sendCr c)).2 $$ [Hcrmid Hcr8 Hcr9 Hcr10]
  · isplitl [Hcrmid]; · iexact Hcrmid
    iframe Hcr8 Hcr9 Hcr10
  icases (split3 seg11 seg12 seg13 rest10 rest10_wait (sendCr c)).1 $$ Hcrall with ⟨Hcr11, Hcr12, Hcr13⟩
  rw [wp_bind]
  iapply (part11_run m K c _ _)
  iframe HR HO
  isplitl [HcR11 Hcr11 HaR11 HaS11]
  · unfold waitIn
    iframe HcR11 Hcr11 HaR11 HaS11
  iintro %W11 ⟨HO, Hwo11⟩
  unfold waitOut
  icases Hwo11 with ⟨Hg11, Hs11, Hzr11, Hzs11⟩
  rw [wp_bind]
  iapply (part12_run m K c _ _)
  iframe HR HO
  isplitl [HcR12 Hcr12 HaR12 HaS12]
  · unfold waitIn
    iframe HcR12 Hcr12 HaR12 HaS12
  iintro %W12 ⟨HO, Hwo12⟩
  unfold waitOut
  icases Hwo12 with ⟨Hg12, Hs12, Hzr12, Hzs12⟩
  rw [wp_bind]
  iapply (part13_run m K c _ _)
  iframe HR HO
  isplitl [HcR13 Hcr13 HaR13 HaS13]
  · unfold waitIn
    iframe HcR13 Hcr13 HaR13 HaS13
  iintro %W13 ⟨HO, Hwo13⟩
  unfold waitOut
  icases Hwo13 with ⟨Hg13, Hs13, Hzr13, Hzs13⟩
  ihave Hgot := (split4 seg10w seg11 seg12 seg13 peers peers_wait (slotGot m c)).2 $$ [Hg10 Hg11 Hg12 Hg13]
  · isplitl [Hg10]; · iexact Hg10
    iframe Hg11 Hg12 Hg13
  ihave Hgj := (got_join m c f2) $$ [Hown Hgot]
  · isplitl [Hown]; · iexact Hown
    iexact Hgot
  icases (g_join m c f2) $$ Hgj with ⟨%g, %hg, Hgm⟩
  ihave Hsti := (split4 seg10w seg11 seg12 seg13 peers peers_wait (stIf m c)).2 $$ [Hs10 Hs11 Hs12 Hs13]
  · isplitl [Hs10]; · iexact Hs10
    iframe Hs11 Hs12 Hs13
  ihave Hsh := (st_own m c).2 $$ [Hstc Hsti]
  · isplitl [Hstc]; · iexact Hstc
    iexact Hsti
  ihave Hst := (st_toks m c).2 $$ [Hstd Hsh]
  · isplitl [Hstd]; · iexact Hstd
    iexact Hsh
  icases (copyPay_elim m c 0) $$ Hp0 with ⟨Hv0, Hx0⟩
  icases (copyPay_elim m c 1) $$ Hp1 with ⟨Hv1, Hx1⟩
  icases (copyPay_elim m c 2) $$ Hp2 with ⟨Hv2, Hx2⟩
  icases (copyPay_elim m c 3) $$ Hp3 with ⟨Hv3, Hx3⟩
  ihave Hvs := (grps_out (fun k => ((xvSl k).view.loc (c : Thread nD τ) ↦[(xvSl k).view.set]{fullShare} xOf m c : sProp 𝕄))).2 $$ [Hv0 Hv1 Hv2 Hv3]
  · isplitl [Hv0]; · iexact Hv0
    iframe Hv1 Hv2 Hv3
  ihave Hxv := (Entails.of_eq (xv_tile c (xOf m c)).symm) $$ Hvs
  ihave Hxs := (grps_out (fun k => ((xSl k).view.loc (c : Thread nD τ) ↦[(xSl k).view.set]{fullShare} xOf m c : sProp 𝕄))).2 $$ [Hx0 Hx1 Hx2 Hx3]
  · isplitl [Hx0]; · iexact Hx0
    iframe Hx1 Hx2 Hx3
  ihave Hx := (Entails.of_eq (x_tile m c).symm) $$ Hxs
  imod (copy_close m K c 0) $$ [HaC0] with Hzc0
  · isplitr; · iexact HR
    iexact HaC0
  imod (copy_close m K c 1) $$ [HaC1] with Hzc1
  · isplitr; · iexact HR
    iexact HaC1
  imod (copy_close m K c 2) $$ [HaC2] with Hzc2
  · isplitr; · iexact HR
    iexact HaC2
  imod (copy_close m K c 3) $$ [HaC3] with Hzc3
  · isplitr; · iexact HR
    iexact HaC3
  ihave Hzc := (grps_out (fun k => (semVal (copyCell c k) 0 : sProp 𝕄))).2 $$ [Hzc0 Hzc1 Hzc2 Hzc3]
  · isplitl [Hzc0]; · iexact Hzc0
    iframe Hzc1 Hzc2 Hzc3
  ihave Hzs := (split4 seg10w seg11 seg12 seg13 peers peers_wait (fun j => (semVal (sendCell c j) 0 : sProp 𝕄))).2 $$ [Hzs10 Hzs11 Hzs12 Hzs13]
  · isplitl [Hzs10]; · iexact Hzs10
    iframe Hzs11 Hzs12 Hzs13
  ihave Hzr := (split4 seg10w seg11 seg12 seg13 peers peers_wait (fun i => (semVal (recvCell c i) 0 : sProp 𝕄))).2 $$ [Hzr10 Hzr11 Hzr12 Hzr13]
  · isplitl [Hzr10]; · iexact Hzr10
    iframe Hzr11 Hzr12 Hzr13
  ihave Hsems := (ownSems_intro (F := F) c) $$ [Hzc Hzs Hzr]
  · isplitl [Hzc]; · iexact Hzc
    iframe Hzs Hzr
  iapply (tail14_run m c g _ _ _ _)
  iframe Hxv Hgm
  iintro ⟨Hxv, Hgm⟩
  iapply (store_out_run c _ _ _)
  iframe Hout
  iintro Hout
  unfold bodyPost
  isplitl [Hx Hxv Hst Hgm Hsems]
  · iapply (phi1_intro m c (xOf m c) (sentOf m c) g)
    iframe Hx Hxv Hst Hgm Hsems
  isplitl [HO]; · iapply (owesAt_end m ρ c _); iexact HO
  iframe Ht Hws Hwsh
  iapply (Entails.of_eq (congrArg (fun X => (stg c cc0_stg3_0 X : sProp 𝕄)) (out_value m c g hg)))
  iexact Hout

theorem body_ok : BodyOK F := fun m ρ c t => by
  rw [fin_N t]
  rw [bigSep_W0, bigSep_W0]
  simp only [owns_whole_eq]
  exact sound_body m ρ c

end Cert.KernelIdeal.Proto

end
-- ==== Proof.lean ====
import proofs.«900771_g7700000000000772_dist_diff_adaln_cshard_i_b4_s512_c256_v7x_i32_f32_1_alg».proof.Defs
import proofs.«900771_g7700000000000772_dist_diff_adaln_cshard_i_b4_s512_c256_v7x_i32_f32_1_alg».proof.Proof.Gen.Kernel
import proofs.«900771_g7700000000000772_dist_diff_adaln_cshard_i_b4_s512_c256_v7x_i32_f32_1_alg».proof.Proof.Gen.KernelIdeal
import proofs.«900771_g7700000000000772_dist_diff_adaln_cshard_i_b4_s512_c256_v7x_i32_f32_1_alg».proof.Proof.Gen.ReferenceIdeal
import proofs.«900771_g7700000000000772_dist_diff_adaln_cshard_i_b4_s512_c256_v7x_i32_f32_1_alg».proof.Proof.Gen.Pre_finite_inputs_Kernel
import proofs.«900771_g7700000000000772_dist_diff_adaln_cshard_i_b4_s512_c256_v7x_i32_f32_1_alg».proof.Proof.Gen.Pre_finite_inputs_ReferenceIdeal
import proofs.«900771_g7700000000000772_dist_diff_adaln_cshard_i_b4_s512_c256_v7x_i32_f32_1_alg».proof.Proof.KFrame
import proofs.«900771_g7700000000000772_dist_diff_adaln_cshard_i_b4_s512_c256_v7x_i32_f32_1_alg».proof.Proof.KClaims
import proofs.«900771_g7700000000000772_dist_diff_adaln_cshard_i_b4_s512_c256_v7x_i32_f32_1_alg».proof.Proof.RefRun
import proofs.«900771_g7700000000000772_dist_diff_adaln_cshard_i_b4_s512_c256_v7x_i32_f32_1_alg».proof.Proof.Launch
import proofs.«900771_g7700000000000772_dist_diff_adaln_cshard_i_b4_s512_c256_v7x_i32_f32_1_alg».proof.Proof.Body

noncomputable section

namespace Cert.Proof

open Idealize.ShloMosaic Idealize.SL.Sem Cert.KernelIdeal.Proto

-- Kernel and KernelIdeal are one program text: their label tables agree label by label, and everything else by unfolding.
theorem defs_eq {F : FTy → Type} [FloatOps F] : Cert.Kernel.defs (F := F) = Cert.KernelIdeal.defs (F := F) :=
  congrArg (Pipeline.defs Cert.KernelIdeal.pcfgs) (congrArg Defs.onTc (funext fun l => funext fun a => by
    match l, a with
    | 0, (t, s) => rfl
    | ⟨n + 1, h⟩, _ => exact absurd h (Nat.not_lt.2 (Nat.le_add_left _ _))))

-- The run is proved at every float instance, so it serves both programs.
theorem frame_Kernel :
    Cert.frame_Kernel (hKernel := Cert.Kernel.Gen.facts) (hPre_finite_inputs_Kernel := Cert.Pre_finite_inputs_Kernel.Gen.facts) :=
  fun m g _ => by
    rw [defs_eq]
    exact frame_post_of_run (run_value (body_ok (F := Bits))) m g

theorem frame_KernelIdeal :
    Cert.frame_KernelIdeal (hKernelIdeal := Cert.KernelIdeal.Gen.facts) (hPre_finite_inputs_Kernel := Cert.Pre_finite_inputs_Kernel.Gen.facts) :=
  fun m g _ => frame_post_of_run (run_value (body_ok (F := Ideal))) m g

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, Cert.ReferenceIdeal.RefRun.frame, trivial,
    Cert.KernelIdeal.Claims.algebraic_of_run (run_value (body_ok (F := Ideal)))⟩

end Cert.Proof

end
